-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v113)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v114)) (v3 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v114) = v2 c
          ∧ r.2.mem ((c.tc : Thread Cert.KernelIdeal.nD Cert.KernelIdeal.τ).loc Cert.KernelIdeal.main_v63) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S128x512 : Shape := ⟨2, ![128, 512]⟩
abbrev S128x50000 : Shape := ⟨2, ![128, 50000]⟩
abbrev S50000x1024 : Shape := ⟨2, ![50000, 1024]⟩
abbrev S50000 : Shape := ⟨1, ![50000]⟩
abbrev S2x1024 : Shape := ⟨2, ![2, 1024]⟩
abbrev S2 : Shape := ⟨1, ![2]⟩
abbrev S32000 : Shape := ⟨1, ![32000]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128x50000 : S_.BroadcastsInDim S128x50000 (![] : Fin 0 → Fin S128x50000.rank)
  reducesTo_S128x50000_S_d0_1 : S128x50000.ReducesTo [0, 1] S_
  bcast_S_S50000x1024 : S_.BroadcastsInDim S50000x1024 (![] : Fin 0 → Fin S50000x1024.rank)
  reducesTo_S50000x1024_S_d0_1 : S50000x1024.ReducesTo [0, 1] S_
  bcast_S_S50000 : S_.BroadcastsInDim S50000 (![] : Fin 0 → Fin S50000.rank)
  reducesTo_S50000_S_d0 : S50000.ReducesTo [0] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_
  bcast_S_S32000 : S_.BroadcastsInDim S32000 (![] : Fin 0 → Fin S32000.rank)
  reducesTo_S32000_S_d0 : S32000.ReducesTo [0] S_

variable [Facts]

def fn_part2 {F : FTy → Type} [FloatOps F] (main_arg8 : IVec S32000 32) (main_v33 : IVec S_ 1) : IVec S_ 1 :=
  let main_c_12 : IVec S_ 32 := constantI S_ 32 0#32
  let main_v34 : IVec S32000 32 := broadcastInDim S32000 ![] bcast_S_S32000 main_c_12
  let main_v35 : IVec S32000 1 := cmpi .sge main_arg8 main_v34
  let main_c_13 : IVec S_ 1 := constantI S_ 1 1#1
  let main_v36 : IVec S_ 1 := (fun x v => Host.reduce IntOp.andi x v reducesTo_S32000_S_d0 h_S_) main_v35 main_c_13
  let main_v37 : IVec S_ 1 := andi main_v33 main_v36
  main_v37

def fn_part1 {F : FTy → Type} [FloatOps F] (main_arg5 : FVec F S50000 .f32) (main_arg6 : FVec F S2x1024 .f32) (main_arg7 : FVec F S2 .f32) (main_arg8 : IVec S32000 32) (main_v13 : IVec S_ 1) (main_v16 : IVec S50000x1024 1) : IVec S_ 1 :=
  let main_c_5 : IVec S_ 1 := constantI S_ 1 1#1
  let main_v17 : IVec S_ 1 := (fun x v => Host.reduce IntOp.andi x v reducesTo_S50000x1024_S_d0_1 h_S_) main_v16 main_c_5
  let main_v18 : IVec S_ 1 := andi main_v13 main_v17
  let main_v19 : FVec F S50000 .f32 := Host.absf main_arg5
  let main_cst_6 : FVec F S_ .f32 := constant S_ .f32 0x7F800000#32
  let main_v20 : FVec F S50000 .f32 := broadcastInDim S50000 ![] bcast_S_S50000 main_cst_6
  let main_v21 : IVec S50000 1 := cmpf .olt main_v19 main_v20
  let main_c_7 : IVec S_ 1 := constantI S_ 1 1#1
  let main_v22 : IVec S_ 1 := (fun x v => Host.reduce IntOp.andi x v reducesTo_S50000_S_d0 h_S_) main_v21 main_c_7
  let main_v23 : IVec S_ 1 := andi main_v18 main_v22
  let main_v24 : FVec F S2x1024 .f32 := Host.absf main_arg6
  let main_cst_8 : FVec F S_ .f32 := constant S_ .f32 0x7F800000#32
  let main_v25 : FVec F S2x1024 .f32 := broadcastInDim S2x1024 ![] bcast_S_S2x1024 main_cst_8
  let main_v26 : IVec S2x1024 1 := cmpf .olt main_v24 main_v25
  let main_c_9 : IVec S_ 1 := constantI S_ 1 1#1
  let main_v27 : IVec S_ 1 := (fun x v => Host.reduce IntOp.andi x v reducesTo_S2x1024_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_v33

def fn {F : FTy → Type} [FloatOps F] (main_arg0 : FVec F S128x1024 .f32) (main_arg1 : IVec S128x512 32) (main_arg2 : FVec F S128x512 .f32) (main_arg3 : FVec F S128x50000 .f32) (main_arg4 : FVec F S50000x1024 .f32) (main_arg5 : FVec F S50000 .f32) (main_arg6 : FVec F S2x1024 .f32) (main_arg7 : FVec F S2 .f32) (main_arg8 : IVec S32000 32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128x50000 .f32 := Host.absf main_arg3
  let main_cst_2 : FVec F S_ .f32 := constant S_ .f32 0x7F800000#32
  let main_v10 : FVec F S128x50000 .f32 := broadcastInDim S128x50000 ![] bcast_S_S128x50000 main_cst_2
  let main_v11 : IVec S128x50000 1 := cmpf .olt main_v9 main_v10
  let main_c_3 : IVec S_ 1 := constantI S_ 1 1#1
  let main_v12 : IVec S_ 1 := (fun x v => Host.reduce IntOp.andi x v reducesTo_S128x50000_S_d0_1 h_S_) main_v11 main_c_3
  let main_v13 : IVec S_ 1 := andi main_v8 main_v12
  let main_v14 : FVec F S50000x1024 .f32 := Host.absf main_arg4
  let main_cst_4 : FVec F S_ .f32 := constant S_ .f32 0x7F800000#32
  let main_v15 : FVec F S50000x1024 .f32 := broadcastInDim S50000x1024 ![] bcast_S_S50000x1024 main_cst_4
  let main_v16 : IVec S50000x1024 1 := cmpf .olt main_v14 main_v15
  fn_part1 (F := F) main_arg5 main_arg6 main_arg7 main_arg8 main_v13 main_v16
-- ==== Kernel.lean ====
abbrev S128x1024 : Shape := ⟨2, ![128, 1024]⟩
abbrev S128x512 : Shape := ⟨2, ![128, 512]⟩
abbrev S128x50000 : Shape := ⟨2, ![128, 50000]⟩
abbrev S50000x1024 : Shape := ⟨2, ![50000, 1024]⟩
abbrev S50000 : Shape := ⟨1, ![50000]⟩
abbrev S2x1024 : Shape := ⟨2, ![2, 1024]⟩
abbrev S2 : Shape := ⟨1, ![2]⟩
abbrev S32000 : Shape := ⟨1, ![32000]⟩
abbrev S1024x2 : Shape := ⟨2, ![1024, 2]⟩
abbrev S128x2 : Shape := ⟨2, ![128, 2]⟩
abbrev S1x2 : Shape := ⟨2, ![1, 2]⟩
abbrev S_ : Shape := ⟨0, ![]⟩
abbrev S51200 : Shape := ⟨1, ![51200]⟩
abbrev S32000x1 : Shape := ⟨2, ![32000, 1]⟩
abbrev S1x50000 : Shape := ⟨2, ![1, 50000]⟩
abbrev S128 : Shape := ⟨1, ![128]⟩
abbrev S128x1 : Shape := ⟨2, ![128, 1]⟩
abbrev S128x32000 : Shape := ⟨2, ![128, 32000]⟩
abbrev S128x512x1 : Shape := ⟨3, ![128, 512, 1]⟩
abbrev S128x512x2 : Shape := ⟨3, ![128, 512, 2]⟩
abbrev S1x51200 : Shape := ⟨2, ![1, 51200]⟩
abbrev S51200x1 : Shape := ⟨2, ![51200, 1]⟩
abbrev S1 : Shape := ⟨1, ![1]⟩
abbrev S1x1 : Shape := ⟨2, ![1, 1]⟩
abbrev S128x51200 : Shape := ⟨2, ![128, 51200]⟩
abbrev S51200x1024 : Shape := ⟨2, ![51200, 1024]⟩
abbrev S2x128x1 : Shape := ⟨3, ![2, 128, 1]⟩
abbrev S2560x1024 : Shape := ⟨2, ![2560, 1024]⟩
abbrev S1x2560 : Shape := ⟨2, ![1, 2560]⟩
abbrev S128x2560 : Shape := ⟨2, ![128, 2560]⟩
abbrev S1x128x1 : Shape := ⟨3, ![1, 128, 1]⟩
abbrev S1024x2560 : Shape := ⟨2, ![1024, 2560]⟩
abbrev S128x5120 : Shape := ⟨2, ![128, 5120]⟩

abbrev nBuf : Space → Nat
  | .hbm => 184
  | .vmem => 27
  | .smem => 0
  | _ => 0

abbrev hbmTy0_0 (i : Nat) : BufTy := match i % 128 with
  | 0 => ⟨S128x1024, .f32⟩
  | 1 => ⟨S128x512, .i32⟩
  | 2 => ⟨S128x512, .f32⟩
  | 3 => ⟨S128x50000, .f32⟩
  | 4 => ⟨S50000x1024, .f32⟩
  | 5 => ⟨S50000, .f32⟩
  | 6 => ⟨S2x1024, .f32⟩
  | 7 => ⟨S2, .f32⟩
  | 8 => ⟨S32000, .i32⟩
  | 9 => ⟨S1024x2, .f32⟩
  | 10 => ⟨S128x2, .f32⟩
  | 11 => ⟨S1x2, .f32⟩
  | 12 => ⟨S128x2, .f32⟩
  | 13 => ⟨S128x2, .f32⟩
  | 14 => ⟨S_, .i32⟩
  | 15 => ⟨S51200, .i32⟩
  | 16 => ⟨S32000, .i32⟩
  | 17 => ⟨S_, .i32⟩
  | 18 => ⟨S32000, .i32⟩
  | 19 => ⟨S32000, .i1⟩
  | 20 => ⟨S_, .i32⟩
  | 21 => ⟨S32000, .i32⟩
  | 22 => ⟨S32000, .i32⟩
  | 23 => ⟨S32000, .i32⟩
  | 24 => ⟨S32000x1, .i32⟩
  | 25 => ⟨S51200, .i32⟩
  | 26 => ⟨S_, .i1⟩
  | 27 => ⟨S51200, .i1⟩
  | 28 => ⟨S_, .i1⟩
  | 29 => ⟨S32000, .i1⟩
  | 30 => ⟨S_, .i32⟩
  | 31 => ⟨S32000, .i32⟩
  | 32 => ⟨S32000, .i1⟩
  | 33 => ⟨S_, .i32⟩
  | 34 => ⟨S32000, .i32⟩
  | 35 => ⟨S32000, .i32⟩
  | 36 => ⟨S32000, .i32⟩
  | 37 => ⟨S32000x1, .i32⟩
  | 38 => ⟨S51200, .i1⟩
  | 39 => ⟨S50000, .i1⟩
  | 40 => ⟨S50000, .i32⟩
  | 41 => ⟨S_, .i32⟩
  | 42 => ⟨S50000, .i32⟩
  | 43 => ⟨S50000, .i1⟩
  | 44 => ⟨S50000, .f32⟩
  | 45 => ⟨S_, .f32⟩
  | 46 => ⟨S_, .f32⟩
  | 47 => ⟨S50000, .f32⟩
  | 48 => ⟨S50000, .f32⟩
  | 49 => ⟨S1x50000, .f32⟩
  | 50 => ⟨S128x50000, .f32⟩
  | 51 => ⟨S128x50000, .f32⟩
  | 52 => ⟨S_, .f32⟩
  | 53 => ⟨S128, .f32⟩
  | 54 => ⟨S_, .f32⟩
  | 55 => ⟨S128, .f32⟩
  | 56 => ⟨S128, .i1⟩
  | 57 => ⟨S_, .i1⟩
  | 58 => ⟨S128, .i1⟩
  | 59 => ⟨S128x1, .i1⟩
  | 60 => ⟨S128x1, .i1⟩
  | 61 => ⟨S128x2, .i1⟩
  | 62 => ⟨S128x2, .f32⟩
  | 63 => ⟨S128x2, .f32⟩
  | 64 => ⟨S128x2, .f32⟩
  | 65 => ⟨S_, .f32⟩
  | 66 => ⟨S128, .f32⟩
  | 67 => ⟨S_, .f32⟩
  | 68 => ⟨S128, .f32⟩
  | 69 => ⟨S128, .f32⟩
  | 70 => ⟨S128x1, .f32⟩
  | 71 => ⟨S128x2, .f32⟩
  | 72 => ⟨S128x2, .f32⟩
  | 73 => ⟨S128x2, .f32⟩
  | 74 => ⟨S_, .f32⟩
  | 75 => ⟨S128, .f32⟩
  | 76 => ⟨S128x1, .f32⟩
  | 77 => ⟨S128x2, .f32⟩
  | 78 => ⟨S128x2, .f32⟩
  | 79 => ⟨S_, .f32⟩
  | 80 => ⟨S128, .f32⟩
  | 81 => ⟨S_, .f32⟩
  | 82 => ⟨S128, .f32⟩
  | 83 => ⟨S128, .f32⟩
  | 84 => ⟨S128x1, .f32⟩
  | 85 => ⟨S128x512, .f32⟩
  | 86 => ⟨S128x512, .f32⟩
  | 87 => ⟨S128x512, .f32⟩
  | 88 => ⟨S_, .f32⟩
  | 89 => ⟨S128, .f32⟩
  | 90 => ⟨S128x1, .f32⟩
  | 91 => ⟨S128x512, .f32⟩
  | 92 => ⟨S128x512, .f32⟩
  | 93 => ⟨S128, .i32⟩
  | 94 => ⟨S128x1, .i32⟩
  | 95 => ⟨S_, .f32⟩
  | 96 => ⟨S128x32000, .f32⟩
  | 97 => ⟨S_, .i32⟩
  | 98 => ⟨S128x1, .i32⟩
  | 99 => ⟨S128x1, .i1⟩
  | 100 => ⟨S_, .i32⟩
  | 101 => ⟨S128x1, .i32⟩
  | 102 => ⟨S128x1, .i32⟩
  | 103 => ⟨S128x1, .i32⟩
  | 104 => ⟨S_, .i32⟩
  | 105 => ⟨S128x512, .i32⟩
  | 106 => ⟨S128x512, .i1⟩
  | 107 => ⟨S_, .i32⟩
  | 108 => ⟨S128x512, .i32⟩
  | 109 => ⟨S128x512, .i32⟩
  | 110 => ⟨S128x512, .i32⟩
  | 111 => ⟨S128x512, .i32⟩
  | 112 => ⟨S128x512x1, .i32⟩
  | 113 => ⟨S128x512x1, .i32⟩
  | 114 => ⟨S128x512x2, .i32⟩
  | 115 => ⟨S128x32000, .f32⟩
  | 116 => ⟨S1x51200, .i1⟩
  | 117 => ⟨S_, .i32⟩
  | 118 => ⟨S51200, .i32⟩
  | 119 => ⟨S51200, .i1⟩
  | 120 => ⟨S_, .i32⟩
  | 121 => ⟨S51200, .i32⟩
  | 122 => ⟨S51200, .i32⟩
  | 123 => ⟨S51200, .i32⟩
  | 124 => ⟨S51200x1, .i32⟩
  | 125 => ⟨S1, .i32⟩
  | 126 => ⟨S_, .i32⟩
  | 127 => ⟨S51200x1, .i32⟩
  | _ => ⟨S128x1024, .f32⟩

abbrev hbmTy0_1 (i : Nat) : BufTy := match i % 128 with
  | 0 => ⟨S51200x1, .i1⟩
  | 1 => ⟨S1x1, .i32⟩
  | 2 => ⟨S51200x1, .i32⟩
  | 3 => ⟨S51200x1, .i1⟩
  | 4 => ⟨S51200x1, .i1⟩
  | 5 => ⟨S_, .i1⟩
  | 6 => ⟨S51200, .i1⟩
  | 7 => ⟨S128x51200, .f32⟩
  | 8 => ⟨S128x51200, .i1⟩
  | 9 => ⟨S_, .f32⟩
  | 10 => ⟨S128x51200, .f32⟩
  | 11 => ⟨S128x51200, .f32⟩
  | 12 => ⟨S_, .f32⟩
  | 13 => ⟨S_, .f32⟩
  | 14 => ⟨S128x51200, .i1⟩
  | 15 => ⟨S128x51200, .f32⟩
  | 16 => ⟨S128x51200, .f32⟩
  | 17 => ⟨S_, .i32⟩
  | 18 => ⟨S_, .f32⟩
  | 19 => ⟨S51200x1024, .f32⟩
  | 20 => ⟨S1x50000, .f32⟩
  | 21 => ⟨S_, .i32⟩
  | 22 => ⟨S_, .f32⟩
  | 23 => ⟨S1x51200, .f32⟩
  | 24 => ⟨S_, .i32⟩
  | 25 => ⟨S_, .f32⟩
  | 26 => ⟨S128x51200, .f32⟩
  | 27 => ⟨S128x51200, .f32⟩
  | 28 => ⟨S2x128x1, .f32⟩
  | 29 => ⟨S2x128x1, .f32⟩
  | 30 => ⟨S1x128x1, .f32⟩
  | 31 => ⟨S128x1, .f32⟩
  | 32 => ⟨S1x128x1, .f32⟩
  | 33 => ⟨S128x1, .f32⟩
  | 34 => ⟨S128x1, .f32⟩
  | 35 => ⟨S1x128x1, .f32⟩
  | 36 => ⟨S128x1, .f32⟩
  | 37 => ⟨S1x128x1, .f32⟩
  | 38 => ⟨S128x1, .f32⟩
  | 39 => ⟨S128x1, .f32⟩
  | 40 => ⟨S128x1, .f32⟩
  | 41 => ⟨S128x1, .f32⟩
  | 42 => ⟨S1x128x1, .f32⟩
  | 43 => ⟨S128x1, .f32⟩
  | 44 => ⟨S1x128x1, .f32⟩
  | 45 => ⟨S128x1, .f32⟩
  | 46 => ⟨S128x1, .f32⟩
  | 47 => ⟨S128x1, .f32⟩
  | 48 => ⟨S128x1, .f32⟩
  | 49 => ⟨S128x1, .f32⟩
  | 50 => ⟨S128x1, .f32⟩
  | 51 => ⟨S128x1, .f32⟩
  | 52 => ⟨S128x51200, .f32⟩
  | 53 => ⟨S128x51200, .f32⟩
  | 54 => ⟨S128x50000, .f32⟩
  | 55 => ⟨S128x50000, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S2560x1024, .f32⟩
  | .local _ .vmem, ⟨2, _⟩ => ⟨S2560x1024, .f32⟩
  | .local _ .vmem, ⟨3, _⟩ => ⟨S1x2560, .f32⟩
  | .local _ .vmem, ⟨4, _⟩ => ⟨S1x2560, .f32⟩
  | .local _ .vmem, ⟨5, _⟩ => ⟨S128x2560, .f32⟩
  | .local _ .vmem, ⟨6, _⟩ => ⟨S128x2560, .f32⟩
  | .local _ .vmem, ⟨7, _⟩ => ⟨S128x2560, .f32⟩
  | .local _ .vmem, ⟨8, _⟩ => ⟨S128x2560, .f32⟩
  | .local _ .vmem, ⟨9, _⟩ => ⟨S1x128x1, .f32⟩
  | .local _ .vmem, ⟨10, _⟩ => ⟨S1x128x1, .f32⟩
  | .local _ .vmem, ⟨11, _⟩ => ⟨S1x128x1, .f32⟩
  | .local _ .vmem, ⟨12, _⟩ => ⟨S1x128x1, .f32⟩
  | .local _ .vmem, ⟨13, _⟩ => ⟨S128x1, .f32⟩
  | .local _ .vmem, ⟨14, _⟩ => ⟨S128x1, .f32⟩
  | .local _ .vmem, ⟨15, _⟩ => ⟨S128x5120, .f32⟩
  | .local _ .vmem, ⟨16, _⟩ => ⟨S128x5120, .f32⟩
  | .local _ .vmem, ⟨17, _⟩ => ⟨S128x1, .f32⟩
  | .local _ .vmem, ⟨18, _⟩ => ⟨S128x1, .f32⟩
  | .local _ .vmem, ⟨19, _⟩ => ⟨S128x5120, .f32⟩
  | .local _ .vmem, ⟨20, _⟩ => ⟨S128x5120, .f32⟩
  | .local _ .vmem, ⟨21, _⟩ => ⟨S128x1, .f32⟩
  | .local _ .vmem, ⟨22, _⟩ => ⟨S128x1, .f32⟩
  | .local _ .vmem, ⟨23, _⟩ => ⟨S128x5120, .f32⟩
  | .local _ .vmem, ⟨24, _⟩ => ⟨S128x5120, .f32⟩
  | .local _ .vmem, ⟨25, _⟩ => ⟨S128x5120, .f32⟩
  | .local _ .vmem, ⟨26, _⟩ => ⟨S128x5120, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_cst_14 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_16 : Ref sig .tc := ⟨.hbm, 95, rfl⟩
abbrev main_v66 : Ref sig .tc := ⟨.hbm, 96, rfl⟩
abbrev main_c_17 : Ref sig .tc := ⟨.hbm, 97, rfl⟩
abbrev main_v67 : Ref sig .tc := ⟨.hbm, 98, rfl⟩
abbrev main_v68 : Ref sig .tc := ⟨.hbm, 99, rfl⟩
abbrev main_c_18 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_19 : Ref sig .tc := ⟨.hbm, 104, rfl⟩
abbrev main_v72 : Ref sig .tc := ⟨.hbm, 105, rfl⟩
abbrev main_v73 : Ref sig .tc := ⟨.hbm, 106, rfl⟩
abbrev main_c_20 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call1_c : Ref sig .tc := ⟨.hbm, 117, rfl⟩
abbrev main_call1_v0 : Ref sig .tc := ⟨.hbm, 118, rfl⟩
abbrev main_call1_v1 : Ref sig .tc := ⟨.hbm, 119, rfl⟩
abbrev main_call1_c_0 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_call1_v5 : Ref sig .tc := ⟨.hbm, 124, rfl⟩
abbrev main_call1_c_1 : Ref sig .tc := ⟨.hbm, 125, rfl⟩
abbrev main_call1_c_2 : Ref sig .tc := ⟨.hbm, 126, rfl⟩
abbrev main_call1_v6 : Ref sig .tc := ⟨.hbm, 127, rfl⟩
abbrev main_call1_v7 : Ref sig .tc := ⟨.hbm, 128, rfl⟩
abbrev main_call1_v8 : Ref sig .tc := ⟨.hbm, 129, rfl⟩
abbrev main_call1_v9 : Ref sig .tc := ⟨.hbm, 130, rfl⟩
abbrev main_call1_v10 : Ref sig .tc := ⟨.hbm, 131, rfl⟩
abbrev main_call1_v11 : Ref sig .tc := ⟨.hbm, 132, rfl⟩
abbrev main_call1_c_3 : Ref sig .tc := ⟨.hbm, 133, rfl⟩
abbrev main_call1_v12 : Ref sig .tc := ⟨.hbm, 134, rfl⟩
abbrev main_call1_v13 : Ref sig .tc := ⟨.hbm, 135, rfl⟩
abbrev main_call1_v14 : Ref sig .tc := ⟨.hbm, 136, rfl⟩
abbrev main_call1_cst : Ref sig .tc := ⟨.hbm, 137, rfl⟩
abbrev main_call1_v15 : Ref sig .tc := ⟨.hbm, 138, rfl⟩
abbrev main_v83 : Ref sig .tc := ⟨.hbm, 139, rfl⟩
abbrev main_cst_21 : Ref sig .tc := ⟨.hbm, 140, rfl⟩
abbrev main_call2_v0 : Ref sig .tc := ⟨.hbm, 141, rfl⟩
abbrev main_call2_v1 : Ref sig .tc := ⟨.hbm, 142, rfl⟩
abbrev main_call2_v2 : Ref sig .tc := ⟨.hbm, 143, rfl⟩
abbrev main_v84 : Ref sig .tc := ⟨.hbm, 144, rfl⟩
abbrev main_c_22 : Ref sig .tc := ⟨.hbm, 145, rfl⟩
abbrev main_call3_v0 : Ref sig .tc := ⟨.hbm, 146, rfl⟩
abbrev main_v85 : Ref sig .tc := ⟨.hbm, 147, rfl⟩
abbrev main_v86 : Ref sig .tc := ⟨.hbm, 148, rfl⟩
abbrev main_c_23 : Ref sig .tc := ⟨.hbm, 149, rfl⟩
abbrev main_call4_v0 : Ref sig .tc := ⟨.hbm, 150, rfl⟩
abbrev main_v87 : Ref sig .tc := ⟨.hbm, 151, rfl⟩
abbrev main_c_24 : Ref sig .tc := ⟨.hbm, 152, rfl⟩
abbrev main_call5_v0 : Ref sig .tc := ⟨.hbm, 153, rfl⟩
abbrev main_v88 : Ref sig .tc := ⟨.hbm, 154, rfl⟩
abbrev main_v89_0 : Ref sig .tc := ⟨.hbm, 155, rfl⟩
abbrev main_v89_1 : Ref sig .tc := ⟨.hbm, 156, rfl⟩
abbrev main_v89_2 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112_0 : Ref sig .tc := ⟨.hbm, 180, rfl⟩
abbrev main_v112_1 : Ref sig .tc := ⟨.hbm, 181, rfl⟩
abbrev main_v113 : Ref sig .tc := ⟨.hbm, 182, rfl⟩
abbrev main_v114 : Ref sig .tc := ⟨.hbm, 183, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v40 : BitVec 1 := Scalar.cmpi .eq arg1 c9_i32
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2560x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S128x5120 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x5120 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x5120 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x5120 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S2x1024_S1024x2_1_0 : S2x1024.Transposes [1, 0] S1024x2
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  bcast_S_S51200 : S_.BroadcastsInDim S51200 (![] : Fin 0 → Fin S51200.rank)
  bcast_S_S32000 : S_.BroadcastsInDim S32000 (![] : Fin 0 → Fin S32000.rank)
  bcast_S32000_S32000x1_0 : S32000.BroadcastsInDim S32000x1 (![0] : Fin 1 → Fin S32000x1.rank)
  slices_S51200_S50000_0 : S51200.Slices ![0] S50000
  bcast_S_S50000 : S_.BroadcastsInDim S50000 (![] : Fin 0 → Fin S50000.rank)
  bcast_S50000_S1x50000_1 : S50000.BroadcastsInDim S1x50000 (![1] : Fin 1 → Fin S1x50000.rank)
  bcast_S1x50000_S128x50000_0_1 : S1x50000.BroadcastsInDim S128x50000 (![0, 1] : Fin 2 → Fin S128x50000.rank)
  reducesTo_S128x50000_S128_d1 : S128x50000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  reducesTo_S128x2_S128_d1 : S128x2.ReducesTo [1] S128
  bcast_S128x1_S128x2_0_1 : S128x1.BroadcastsInDim S128x2 (![0, 1] : Fin 2 → Fin S128x2.rank)
  reducesTo_S128x512_S128_d1 : S128x512.ReducesTo [1] S128
  bcast_S128x1_S128x512_0_1 : S128x1.BroadcastsInDim S128x512 (![0, 1] : Fin 2 → Fin S128x512.rank)
  bcast_S_S128x32000 : S_.BroadcastsInDim S128x32000 (![] : Fin 0 → Fin S128x32000.rank)
  bcast_S_S128x1 : S_.BroadcastsInDim S128x1 (![] : Fin 0 → Fin S128x1.rank)
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  concatenates_S128x512x1_S128x512x1_S128x512x2_d2 : Shape.Concatenates [S128x512x1, S128x512x1] S128x512x2 2
  bcast_S51200_S1x51200_1 : S51200.BroadcastsInDim S1x51200 (![1] : Fin 1 → Fin S1x51200.rank)
  bcast_S51200_S51200x1_0 : S51200.BroadcastsInDim S51200x1 (![0] : Fin 1 → Fin S51200x1.rank)
  bcast_S_S51200x1 : S_.BroadcastsInDim S51200x1 (![] : Fin 0 → Fin S51200x1.rank)
  bcast_S1_S1x1_1 : S1.BroadcastsInDim S1x1 (![1] : Fin 1 → Fin S1x1.rank)
  bcast_S1x1_S51200x1_0_1 : S1x1.BroadcastsInDim S51200x1 (![0, 1] : Fin 2 → Fin S51200x1.rank)
  reducesTo_S51200x1_S51200_d1 : S51200x1.ReducesTo [1] S51200
  bcast_S51200_S128x51200_1 : S51200.BroadcastsInDim S128x51200 (![1] : Fin 1 → Fin S128x51200.rank)
  bcast_S_S128x51200 : S_.BroadcastsInDim S128x51200 (![] : Fin 0 → Fin S128x51200.rank)
  bcast_S1x51200_S128x51200_0_1 : S1x51200.BroadcastsInDim S128x51200 (![0, 1] : Fin 2 → Fin S128x51200.rank)
  pads_S50000x1024_S51200x1024_012000_000 : S50000x1024.Pads (![0, 0] : Fin 2 → Nat) ![1200, 0] ![0, 0] S51200x1024
  shapeCasts_S50000_S1x50000 : S50000.ShapeCasts S1x50000
  pads_S1x50000_S1x51200_000_012000 : S1x50000.Pads (![0, 0] : Fin 2 → Nat) ![0, 1200] ![0, 0] S1x51200
  pads_S128x50000_S128x51200_000_012000 : S128x50000.Pads (![0, 0] : Fin 2 → Nat) ![0, 1200] ![0, 0] S128x51200
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S2560x1024_S2560x1024_0_0 : ∀ a, (![0, 0] : Fin 2 → Nat) a + S2560x1024.size a ≤ S2560x1024.size a
  h_S2560x1024 : 0 < S2560x1024.numel
  shapeCasts_S2560x1024_S2560x1024 : S2560x1024.ShapeCasts S2560x1024
  transposes_S2560x1024_p1_0_S1024x2560 : S2560x1024.Transposes [1, 0] S1024x2560
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S128x2560 : S1x2560.Broadcasts S128x2560
  inb_S128x2560_S128x2560_0_0 : ∀ a, (![0, 0] : Fin 2 → Nat) a + S128x2560.size a ≤ S128x2560.size a
  h_S128x2560 : 0 < S128x2560.numel
  shapeCasts_S128x2560_S128x2560 : S128x2560.ShapeCasts S128x2560
  reduces_S128x2560_S128 : S128x2560.Reduces [1] S128
  shapeCasts_S128_S128x1 : S128.ShapeCasts S128x1
  broadcasts_S128x1_S128x2560 : S128x1.Broadcasts S128x2560
  shapeCasts_S128x1_S1x128x1 : S128x1.ShapeCasts S1x128x1
  inb_S1x128x1_S1x128x1_0_0_0 : ∀ a, (![0, 0, 0] : Fin 3 → Nat) a + S1x128x1.size a ≤ S1x128x1.size a
  h_S1x128x1 : 0 < S1x128x1.numel
  slices_S2x128x1_S1x128x1_0_0_0 : S2x128x1.Slices ![0, 0, 0] S1x128x1
  shapeCasts_S1x128x1_S128x1 : S1x128x1.ShapeCasts S128x1
  slices_S2x128x1_S1x128x1_1_0_0 : S2x128x1.Slices ![1, 0, 0] S1x128x1
  slices_S128x2_S128x1_0_0 : S128x2.Slices ![0, 0] S128x1
  slices_S128x2_S128x1_0_1 : S128x2.Slices ![0, 1] S128x1
  inb_S128x5120_S128x5120_0_0 : ∀ a, (![0, 0] : Fin 2 → Nat) a + S128x5120.size a ≤ S128x5120.size a
  h_S128x5120 : 0 < S128x5120.numel
  shapeCasts_S128x5120_S128x5120 : S128x5120.ShapeCasts S128x5120
  broadcasts_S128x1_S128x5120 : S128x1.Broadcasts S128x5120
  slices_S128x51200_S128x50000_0_0 : S128x51200.Slices ![0, 0] S128x50000
  dot_S128x1024_S1024x2_S128x2_1_0_0_1_n_n_wf : DotDims.WF S128x1024 S1024x2 S128x2 [1] [0] [0] [1] [] []
  scatter_S51200_S32000x1_S32000_n_0_0_1_wf : ScatterDims.WF S51200 S32000x1 S32000 [] [0] [0] 1
  scatter_S128x32000_S128x512x2_S128x512_n_01_01_2_wf : ScatterDims.WF S128x32000 S128x512x2 S128x512 [] [0, 1] [0, 1] 2
  gather_S128x32000_S51200x1_S128x51200_0_1_n_n_1_1_1281_wf : GatherDims.WF S128x32000 S51200x1 S128x51200 [0] [1] [] [1] [] 1 ![128, 1]
  dot_S128x1024_S1024x2560_S128x2560_1_0_0_1_n_n_wf : DotDims.WF S128x1024 S1024x2560 S128x2560 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x1024.size a ≤ S51200x1024.size a
  hwx0_1 : ∀ i : grid0.Coords, EltTy.bits .f32 = 32 ∨ (Rect.block (s := S51200x1024) S2560x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2560.size a ≤ S1x51200.size a
  hwx0_2 : ∀ i : grid0.Coords, EltTy.bits .f32 = 32 ∨ (Rect.block (s := S1x51200) S1x2560.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2560.size a ≤ S128x51200.size a
  hwx0_3 : ∀ i : grid0.Coords, EltTy.bits .f32 = 32 ∨ (Rect.block (s := S128x51200) S128x2560.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2560.size a ≤ S128x51200.size a
  hwx0_4 : ∀ i : grid0.Coords, EltTy.bits .f32 = 32 ∨ (Rect.block (s := S128x51200) S128x2560.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x1.size a ≤ S2x128x1.size a
  hwx0_5 : ∀ i : grid0.Coords, EltTy.bits .f32 = 32 ∨ (Rect.block (s := S2x128x1) S1x128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x1.size a ≤ S2x128x1.size a
  hwx0_6 : ∀ i : grid0.Coords, EltTy.bits .f32 = 32 ∨ (Rect.block (s := S2x128x1) S1x128x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x5120.size a ≤ S128x51200.size a
  hwx1_0 : ∀ i : grid1.Coords, EltTy.bits .f32 = 32 ∨ (Rect.block (s := S128x51200) S128x5120.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x5120.size a ≤ S128x51200.size a
  hwx1_3 : ∀ i : grid1.Coords, EltTy.bits .f32 = 32 ∨ (Rect.block (s := S128x51200) S128x5120.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x5120.size a ≤ S128x51200.size a
  hwx1_6 : ∀ i : grid1.Coords, EltTy.bits .f32 = 32 ∨ (Rect.block (s := S128x51200) S128x5120.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x5120.size a ≤ S128x51200.size a
  hwx1_7 : ∀ i : grid1.Coords, EltTy.bits .f32 = 32 ∨ (Rect.block (s := S128x51200) S128x5120.size (cc1_transform_7 i) (hinb1_7 i)).WholeWords (EltTy.packing .f32)

variable [Facts₀]

def dot_S128x1024_S1024x2_S128x2_1_0_0_1_n_n : DotDims S128x1024 S1024x2 S128x2 where
  lhsContracting := [1]
  rhsContracting := [0]
  lhsNonContracting := [0]
  rhsNonContracting := [1]
  lhsBatch := []
  rhsBatch := []
  wf := dot_S128x1024_S1024x2_S128x2_1_0_0_1_n_n_wf
def scatter_S51200_S32000x1_S32000_n_0_0_1 : ScatterDims S51200 S32000x1 S32000 where
  updateWindowDims := []
  insertedWindowDims := [0]
  scatterDimsToOperandDims := [0]
  indexVectorDim := 1
  wf := scatter_S51200_S32000x1_S32000_n_0_0_1_wf
def scatter_S128x32000_S128x512x2_S128x512_n_01_01_2 : ScatterDims S128x32000 S128x512x2 S128x512 where
  updateWindowDims := []
  insertedWindowDims := [0, 1]
  scatterDimsToOperandDims := [0, 1]
  indexVectorDim := 2
  wf := scatter_S128x32000_S128x512x2_S128x512_n_01_01_2_wf
def gather_S128x32000_S51200x1_S128x51200_0_1_n_n_1_1_1281 : GatherDims S128x32000 S51200x1 S128x51200 where
  offsetDims := [0]
  collapsedSliceDims := [1]
  operandBatchingDims := []
  startIndicesBatchingDims := []
  startIndexMap := [1]
  indexVectorDim := 1
  sliceSizes := ![128, 1]
  wf := gather_S128x32000_S51200x1_S128x51200_0_1_n_n_1_1_1281_wf
def dot_S128x1024_S1024x2560_S128x2560_1_0_0_1_n_n : DotDims S128x1024 S1024x2560 S128x2560 where
  lhsContracting := [1]
  rhsContracting := [0]
  lhsNonContracting := [0]
  rhsNonContracting := [1]
  lhsBatch := []
  rhsBatch := []
  wf := dot_S128x1024_S1024x2560_S128x2560_1_0_0_1_n_n_wf

abbrev win0_0 : Pipeline.Window sig grid0 :=
  Pipeline.Window.ofSpec (Memref.whole main_arg0) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v85) S2560x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v87) S1x2560.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v88) S128x2560.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v89_0) S128x2560.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v89_1) S1x128x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v89_2) S1x128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v89_0) S128x5120.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v94) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v109) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v84) S128x5120.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v110) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v111) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v112_0) S128x5120.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v112_1) S128x5120.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S128x1024 : Shape := ⟨2, ![128, 1024]⟩
abbrev S128x512 : Shape := ⟨2, ![128, 512]⟩
abbrev S128x50000 : Shape := ⟨2, ![128, 50000]⟩
abbrev S50000x1024 : Shape := ⟨2, ![50000, 1024]⟩
abbrev S50000 : Shape := ⟨1, ![50000]⟩
abbrev S2x1024 : Shape := ⟨2, ![2, 1024]⟩
abbrev S2 : Shape := ⟨1, ![2]⟩
abbrev S32000 : Shape := ⟨1, ![32000]⟩
abbrev S1024x50000 : Shape := ⟨2, ![1024, 50000]⟩
abbrev S1x50000 : Shape := ⟨2, ![1, 50000]⟩
abbrev S1024x2 : Shape := ⟨2, ![1024, 2]⟩
abbrev S128x2 : Shape := ⟨2, ![128, 2]⟩
abbrev S1x2 : Shape := ⟨2, ![1, 2]⟩
abbrev S_ : Shape := ⟨0, ![]⟩
abbrev S32000x1 : Shape := ⟨2, ![32000, 1]⟩
abbrev S1 : Shape := ⟨1, ![1]⟩
abbrev S128 : Shape := ⟨1, ![128]⟩
abbrev S128x1 : Shape := ⟨2, ![128, 1]⟩
abbrev S128x32000 : Shape := ⟨2, ![128, 32000]⟩
abbrev S128x512x1 : Shape := ⟨3, ![128, 512, 1]⟩
abbrev S128x512x2 : Shape := ⟨3, ![128, 512, 2]⟩

abbrev nBuf : Space → Nat
  | .hbm => 138
  | .vmem => 0
  | .smem => 0
  | _ => 0

abbrev hbmTy0_0 (i : Nat) : BufTy := match i % 128 with
  | 0 => ⟨S128x1024, .f32⟩
  | 1 => ⟨S128x512, .i32⟩
  | 2 => ⟨S128x512, .f32⟩
  | 3 => ⟨S128x50000, .f32⟩
  | 4 => ⟨S50000x1024, .f32⟩
  | 5 => ⟨S50000, .f32⟩
  | 6 => ⟨S2x1024, .f32⟩
  | 7 => ⟨S2, .f32⟩
  | 8 => ⟨S32000, .i32⟩
  | 9 => ⟨S1024x50000, .f32⟩
  | 10 => ⟨S128x50000, .f32⟩
  | 11 => ⟨S1x50000, .f32⟩
  | 12 => ⟨S128x50000, .f32⟩
  | 13 => ⟨S128x50000, .f32⟩
  | 14 => ⟨S128x50000, .f32⟩
  | 15 => ⟨S128x50000, .f32⟩
  | 16 => ⟨S1024x2, .f32⟩
  | 17 => ⟨S128x2, .f32⟩
  | 18 => ⟨S1x2, .f32⟩
  | 19 => ⟨S128x2, .f32⟩
  | 20 => ⟨S128x2, .f32⟩
  | 21 => ⟨S_, .f32⟩
  | 22 => ⟨S50000, .f32⟩
  | 23 => ⟨S_, .i32⟩
  | 24 => ⟨S32000, .i32⟩
  | 25 => ⟨S32000, .i1⟩
  | 26 => ⟨S_, .i32⟩
  | 27 => ⟨S32000, .i32⟩
  | 28 => ⟨S32000, .i32⟩
  | 29 => ⟨S32000, .i32⟩
  | 30 => ⟨S32000x1, .i32⟩
  | 31 => ⟨S_, .f32⟩
  | 32 => ⟨S32000, .f32⟩
  | 33 => ⟨S50000, .f32⟩
  | 34 => ⟨S_, .i32⟩
  | 35 => ⟨S1, .i32⟩
  | 36 => ⟨S_, .f32⟩
  | 37 => ⟨S50000, .f32⟩
  | 38 => ⟨S1x50000, .f32⟩
  | 39 => ⟨S128x50000, .f32⟩
  | 40 => ⟨S128x50000, .f32⟩
  | 41 => ⟨S_, .f32⟩
  | 42 => ⟨S128, .f32⟩
  | 43 => ⟨S_, .f32⟩
  | 44 => ⟨S128, .f32⟩
  | 45 => ⟨S128, .i1⟩
  | 46 => ⟨S_, .i1⟩
  | 47 => ⟨S128, .i1⟩
  | 48 => ⟨S128x1, .i1⟩
  | 49 => ⟨S128x1, .i1⟩
  | 50 => ⟨S128x2, .i1⟩
  | 51 => ⟨S128x2, .f32⟩
  | 52 => ⟨S128x2, .f32⟩
  | 53 => ⟨S128x2, .f32⟩
  | 54 => ⟨S_, .f32⟩
  | 55 => ⟨S128, .f32⟩
  | 56 => ⟨S_, .f32⟩
  | 57 => ⟨S128, .f32⟩
  | 58 => ⟨S128, .f32⟩
  | 59 => ⟨S128x1, .f32⟩
  | 60 => ⟨S128x2, .f32⟩
  | 61 => ⟨S128x2, .f32⟩
  | 62 => ⟨S128x2, .f32⟩
  | 63 => ⟨S_, .f32⟩
  | 64 => ⟨S128, .f32⟩
  | 65 => ⟨S128x1, .f32⟩
  | 66 => ⟨S128x2, .f32⟩
  | 67 => ⟨S128x2, .f32⟩
  | 68 => ⟨S_, .f32⟩
  | 69 => ⟨S128, .f32⟩
  | 70 => ⟨S_, .f32⟩
  | 71 => ⟨S128, .f32⟩
  | 72 => ⟨S128, .f32⟩
  | 73 => ⟨S128x1, .f32⟩
  | 74 => ⟨S128x512, .f32⟩
  | 75 => ⟨S128x512, .f32⟩
  | 76 => ⟨S128x512, .f32⟩
  | 77 => ⟨S_, .f32⟩
  | 78 => ⟨S128, .f32⟩
  | 79 => ⟨S128x1, .f32⟩
  | 80 => ⟨S128x512, .f32⟩
  | 81 => ⟨S128x512, .f32⟩
  | 82 => ⟨S128, .i32⟩
  | 83 => ⟨S128x1, .i32⟩
  | 84 => ⟨S_, .f32⟩
  | 85 => ⟨S128x32000, .f32⟩
  | 86 => ⟨S_, .i32⟩
  | 87 => ⟨S128x1, .i32⟩
  | 88 => ⟨S128x1, .i1⟩
  | 89 => ⟨S_, .i32⟩
  | 90 => ⟨S128x1, .i32⟩
  | 91 => ⟨S128x1, .i32⟩
  | 92 => ⟨S128x1, .i32⟩
  | 93 => ⟨S_, .i32⟩
  | 94 => ⟨S128x512, .i32⟩
  | 95 => ⟨S128x512, .i1⟩
  | 96 => ⟨S_, .i32⟩
  | 97 => ⟨S128x512, .i32⟩
  | 98 => ⟨S128x512, .i32⟩
  | 99 => ⟨S128x512, .i32⟩
  | 100 => ⟨S128x512, .i32⟩
  | 101 => ⟨S128x512x1, .i32⟩
  | 102 => ⟨S128x512x1, .i32⟩
  | 103 => ⟨S128x512x2, .i32⟩
  | 104 => ⟨S128x32000, .f32⟩
  | 105 => ⟨S_, .f32⟩
  | 106 => ⟨S128x50000, .f32⟩
  | 107 => ⟨S_, .i32⟩
  | 108 => ⟨S32000, .i32⟩
  | 109 => ⟨S32000, .i1⟩
  | 110 => ⟨S_, .i32⟩
  | 111 => ⟨S32000, .i32⟩
  | 112 => ⟨S32000, .i32⟩
  | 113 => ⟨S32000, .i32⟩
  | 114 => ⟨S32000x1, .i32⟩
  | 115 => ⟨S128x50000, .f32⟩
  | 116 => ⟨S_, .f32⟩
  | 117 => ⟨S128, .f32⟩
  | 118 => ⟨S_, .f32⟩
  | 119 => ⟨S128, .f32⟩
  | 120 => ⟨S128, .f32⟩
  | 121 => ⟨S128x1, .f32⟩
  | 122 => ⟨S128x50000, .f32⟩
  | 123 => ⟨S128x50000, .f32⟩
  | 124 => ⟨S128x50000, .f32⟩
  | 125 => ⟨S_, .f32⟩
  | 126 => ⟨S128, .f32⟩
  | 127 => ⟨S128x1, .f32⟩
  | _ => ⟨S128x1024, .f32⟩

abbrev hbmTy0_1 (i : Nat) : BufTy := match i % 128 with
  | 0 => ⟨S128x50000, .f32⟩
  | 1 => ⟨S128x50000, .f32⟩
  | 2 => ⟨S128x1, .f32⟩
  | 3 => ⟨S128x50000, .f32⟩
  | 4 => ⟨S128x50000, .f32⟩
  | 5 => ⟨S128x1, .f32⟩
  | 6 => ⟨S128x50000, .f32⟩
  | 7 => ⟨S128x50000, .f32⟩
  | 8 => ⟨S128x50000, .f32⟩
  | 9 => ⟨S128x50000, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_v62 : Ref sig .tc := ⟨.hbm, 88, rfl⟩
abbrev main_c_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_16 : Ref sig .tc := ⟨.hbm, 93, rfl⟩
abbrev main_v66 : Ref sig .tc := ⟨.hbm, 94, rfl⟩
abbrev main_v67 : Ref sig .tc := ⟨.hbm, 95, rfl⟩
abbrev main_c_17 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_18 : Ref sig .tc := ⟨.hbm, 105, rfl⟩
abbrev main_v76 : Ref sig .tc := ⟨.hbm, 106, rfl⟩
abbrev main_c_19 : Ref sig .tc := ⟨.hbm, 107, rfl⟩
abbrev main_v77 : Ref sig .tc := ⟨.hbm, 108, rfl⟩
abbrev main_v78 : Ref sig .tc := ⟨.hbm, 109, rfl⟩
abbrev main_c_20 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_cst_22 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_23 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩

abbrev nD : Nat := 1
abbrev τ : Topo := Topo.v7x

variable {F : FTy → Type} [FloatOps F]

class Facts₀ : Prop where
  transposes_S50000x1024_S1024x50000_1_0 : S50000x1024.Transposes [1, 0] S1024x50000
  bcast_S50000_S1x50000_1 : S50000.BroadcastsInDim S1x50000 (![1] : Fin 1 → Fin S1x50000.rank)
  bcast_S1x50000_S128x50000_0_1 : S1x50000.BroadcastsInDim S128x50000 (![0, 1] : Fin 2 → Fin S128x50000.rank)
  transposes_S2x1024_S1024x2_1_0 : S2x1024.Transposes [1, 0] S1024x2
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  bcast_S_S50000 : S_.BroadcastsInDim S50000 (![] : Fin 0 → Fin S50000.rank)
  bcast_S_S32000 : S_.BroadcastsInDim S32000 (![] : Fin 0 → Fin S32000.rank)
  bcast_S32000_S32000x1_0 : S32000.BroadcastsInDim S32000x1 (![0] : Fin 1 → Fin S32000x1.rank)
  bcast_S_S1 : S_.BroadcastsInDim S1 (![] : Fin 0 → Fin S1.rank)
  reducesTo_S128x50000_S128_d1 : S128x50000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  reducesTo_S128x2_S128_d1 : S128x2.ReducesTo [1] S128
  bcast_S128x1_S128x2_0_1 : S128x1.BroadcastsInDim S128x2 (![0, 1] : Fin 2 → Fin S128x2.rank)
  reducesTo_S128x512_S128_d1 : S128x512.ReducesTo [1] S128
  bcast_S128x1_S128x512_0_1 : S128x1.BroadcastsInDim S128x512 (![0, 1] : Fin 2 → Fin S128x512.rank)
  bcast_S_S128x32000 : S_.BroadcastsInDim S128x32000 (![] : Fin 0 → Fin S128x32000.rank)
  bcast_S_S128x1 : S_.BroadcastsInDim S128x1 (![] : Fin 0 → Fin S128x1.rank)
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  concatenates_S128x512x1_S128x512x1_S128x512x2_d2 : Shape.Concatenates [S128x512x1, S128x512x1] S128x512x2 2
  bcast_S_S128x50000 : S_.BroadcastsInDim S128x50000 (![] : Fin 0 → Fin S128x50000.rank)
  bcast_S128x1_S128x50000_0_1 : S128x1.BroadcastsInDim S128x50000 (![0, 1] : Fin 2 → Fin S128x50000.rank)
  slices_S128x2_S128x1_0_0 : S128x2.Slices ![0, 0] S128x1
  slices_S128x2_S128x1_0_1 : S128x2.Slices ![0, 1] S128x1
  dot_S128x1024_S1024x50000_S128x50000_1_0_0_1_n_n_wf : DotDims.WF S128x1024 S1024x50000 S128x50000 [1] [0] [0] [1] [] []
  dot_S128x1024_S1024x2_S128x2_1_0_0_1_n_n_wf : DotDims.WF S128x1024 S1024x2 S128x2 [1] [0] [0] [1] [] []
  scatter_S50000_S32000x1_S32000_n_0_0_1_wf : ScatterDims.WF S50000 S32000x1 S32000 [] [0] [0] 1
  scatter_S50000_S1_S__n_0_0_0_wf : ScatterDims.WF S50000 S1 S_ [] [0] [0] 0
  scatter_S128x32000_S128x512x2_S128x512_n_01_01_2_wf : ScatterDims.WF S128x32000 S128x512x2 S128x512 [] [0, 1] [0, 1] 2
  scatter_S128x50000_S32000x1_S128x32000_0_1_1_1_wf : ScatterDims.WF S128x50000 S32000x1 S128x32000 [0] [1] [1] 1

variable [Facts₀]

def dot_S128x1024_S1024x50000_S128x50000_1_0_0_1_n_n : DotDims S128x1024 S1024x50000 S128x50000 where
  lhsContracting := [1]
  rhsContracting := [0]
  lhsNonContracting := [0]
  rhsNonContracting := [1]
  lhsBatch := []
  rhsBatch := []
  wf := dot_S128x1024_S1024x50000_S128x50000_1_0_0_1_n_n_wf
def dot_S128x1024_S1024x2_S128x2_1_0_0_1_n_n : DotDims S128x1024 S1024x2 S128x2 where
  lhsContracting := [1]
  rhsContracting := [0]
  lhsNonContracting := [0]
  rhsNonContracting := [1]
  lhsBatch := []
  rhsBatch := []
  wf := dot_S128x1024_S1024x2_S128x2_1_0_0_1_n_n_wf
def scatter_S50000_S32000x1_S32000_n_0_0_1 : ScatterDims S50000 S32000x1 S32000 where
  updateWindowDims := []
  insertedWindowDims := [0]
  scatterDimsToOperandDims := [0]
  indexVectorDim := 1
  wf := scatter_S50000_S32000x1_S32000_n_0_0_1_wf
def scatter_S50000_S1_S__n_0_0_0 : ScatterDims S50000 S1 S_ where
  updateWindowDims := []
  insertedWindowDims := [0]
  scatterDimsToOperandDims := [0]
  indexVectorDim := 0
  wf := scatter_S50000_S1_S__n_0_0_0_wf
def scatter_S128x32000_S128x512x2_S128x512_n_01_01_2 : ScatterDims S128x32000 S128x512x2 S128x512 where
  updateWindowDims := []
  insertedWindowDims := [0, 1]
  scatterDimsToOperandDims := [0, 1]
  indexVectorDim := 2
  wf := scatter_S128x32000_S128x512x2_S128x512_n_01_01_2_wf
def scatter_S128x50000_S32000x1_S128x32000_0_1_1_1 : ScatterDims S128x50000 S32000x1 S128x32000 where
  updateWindowDims := [0]
  insertedWindowDims := [1]
  scatterDimsToOperandDims := [1]
  indexVectorDim := 1
  wf := scatter_S128x50000_S32000x1_S128x32000_0_1_1_1_wf

class Facts : Prop extends Facts₀ where

variable [Facts]
-- ==== Proof.KI.Body0.lean ====
import proofs.«131213_j77824807403876_2_alg».proof.Proof.Gen.KernelIdeal.Launch
import proofs.«131213_j77824807403876_2_alg».proof.Proof.Gen.KernelIdeal.Skeleton
import proofs.«131213_j77824807403876_2_alg».proof.Proof.Gen.KernelIdeal.Points

import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid0.Coords) : Prop :=
  (Scalar.cmpi .ne (Scalar.extui (Scalar.cmpi .eq (BitVec.ofNat 32 (i 1).val) 0#32)) 0#32) = 1#1

abbrev condLast (i : grid0.Coords) : Prop := k0_cond2 i = 1#1

def mNew (x0 : Vec F S128x1024 .f32) (x1 : Vec F S2560x1024 .f32) (x2 : Vec F S1x2560 .f32) (x3 : Vec F S128x2560 .f32)
    (ms : Vec F S128x1 .f32) : Vec F S128x1 .f32 :=
  k0_pay2 (k0_pay8 x0 x1 x2 x3 ms)

def lNew (x0 : Vec F S128x1024 .f32) (x1 : Vec F S2560x1024 .f32) (x2 : Vec F S1x2560 .f32) (x3 : Vec F S128x2560 .f32)
    (ms ls : Vec F S128x1 .f32) : Vec F S128x1 .f32 :=
  k0_pay1 (k0_pay9 x0 x1 x2 x3 ms ls ms)

private theorem hz2 : (![0, 0] : Fin 2 → ℕ) = fun _ => 0 := by funext a; fin_cases a <;> rfl
private theorem hz3 : (![0, 0, 0] : Fin 3 → ℕ) = fun _ => 0 := by funext a; fin_cases a <;> rfl

private theorem read_writes_whole {S : Shape} {e : EltTy} (m : Memref sig .tc .vmem S e) (f : m.view.ty.Contents (Elt F))
    {off : Fin S.rank → ℕ} (h : off = fun _ => 0) (inb : ∀ a, off a + S.size a ≤ S.size a)
    (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h]

private theorem readAt_whole {S : Shape} {e : EltTy} (m : Memref sig .tc .vmem S e) (hm : m.IsWhole)
    {off : Fin S.rank → ℕ} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 4000000 in

theorem sound_kernel0_mid (c : Dev nD) (E : Set ℕ) (i : grid0.Coords) (hc1 : ¬condFirst i) (hc2 : ¬condLast i)
    (arg2 : Memref sig .tc .vmem S128x1024 .f32) (harg2 : arg2.IsWhole) (arg3 : Memref sig .tc .vmem S2560x1024 .f32) (harg3 : arg3.IsWhole) (arg4 : Memref sig .tc .vmem S1x2560 .f32) (harg4 : arg4.IsWhole) (arg5 : Memref sig .tc .vmem S128x2560 .f32) (harg5 : arg5.IsWhole) (arg6 : Memref sig .tc .vmem S128x2560 .f32) (harg6 : arg6.IsWhole) (arg7 : Memref sig .tc .vmem S1x128x1 .f32) (harg7 : arg7.IsWhole) (arg8 : Memref sig .tc .vmem S1x128x1 .f32) (harg8 : arg8.IsWhole) (arg9 : Memref sig .tc .vmem S128x1 .f32) (harg9 : arg9.IsWhole) (arg10 : Memref sig .tc .vmem S128x1 .f32) (harg10 : arg10.IsWhole)
    (x0 : Vec F S128x1024 .f32) (x1 : Vec F S2560x1024 .f32) (x2 : Vec F S1x2560 .f32) (x3 : Vec F S128x2560 .f32)
    (d5 d6 : Vec F S1x128x1 .f32) (ms ls : Vec F S128x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare d5 ∗ owns (c : Thread nD τ) arg8 fullShare d6
        ∗ owns (c : Thread nD τ) arg9 fullShare ms ∗ owns (c : Thread nD τ) arg10 fullShare ls
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay7 x0 x1 x2 x3) ∗ owns (c : Thread nD τ) arg7 fullShare d5 ∗ owns (c : Thread nD τ) arg8 fullShare d6
            ∗ owns (c : Thread nD τ) arg9 fullShare (mNew x0 x1 x2 x3 ms) ∗ owns (c : Thread nD τ) arg10 fullShare (lNew x0 x1 x2 x3 ms ls)) -∗ K ⟨⟩))
      ⊢ wp frame (wpE (defs₀ (F := F)) Variants.none c none) E (cc0__gen_logits_kernel i arg2 harg2 arg3 harg3 arg4 harg4 arg5 harg5 arg6 harg6 arg7 harg7 arg8 harg8 arg9 harg9 arg10 harg10) K := by
  simp only [cc0__gen_logits_kernel_eq_skeleton]; unfold cc0__gen_logits_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%e6, %f6, -, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5
  obtain rfl := harg7.eq_unread hf7; obtain rfl := harg8.eq_unread hf8; obtain rfl := harg9.eq_unread hf9; obtain rfl := harg10.eq_unread hf10
  sl_exec (disch := first | exact hc1 | exact hc2)
  sl_step
  iapply Hk

  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _

  isplitl [H6]
  · iexists _; isplitr; swap; · iexact H6
    ipureintro
    refine (read_writes_whole arg6 _ hz2 _ _ _).trans ?_
    rw [readAt_whole arg2 harg2 hz2, readAt_whole arg3 harg3 hz2, readAt_whole arg4 harg4 hz2, readAt_whole arg5 harg5 hz2]

  isplitl [H7]
  · iexists _; isplitr; swap; · iexact H7
    ipureintro; exact harg7.read_unread _
  isplitl [H8]
  · iexists _; isplitr; swap; · iexact H8
    ipureintro; exact harg8.read_unread _

  isplitl [H9]
  · iexists _; isplitr; swap; · iexact H9
    ipureintro
    refine (read_writes_whole arg9 _ hz2 _ _ _).trans ?_
    rw [readAt_whole arg2 harg2 hz2, readAt_whole arg3 harg3 hz2, readAt_whole arg4 harg4 hz2, readAt_whole arg5 harg5 hz2, readAt_whole arg9 harg9 hz2]
    rfl

  iexists _; isplitr; swap; · iexact H10
  ipureintro
  refine (read_writes_whole arg10 _ hz2 _ _ _).trans ?_
  rw [readAt_whole arg2 harg2 hz2, readAt_whole arg3 harg3 hz2, readAt_whole arg4 harg4 hz2, readAt_whole arg5 harg5 hz2, readAt_whole arg9 harg9 hz2, readAt_whole arg10 harg10 hz2]
  rfl

set_option maxHeartbeats 4000000 in

theorem sound_kernel0_first (c : Dev nD) (E : Set ℕ) (i : grid0.Coords) (hc1 : condFirst i) (hc2 : ¬condLast i)
    (arg2 : Memref sig .tc .vmem S128x1024 .f32) (harg2 : arg2.IsWhole) (arg3 : Memref sig .tc .vmem S2560x1024 .f32) (harg3 : arg3.IsWhole) (arg4 : Memref sig .tc .vmem S1x2560 .f32) (harg4 : arg4.IsWhole) (arg5 : Memref sig .tc .vmem S128x2560 .f32) (harg5 : arg5.IsWhole) (arg6 : Memref sig .tc .vmem S128x2560 .f32) (harg6 : arg6.IsWhole) (arg7 : Memref sig .tc .vmem S1x128x1 .f32) (harg7 : arg7.IsWhole) (arg8 : Memref sig .tc .vmem S1x128x1 .f32) (harg8 : arg8.IsWhole) (arg9 : Memref sig .tc .vmem S128x1 .f32) (harg9 : arg9.IsWhole) (arg10 : Memref sig .tc .vmem S128x1 .f32) (harg10 : arg10.IsWhole)
    (x0 : Vec F S128x1024 .f32) (x1 : Vec F S2560x1024 .f32) (x2 : Vec F S1x2560 .f32) (x3 : Vec F S128x2560 .f32)
    (d5 d6 : Vec F S1x128x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare d5 ∗ owns (c : Thread nD τ) arg8 fullShare d6
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay7 x0 x1 x2 x3) ∗ owns (c : Thread nD τ) arg7 fullShare d5 ∗ owns (c : Thread nD τ) arg8 fullShare d6
            ∗ owns (c : Thread nD τ) arg9 fullShare (mNew x0 x1 x2 x3 (k0_pay5 (F := F))) ∗ owns (c : Thread nD τ) arg10 fullShare (lNew x0 x1 x2 x3 (k0_pay5 (F := F)) (k0_pay6 (F := F)))) -∗ K ⟨⟩))
      ⊢ wp frame (wpE (defs₀ (F := F)) Variants.none c none) E (cc0__gen_logits_kernel i arg2 harg2 arg3 harg3 arg4 harg4 arg5 harg5 arg6 harg6 arg7 harg7 arg8 harg8 arg9 harg9 arg10 harg10) K := by
  simp only [cc0__gen_logits_kernel_eq_skeleton]; unfold cc0__gen_logits_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%e6, %f6, -, H6⟩, ⟨%f7, %hf7, H7⟩, ⟨%f8, %hf8, H8⟩, ⟨%e9, %f9, -, H9⟩, ⟨%e10, %f10, -, H10⟩, Hk⟩
  obtain rfl := harg2.eq_unread hf2; obtain rfl := harg3.eq_unread hf3; obtain rfl := harg4.eq_unread hf4; obtain rfl := harg5.eq_unread hf5
  obtain rfl := harg7.eq_unread hf7; obtain rfl := harg8.eq_unread hf8
  sl_exec (disch := first | exact hc1 | exact hc2)
  sl_step
  iapply Hk

  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _

  isplitl [H6]
  · iexists _; isplitr; swap; · iexact H6
    ipureintro
    refine (read_writes_whole arg6 _ hz2 _ _ _).trans ?_
    rw [readAt_whole arg2 harg2 hz2, readAt_whole arg3 harg3 hz2, readAt_whole arg4 harg4 hz2, readAt_whole arg5 harg5 hz2]

  isplitl [H7]
  · iexists _; isplitr; swap; · iexact H7
    ipureintro; exact harg7.read_unread _
  isplitl [H8]
  · iexists _; isplitr; swap; · iexact H8
    ipureintro; exact harg8.read_unread _

  isplitl [H9]
  · iexists _; isplitr; swap; · iexact H9
    ipureintro
    refine (read_writes_whole arg9 _ hz2 _ _ _).trans ?_
    rw [readAt_whole arg2 harg2 hz2, readAt_whole arg3 harg3 hz2, readAt_whole arg4 harg4 hz2, readAt_whole arg5 harg5 hz2]
    sl_unfold_run_names
    rw [View.readCov_unit_zero arg9.view hz2]
    rfl

  iexists _; isplitr; swap; · iexact H10
  ipureintro
  refine (read_writes_whole arg10 _ hz2 _ _ _).trans ?_
  rw [readAt_whole arg2 harg2 hz2, readAt_whole arg3 harg3 hz2, readAt_whole arg4 harg4 hz2, readAt_whole arg5 harg5 hz2]
  sl_unfold_run_names
  rw [View.readCov_unit_zero arg9.view hz2, View.readCov_unit_zero arg10.view hz2]
  rfl

set_option maxHeartbeats 4000000 in

theorem sound_kernel0_last (c : Dev nD) (E : Set ℕ) (i : grid0.Coords) (hc1 : ¬condFirst i) (hc2 : condLast i)
    (arg2 : Memref sig .tc .vmem S128x1024 .f32) (harg2 : arg2.IsWhole) (arg3 : Memref sig .tc .vmem S2560x1024 .f32) (harg3 : arg3.IsWhole) (arg4 : Memref sig .tc .vmem S1x2560 .f32) (harg4 : arg4.IsWhole) (arg5 : Memref sig .tc .vmem S128x2560 .f32) (harg5 : arg5.IsWhole) (arg6 : Memref sig .tc .vmem S128x2560 .f32) (harg6 : arg6.IsWhole) (arg7 : Memref sig .tc .vmem S1x128x1 .f32) (harg7 : arg7.IsWhole) (arg8 : Memref sig .tc .vmem S1x128x1 .f32) (harg8 : arg8.IsWhole) (arg9 : Memref sig .tc .vmem S128x1 .f32) (harg9 : arg9.IsWhole) (arg10 : Memref sig .tc .vmem S128x1 .f32) (harg10 : arg10.IsWhole)
    (x0 : Vec F S128x1024 .f32) (x1 : Vec F S2560x1024 .f32) (x2 : Vec F S1x2560 .f32) (x3 : Vec F S128x2560 .f32)
    (ms ls : Vec F S128x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare ms ∗ owns (c : Thread nD τ) arg10 fullShare ls
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay7 x0 x1 x2 x3)
            ∗ owns (c : Thread nD τ) arg7 fullShare (k0_pay3 (mNew x0 x1 x2 x3 ms)) ∗ owns (c : Thread nD τ) arg8 fullShare (k0_pay4 (lNew x0 x1 x2 x3 ms ls))
            ∗ owns (c : Thread nD τ) arg9 fullShare (mNew x0 x1 x2 x3 ms) ∗ owns (c : Thread nD τ) arg10 fullShare (lNew x0 x1 x2 x3 ms ls)) -∗ K ⟨⟩))
      ⊢ wp frame (wpE (defs₀ (F := F)) Variants.none c none) E (cc0__gen_logits_kernel i arg2 harg2 arg3 harg3 arg4 harg4 arg5 harg5 arg6 harg6 arg7 harg7 arg8 harg8 arg9 harg9 arg10 harg10) K := by
  simp only [cc0__gen_logits_kernel_eq_skeleton]; unfold cc0__gen_logits_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%e6, %f6, -, H6⟩, ⟨%e7, %f7, -, H7⟩, ⟨%e8, %f8, -, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5
  obtain rfl := harg9.eq_unread hf9; obtain rfl := harg10.eq_unread hf10
  sl_exec (disch := first | exact hc1 | exact hc2)
  sl_step
  iapply Hk

  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _

  isplitl [H6]
  · iexists _; isplitr; swap; · iexact H6
    ipureintro
    refine (read_writes_whole arg6 _ hz2 _ _ _).trans ?_
    rw [readAt_whole arg2 harg2 hz2, readAt_whole arg3 harg3 hz2, readAt_whole arg4 harg4 hz2, readAt_whole arg5 harg5 hz2]

  isplitl [H7]
  · iexists _; isplitr; swap; · iexact H7
    ipureintro
    refine (read_writes_whole arg7 _ hz3 _ _ _).trans ?_
    sl_unfold_run_names
    rw [View.readCov_unit_zero arg9.view hz2, readAt_whole arg2 harg2 hz2, readAt_whole arg3 harg3 hz2, readAt_whole arg4 harg4 hz2, readAt_whole arg5 harg5 hz2, readAt_whole arg9 harg9 hz2]
    rfl

  isplitl [H8]
  · iexists _; isplitr; swap; · iexact H8
    ipureintro
    refine (read_writes_whole arg8 _ hz3 _ _ _).trans ?_
    sl_unfold_run_names
    rw [View.readCov_unit_zero arg10.view hz2, readAt_whole arg2 harg2 hz2, readAt_whole arg3 harg3 hz2, readAt_whole arg4 harg4 hz2, readAt_whole arg5 harg5 hz2, readAt_whole arg9 harg9 hz2, readAt_whole arg10 harg10 hz2]
    rfl

  isplitl [H9]
  · iexists _; isplitr; swap; · iexact H9
    ipureintro
    sl_unfold_run_names
    refine (read_writes_whole arg9 _ hz2 _ _ _).trans ?_
    rw [readAt_whole arg2 harg2 hz2, readAt_whole arg3 harg3 hz2, readAt_whole arg4 harg4 hz2, readAt_whole arg5 harg5 hz2, readAt_whole arg9 harg9 hz2]
    rfl
  iexists _; isplitr; swap; · iexact H10
  ipureintro
  sl_unfold_run_names
  refine (read_writes_whole arg10 _ hz2 _ _ _).trans ?_
  rw [readAt_whole arg2 harg2 hz2, readAt_whole arg3 harg3 hz2, readAt_whole arg4 harg4 hz2, readAt_whole arg5 harg5 hz2, readAt_whole arg9 harg9 hz2, readAt_whole arg10 harg10 hz2]
  rfl

end Cert.KernelIdeal.Hand

end
-- ==== Proof.KI.Dat0.lean ====
import proofs.«131213_j77824807403876_2_alg».proof.Proof.Gen.KernelIdeal.Launch
import proofs.«131213_j77824807403876_2_alg».proof.Proof.Gen.KernelIdeal.Skeleton
import proofs.«131213_j77824807403876_2_alg».proof.Proof.Gen.KernelIdeal.Points
import proofs.«131213_j77824807403876_2_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def st0 (c : Dev nD) : (n : ℕ) → n < cfg0.N → Vec F S128x1 .f32 × Vec F S128x1 .f32
  | 0, hn =>
    (mNew (iblk0 V c 0 ⟨0, hn⟩) (iblk0 V c 1 ⟨0, hn⟩) (iblk0 V c 2 ⟨0, hn⟩) (iblk0 V c 3 ⟨0, hn⟩) (k0_pay5 (F := F)),
     lNew (iblk0 V c 0 ⟨0, hn⟩) (iblk0 V c 1 ⟨0, hn⟩) (iblk0 V c 2 ⟨0, hn⟩) (iblk0 V c 3 ⟨0, hn⟩) (k0_pay5 (F := F)) (k0_pay6 (F := F)))
  | n + 1, hn =>
    if (n + 1) % 10 = 0 then
      (mNew (iblk0 V c 0 ⟨n + 1, hn⟩) (iblk0 V c 1 ⟨n + 1, hn⟩) (iblk0 V c 2 ⟨n + 1, hn⟩) (iblk0 V c 3 ⟨n + 1, hn⟩) (k0_pay5 (F := F)),
       lNew (iblk0 V c 0 ⟨n + 1, hn⟩) (iblk0 V c 1 ⟨n + 1, hn⟩) (iblk0 V c 2 ⟨n + 1, hn⟩) (iblk0 V c 3 ⟨n + 1, hn⟩) (k0_pay5 (F := F)) (k0_pay6 (F := F)))
    else
      (mNew (iblk0 V c 0 ⟨n + 1, hn⟩) (iblk0 V c 1 ⟨n + 1, hn⟩) (iblk0 V c 2 ⟨n + 1, hn⟩) (iblk0 V c 3 ⟨n + 1, hn⟩) (st0 c n (Nat.lt_of_succ_lt hn)).1,
       lNew (iblk0 V c 0 ⟨n + 1, hn⟩) (iblk0 V c 1 ⟨n + 1, hn⟩) (iblk0 V c 2 ⟨n + 1, hn⟩) (iblk0 V c 3 ⟨n + 1, hn⟩) (st0 c n (Nat.lt_of_succ_lt hn)).1 (st0 c n (Nat.lt_of_succ_lt hn)).2)

abbrev scM : Memref sig .tc .vmem S128x1 .f32 := Memref.whole cc0_scratch0
abbrev scL : Memref sig .tc .vmem S128x1 .f32 := Memref.whole cc0_scratch1

def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

theorem PhiA0_eq (c : Dev nD) :
    (Pipeline.ΦA spec0 c : sProp 𝕄)
      = iprop(iprop((∃ d, owns (c : Thread nD τ) scM fullShare d) ∗ (∃ d, owns (c : Thread nD τ) scL fullShare d) ∗ otherScoped (F := F) c) ∗ (∃ r, prngReg c r)) := by
  unfold Pipeline.ΦA otherScoped; rw [scopedRest0_eq]; simp only [scM, scL, owns_whole]; try rfl

theorem hcondFirst : ∀ t : Fin cfg0.N, condFirst (grid0.coords t) ↔ t.val % 10 = 0 :=
  (by decide +kernel : ∀ t : Fin grid0.N, condFirst (grid0.coords t) ↔ t.val % 10 = 0)

theorem hcondLast : ∀ t : Fin cfg0.N, condLast (grid0.coords t) ↔ t.val % 10 = 9 :=
  (by decide +kernel : ∀ t : Fin grid0.N, condLast (grid0.coords t) ↔ t.val % 10 = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

theorem idleAt0_5 : ∀ t : Fin cfg0.N, ¬t.val % 10 = 9 → cfg0.idle 5 (grid0.coords t) = true := by decide +kernel
theorem idleAt0_6 : ∀ t : Fin cfg0.N, ¬t.val % 10 = 9 → cfg0.idle 6 (grid0.coords t) = true := by decide +kernel
theorem noFlush0_5 : ∀ t : Fin cfg0.N, ¬t.val % 10 = 9 → (cfg0.win 5).flush t = false := by decide +kernel
theorem noFlush0_6 : ∀ t : Fin cfg0.N, ¬t.val % 10 = 9 → (cfg0.win 6).flush t = false := by decide +kernel

theorem liveAt0_5 : ∀ t : Fin cfg0.N, t.val % 10 = 9 → cfg0.idle 5 (grid0.coords t) = false := by decide +kernel
theorem liveAt0_6 : ∀ t : Fin cfg0.N, t.val % 10 = 9 → cfg0.idle 6 (grid0.coords t) = false := by decide +kernel

theorem st0_first (c : Dev nD) (t : Fin cfg0.N) (h0 : t.val % 10 = 0) :
    st0 V c t.val t.isLt =
      (mNew (iblk0 V c 0 t) (iblk0 V c 1 t) (iblk0 V c 2 t) (iblk0 V c 3 t) (k0_pay5 (F := F)),
       lNew (iblk0 V c 0 t) (iblk0 V c 1 t) (iblk0 V c 2 t) (iblk0 V c 3 t) (k0_pay5 (F := F)) (k0_pay6 (F := F))) := by
  obtain ⟨n, hn⟩ := t
  cases n with
  | zero => rfl
  | succ n => exact (if_pos h0).trans rfl

theorem st0_next (c : Dev nD) (t : Fin cfg0.N) (h0 : ¬t.val % 10 = 0) :
    st0 V c t.val t.isLt =
      (mNew (iblk0 V c 0 t) (iblk0 V c 1 t) (iblk0 V c 2 t) (iblk0 V c 3 t) (st0 V c (t.val - 1) (Nat.lt_of_le_of_lt (Nat.sub_le _ _) t.isLt)).1,
       lNew (iblk0 V c 0 t) (iblk0 V c 1 t) (iblk0 V c 2 t) (iblk0 V c 3 t) (st0 V c (t.val - 1) (Nat.lt_of_le_of_lt (Nat.sub_le _ _) t.isLt)).1
         (st0 V c (t.val - 1) (Nat.lt_of_le_of_lt (Nat.sub_le _ _) t.isLt)).2) := by
  obtain ⟨n, hn⟩ := t
  cases n with
  | zero => exact absurd (Nat.zero_mod _) h0
  | succ n => exact (if_neg h0).trans rfl

def Phi0 (c : Dev nD) : (n : ℕ) → n ≤ cfg0.N → sProp 𝕄
  | 0, _ => Pipeline.ΦA spec0 c
  | n + 1, hn => iprop(iprop(owns (c : Thread nD τ) scM fullShare (st0 V c n hn).1 ∗ owns (c : Thread nD τ) scL fullShare (st0 V c n hn).2 ∗ otherScoped (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM fullShare (st0 V c n hn).1 ∗ owns (c : Thread nD τ) scL fullShare (st0 V c n hn).2 ∗ otherScoped (F := F) c) ∗ (∃ r, prngReg c r)) := rfl

theorem Phi0_pos (c : Dev nD) (n : ℕ) (h : n ≤ cfg0.N) (hz : n ≠ 0) :
    Phi0 V c n h = iprop(iprop(owns (c : Thread nD τ) scM fullShare (st0 V c (n - 1) (by omega)).1 ∗ owns (c : Thread nD τ) scL fullShare (st0 V c (n - 1) (by omega)).2 ∗ otherScoped (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay7 (iblk0 V c 0 t) (iblk0 V c 1 t) (iblk0 V c 2 t) (iblk0 V c 3 t)
    | ⟨5, _⟩ => k0_pay3 (st0 V c t.val t.isLt).1
    | ⟨6, _⟩ => k0_pay4 (st0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay7 (iblk0 V c 0 t) (iblk0 V c 1 t) (iblk0 V c 2 t) (iblk0 V c 3 t) := by dsimp only [dat0]
theorem after0_5 (c : Dev nD) (t : Fin cfg0.N) : (dat0 V c).after 5 t = k0_pay3 (st0 V c t.val t.isLt).1 := by dsimp only [dat0]
theorem after0_6 (c : Dev nD) (t : Fin cfg0.N) : (dat0 V c).after 6 t = k0_pay4 (st0 V c t.val t.isLt).2 := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2560 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2560 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x1 .f32 := win0_6.stage (cfg0.slots t 6)
abbrev hs0_6 (t : Fin cfg0.N) : (ms0_6 t).IsWhole := hstage0_6 ((cfg0.slots t 6).cast nbuf0_6)

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ, Phi0_castSucc]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 10 = 0
  ·
    have h9 : ¬t.val % 10 = 9 := by omega
    rw [Dat.leavesExact_idle (dat0 V c) 5 t (idleAt0_5 t h9) (noFlush0_5 t h9),
      Dat.leavesExact_idle (dat0 V c) 6 t (idleAt0_6 t h9) (noFlush0_6 t h9), st0_first V c t h0]
    dsimp only
    by_cases hz : t.val = 0
    · rw [Phi0_zero V c _ _ hz, PhiA0_eq]
      iintro ⟨⟨⟨HM, HL, HO⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0_first c Set.univ (grid0.coords t) ((hcondFirst t).mpr h0) (fun h => h9 ((hcondLast t).mp h))
          (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) scL (Memref.isWhole_whole _)
          (iblk0 V c 0 t) (iblk0 V c 1 t) (iblk0 V c 2 t) (iblk0 V c 3 t)
          ((dat0 V c).before 5 t d5) ((dat0 V c).before 6 t d6) _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HM]; · iexact HM
      isplitl [HL]; · iexact HL
      iintro ⟨H0, H1, H2, H3, H4, H5, H6, HM, HL⟩
      isplitl [HM HL HO Hg]
      · isplitl [HM HL HO]
        · isplitl [HM]; · iexact HM
          isplitl [HL]; · iexact HL
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [Phi0_pos V c _ _ hz]
      iintro ⟨⟨⟨HM, HL, HO⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0_first c Set.univ (grid0.coords t) ((hcondFirst t).mpr h0) (fun h => h9 ((hcondLast t).mp h))
          (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) scL (Memref.isWhole_whole _)
          (iblk0 V c 0 t) (iblk0 V c 1 t) (iblk0 V c 2 t) (iblk0 V c 3 t)
          ((dat0 V c).before 5 t d5) ((dat0 V c).before 6 t d6) _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HM]; · iexists _; iexact HM
      isplitl [HL]; · iexists _; iexact HL
      iintro ⟨H0, H1, H2, H3, H4, H5, H6, HM, HL⟩
      isplitl [HM HL HO Hg]
      · isplitl [HM HL HO]
        · isplitl [HM]; · iexact HM
          isplitl [HL]; · iexact HL
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun e => h0 (by rw [e])
    rw [Phi0_pos V c _ _ hz]
    by_cases h9 : t.val % 10 = 9
    ·
      rw [show (dat0 V c).leavesExact 5 t = owns (c : Thread nD τ) (ms0_5 t) fullShare ((dat0 V c).after 5 t) from by
        unfold Dat.leavesExact; rw [liveAt0_5 t h9], after0_5]
      rw [show (dat0 V c).leavesExact 6 t = owns (c : Thread nD τ) (ms0_6 t) fullShare ((dat0 V c).after 6 t) from by
        unfold Dat.leavesExact; rw [liveAt0_6 t h9], after0_6]
      rw [st0_next V c t h0]
      dsimp only
      iintro ⟨⟨⟨HM, HL, HO⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0_last c Set.univ (grid0.coords t) (fun h => h0 ((hcondFirst t).mp h)) ((hcondLast t).mpr h9)
          (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) scL (Memref.isWhole_whole _)
          (iblk0 V c 0 t) (iblk0 V c 1 t) (iblk0 V c 2 t) (iblk0 V c 3 t)
          (st0 V c (t.val - 1) (Nat.lt_of_le_of_lt (Nat.sub_le _ _) t.isLt)).1 (st0 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HM]; · iexact HM
      isplitl [HL]; · iexact HL
      iintro ⟨H0, H1, H2, H3, H4, H5, H6, HM, HL⟩
      isplitl [HM HL HO Hg]
      · isplitl [HM HL HO]
        · isplitl [HM]; · iexact HM
          isplitl [HL]; · iexact HL
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [Dat.leavesExact_idle (dat0 V c) 5 t (idleAt0_5 t h9) (noFlush0_5 t h9),
        Dat.leavesExact_idle (dat0 V c) 6 t (idleAt0_6 t h9) (noFlush0_6 t h9), st0_next V c t h0]
      dsimp only
      iintro ⟨⟨⟨HM, HL, HO⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0_mid c Set.univ (grid0.coords t) (fun h => h0 ((hcondFirst t).mp h)) (fun h => h9 ((hcondLast t).mp h))
          (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) scL (Memref.isWhole_whole _)
          (iblk0 V c 0 t) (iblk0 V c 1 t) (iblk0 V c 2 t) (iblk0 V c 3 t)
          ((dat0 V c).before 5 t d5) ((dat0 V c).before 6 t d6)
          (st0 V c (t.val - 1) (Nat.lt_of_le_of_lt (Nat.sub_le _ _) t.isLt)).1 (st0 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HM]; · iexact HM
      isplitl [HL]; · iexact HL
      iintro ⟨H0, H1, H2, H3, H4, H5, H6, HM, HL⟩
      isplitl [HM HL HO Hg]
      · isplitl [HM HL HO]
        · isplitl [HM]; · iexact HM
          isplitl [HL]; · iexact HL
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation0 (c : Dev nD) : BodyObligation (dat0 (F := F) V c) (defs₀ (F := F)) Variants.none () Set.univ := fun t => by
  rw [bigSep_W0, bigSep_W0]
  exact sound_body V c t

theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

theorem hout0 (c : Dev nD) : (dat0 V c).Φ (Fin.last cfg0.N) ⊢ Pipeline.ΦA spec0 c := by
  have hN : (Fin.last cfg0.N).val ≠ 0 := by rw [Fin.val_last]; have : cfg0.N = 20 := N_0; omega
  rw [show (dat0 V c).Φ (Fin.last cfg0.N) = Phi0 V c (Fin.last cfg0.N).val (Nat.le_of_lt_succ (Fin.last cfg0.N).isLt) from rfl,
    Phi0_pos V c _ _ hN, PhiA0_eq]
  iintro ⟨⟨HM, HL, HO⟩, Hg⟩
  isplitr [Hg]
  · isplitl [HM]
    · iexists _; iexact HM
    isplitl [HL]
    · iexists _; iexact HL
    iexact HO
  iexact Hg

end Cert.KernelIdeal.Hand

end
-- ==== Proof.KI.Body1.lean ====
import proofs.«131213_j77824807403876_2_alg».proof.Proof.Gen.KernelIdeal.Launch
import proofs.«131213_j77824807403876_2_alg».proof.Proof.Gen.KernelIdeal.Skeleton
import proofs.«131213_j77824807403876_2_alg».proof.Proof.Gen.KernelIdeal.Points

import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off_zero2 : (![0, 0] : Fin 2 → Nat) = fun _ => 0 := funext fun a => by fin_cases a <;> rfl

theorem readAt_whole_wide {κ : Kind} {sp : Space} (v : View sig κ sp S128x5120 .f32) (f : v.ty.Contents (Elt F)) :
    v.readAt (Elt F) (Rect.unit (s := S128x5120) ![0, 0] S128x5120.size inb_S128x5120_S128x5120_0_0).toLoadRect f
      = v.read (Elt F) f :=
  (View.readAt_eq_ld v f _).trans (View.ld_unit_zero off_zero2 _ _)

theorem readAt_whole_col {κ : Kind} {sp : Space} (v : View sig κ sp S128x1 .f32) (f : v.ty.Contents (Elt F)) :
    v.readAt (Elt F) (Rect.unit (s := S128x1) ![0, 0] S128x1.size inb_S128x1_S128x1_0_0).toLoadRect f
      = v.read (Elt F) f :=
  (View.readAt_eq_ld v f _).trans (View.ld_unit_zero off_zero2 _ _)

theorem read_whole_store {κ : Kind} {sp : Space} (v : View sig κ sp S128x5120 .f32) (f : v.ty.Contents (Elt F))
    (w : S128x5120.Idx → Elt F .f32) :
    v.read (Elt F) (v.writes (Elt F) f
      [⟨Rect.unit (s := S128x5120) ![0, 0] S128x5120.size inb_S128x5120_S128x5120_0_0, w⟩]) = w := by
  rw [View.read_writes_eq_canon _ _ _
    (fun y => ⟨_, List.mem_singleton_self _, View.mem_set_unit_zero off_zero2 inb_S128x5120_S128x5120_0_0 y⟩), View.canon_unit_zero off_zero2]

set_option maxHeartbeats 1000000 in

theorem sound_kernel1 (c : Dev nD) (E : Set ℕ) (i : grid1.Coords)
    (arg1 : Memref sig .tc .vmem S128x5120 .f32) (harg1 : arg1.IsWhole) (arg2 : Memref sig .tc .vmem S128x1 .f32) (harg2 : arg2.IsWhole) (arg3 : Memref sig .tc .vmem S128x1 .f32) (harg3 : arg3.IsWhole) (arg4 : Memref sig .tc .vmem S128x5120 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x5120 .f32) (harg7 : arg7.IsWhole) (arg8 : Memref sig .tc .vmem S128x5120 .f32) (harg8 : arg8.IsWhole)
    (y0 : Vec F S128x5120 .f32) (y1 y2 : Vec F S128x1 .f32) (y3 : Vec F S128x5120 .f32) (y4 y5 : Vec F S128x1 .f32)
    (K : PUnit → sProp 𝕄) :
    iprop(owns (c : Thread nD τ) arg1 fullShare y0 ∗ owns (c : Thread nD τ) arg2 fullShare y1 ∗ owns (c : Thread nD τ) arg3 fullShare y2 ∗ owns (c : Thread nD τ) arg4 fullShare y3 ∗ owns (c : Thread nD τ) arg5 fullShare y4 ∗ owns (c : Thread nD τ) arg6 fullShare y5
        ∗ (∃ d, owns (c : Thread nD τ) arg7 fullShare d) ∗ (∃ d, owns (c : Thread nD τ) arg8 fullShare d)
        ∗ (iprop(owns (c : Thread nD τ) arg1 fullShare y0 ∗ owns (c : Thread nD τ) arg2 fullShare y1 ∗ owns (c : Thread nD τ) arg3 fullShare y2 ∗ owns (c : Thread nD τ) arg4 fullShare y3 ∗ owns (c : Thread nD τ) arg5 fullShare y4 ∗ owns (c : Thread nD τ) arg6 fullShare y5
            ∗ owns (c : Thread nD τ) arg7 fullShare (k1_pay2 y0 y1 y2 y4 y5 y3) ∗ owns (c : Thread nD τ) arg8 fullShare (k1_pay1 y0 y1 y2)) -∗ K ⟨⟩))
      ⊢ wp frame (wpE (defs₀ (F := F)) Variants.none c none) E (cc1__blend_kernel i arg1 harg1 arg2 harg2 arg3 harg3 arg4 harg4 arg5 harg5 arg6 harg6 arg7 harg7 arg8 harg8) K := by
  simp only [cc1__blend_kernel_eq_skeleton]; unfold cc1__blend_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5

  sl_exec
  sl_step
  iapply Hk

  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5

  isplitl [H6]
  · iexists _; isplitr
    swap; · iexact H6
    ipureintro
    rw [read_whole_store, readAt_whole_wide, readAt_whole_wide, readAt_whole_col, readAt_whole_col, readAt_whole_col,
      readAt_whole_col]
  iexists _; isplitr
  swap; · iexact H7
  ipureintro
  rw [read_whole_store, readAt_whole_wide, readAt_whole_col, readAt_whole_col]

end Cert.KernelIdeal.Hand

end
-- ==== Proof.KI.Dat1.lean ====
import proofs.«131213_j77824807403876_2_alg».proof.Proof.Gen.KernelIdeal.Launch
import proofs.«131213_j77824807403876_2_alg».proof.Proof.Gen.KernelIdeal.Skeleton
import proofs.«131213_j77824807403876_2_alg».proof.Proof.Gen.KernelIdeal.Points
import proofs.«131213_j77824807403876_2_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (iblk1 V c 0 t) (iblk1 V c 1 t) (iblk1 V c 2 t) (iblk1 V c 4 t) (iblk1 V c 5 t) (iblk1 V c 3 t)
    | ⟨7, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = k1_pay2 (iblk1 V c 0 t) (iblk1 V c 1 t) (iblk1 V c 2 t) (iblk1 V c 4 t) (iblk1 V c 5 t) (iblk1 V c 3 t) := by dsimp only [dat1]
theorem after1_7 (c : Dev nD) (t : Fin cfg1.N) :
    (dat1 V c).after 7 t = k1_pay1 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.RunFold.lean ====
import proofs.«131213_j77824807403876_2_alg».proof.Proof.Gen.KernelIdeal.Launch
import proofs.«131213_j77824807403876_2_alg».proof.Proof.Gen.KernelIdeal.Skeleton
import proofs.«131213_j77824807403876_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The buffer contents after each host stretch before the first kernel region -/

/-- Core `c`'s buffers at launch. -/
abbrev Wh0 : Dev nD → Valuation τ sig (Elt F) := fun c b => (s₀ m ρ).mem ((c : Dev nD), b)
/-- After the host stretch `hostOps0`. -/
abbrev Wh1 : Dev nD → Valuation τ sig (Elt F) := fun c => StableHlo.after hostOps0 (Wh0 m ρ c)
/-- After the host stretch `hostOps0_1`. -/
abbrev Wh2 : Dev nD → Valuation τ sig (Elt F) := fun c => StableHlo.after hostOps0_1 (Wh1 m ρ c)
/-- After the host stretch `hostOps0_2`. -/
abbrev Wh3 : Dev nD → Valuation τ sig (Elt F) := fun c => StableHlo.after hostOps0_2 (Wh2 m ρ c)
/-- After the host stretch `hostOps0_3`. -/
abbrev Wh4 : Dev nD → Valuation τ sig (Elt F) := fun c => StableHlo.after hostOps0_3 (Wh3 m ρ c)
/-- After the host stretch `hostOps0_4`. -/
abbrev Wh5 : Dev nD → Valuation τ sig (Elt F) := fun c => StableHlo.after hostOps0_4 (Wh4 m ρ c)
/-- After the host stretch `hostOps0_5`. -/
abbrev Wh6 : Dev nD → Valuation τ sig (Elt F) := fun c => StableHlo.after hostOps0_5 (Wh5 m ρ c)
/-- After the host stretch `hostOps0_6`. -/
abbrev Wh7 : Dev nD → Valuation τ sig (Elt F) := fun c => StableHlo.after hostOps0_6 (Wh6 m ρ c)
/-- After the host stretch `hostOps0_7`. -/
abbrev Wh8 : Dev nD → Valuation τ sig (Elt F) := fun c => StableHlo.after hostOps0_7 (Wh7 m ρ c)
/-- After the host stretch `hostOps0_8`. -/
abbrev Wh9 : Dev nD → Valuation τ sig (Elt F) := fun c => StableHlo.after hostOps0_8 (Wh8 m ρ c)
/-- After the host stretch `hostOps0_9`. -/
abbrev Wh10 : Dev nD → Valuation τ sig (Elt F) := fun c => StableHlo.after hostOps0_9 (Wh9 m ρ c)
/-- After the host stretch `hostOps0_10`. -/
abbrev Wh11 : Dev nD → Valuation τ sig (Elt F) := fun c => StableHlo.after hostOps0_10 (Wh10 m ρ c)
/-- After the host stretch `hostOps0_11`. -/
abbrev Wh12 : Dev nD → Valuation τ sig (Elt F) := fun c => StableHlo.after hostOps0_11 (Wh11 m ρ c)

/-! ## No host operation allocates -/

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps0_5` allocates a buffer. -/
theorem hostOps0_5_fresh : (hostOps0_5 : List (HloOp τ sig (Elt F))).Forall fun op => op.fresh = ∅ := by
  simp only [List.Forall]; repeat' constructor
/-- No operation of `hostOps0_6` allocates a buffer. -/
theorem hostOps0_6_fresh : (hostOps0_6 : List (HloOp τ sig (Elt F))).Forall fun op => op.fresh = ∅ := by
  simp only [List.Forall]; repeat' constructor
/-- No operation of `hostOps0_7` allocates a buffer. -/
theorem hostOps0_7_fresh : (hostOps0_7 : List (HloOp τ sig (Elt F))).Forall fun op => op.fresh = ∅ := by
  simp only [List.Forall]; repeat' constructor
/-- No operation of `hostOps0_8` allocates a buffer. -/
theorem hostOps0_8_fresh : (hostOps0_8 : List (HloOp τ sig (Elt F))).Forall fun op => op.fresh = ∅ := by
  simp only [List.Forall]; repeat' constructor
/-- No operation of `hostOps0_9` allocates a buffer. -/
theorem hostOps0_9_fresh : (hostOps0_9 : List (HloOp τ sig (Elt F))).Forall fun op => op.fresh = ∅ := by
  simp only [List.Forall]; repeat' constructor
/-- No operation of `hostOps0_10` allocates a buffer. -/
theorem hostOps0_10_fresh : (hostOps0_10 : List (HloOp τ sig (Elt F))).Forall fun op => op.fresh = ∅ := by
  simp only [List.Forall]; repeat' constructor
/-- No operation of `hostOps0_11` allocates a buffer. -/
theorem hostOps0_11_fresh : (hostOps0_11 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor

end Cert.KernelIdeal.Hand

end
-- ==== Proof.KI.Run.lean ====
import proofs.«131213_j77824807403876_2_alg».proof.Proof.Gen.KernelIdeal.Launch
import proofs.«131213_j77824807403876_2_alg».proof.Proof.Gen.KernelIdeal.Skeleton
import proofs.«131213_j77824807403876_2_alg».proof.Proof.Gen.KernelIdeal.Points
import proofs.«131213_j77824807403876_2_alg».proof.Proof.KI.Dat0
import proofs.«131213_j77824807403876_2_alg».proof.Proof.KI.Dat1
import proofs.«131213_j77824807403876_2_alg».proof.Proof.KI.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V12 : (c : Dev nD) → (b : Ref sig .tc) → Buf (Elt F) ((c : Thread nD τ).loc b) := fun c b => Wh12 m ρ c b

def W13 (c : Dev nD) : Valuation τ sig (Elt F) :=
  Pipeline.withArrays spec0 c (Wh12 m ρ c) fun w => (dat0 (V12 m ρ) c).arrAt w cfg0.N
theorem W13_arr (c : Dev nD) (w : Fin cfg0.W) :
    W13 m ρ c (Proc.devRef .tc (Pipeline.arrRef spec0 w)) = (dat0 (V12 m ρ) c).arrAt w cfg0.N := by
  unfold W13; exact Pipeline.withArrays_arr spec0 launch0.win.arr_inj c _ _ w
theorem W13_of_ne (c : Dev nD) (b : Ref sig .tc) (hb : ∀ w, Pipeline.arrRef spec0 w ≠ b) :
    W13 m ρ c (Proc.devRef .tc b) = Wh12 m ρ c (Proc.devRef .tc b) := by
  unfold W13; exact Pipeline.withArrays_of_ne spec0 c _ _ b hb
abbrev V13 : (c : Dev nD) → (b : Ref sig .tc) → Buf (Elt F) ((c : Thread nD τ).loc b) := fun c b => W13 m ρ c b
theorem hF0 (c : Dev nD) (w : Fin cfg0.W) : (dat0 (V12 m ρ) c).arrAt w cfg0.N = V13 m ρ c (Pipeline.arrRef spec0 w) :=
  (W13_arr m ρ c w).symm
theorem hrest0 (c : Dev nD) : ∀ b, b ∉ Finset.univ.image (Pipeline.arrRef spec0) → V13 m ρ c b = V12 m ρ c b :=
  fun b hb => W13_of_ne m ρ c b fun w e => hb (Finset.mem_image.mpr ⟨w, Finset.mem_univ _, e⟩)

abbrev W14 : Dev nD → Valuation τ sig (Elt F) := fun c => StableHlo.after hostOps1 (W13 m ρ c)
abbrev V14 : (c : Dev nD) → (b : Ref sig .tc) → Buf (Elt F) ((c : Thread nD τ).loc b) := fun c b => W14 m ρ c b

def W15 (c : Dev nD) : Valuation τ sig (Elt F) :=
  Pipeline.withArrays spec1 c (W14 m ρ c) fun w => (dat1 (V14 m ρ) c).arrAt w cfg1.N
theorem W15_arr (c : Dev nD) (w : Fin cfg1.W) :
    W15 m ρ c (Proc.devRef .tc (Pipeline.arrRef spec1 w)) = (dat1 (V14 m ρ) c).arrAt w cfg1.N := by
  unfold W15; exact Pipeline.withArrays_arr spec1 launch1.win.arr_inj c _ _ w
theorem W15_of_ne (c : Dev nD) (b : Ref sig .tc) (hb : ∀ w, Pipeline.arrRef spec1 w ≠ b) :
    W15 m ρ c (Proc.devRef .tc b) = W14 m ρ c (Proc.devRef .tc b) := by
  unfold W15; exact Pipeline.withArrays_of_ne spec1 c _ _ b hb
abbrev V15 : (c : Dev nD) → (b : Ref sig .tc) → Buf (Elt F) ((c : Thread nD τ).loc b) := fun c b => W15 m ρ c b
theorem hF1 (c : Dev nD) (w : Fin cfg1.W) : (dat1 (V14 m ρ) c).arrAt w cfg1.N = V15 m ρ c (Pipeline.arrRef spec1 w) :=
  (W15_arr m ρ c w).symm
theorem hrest1 (c : Dev nD) : ∀ b, b ∉ Finset.univ.image (Pipeline.arrRef spec1) → V15 m ρ c b = V14 m ρ c b :=
  fun b hb => W15_of_ne m ρ c b fun w e => hb (Finset.mem_image.mpr ⟨w, Finset.mem_univ _, e⟩)

abbrev W16 : Dev nD → Valuation τ sig (Elt F) := fun c => StableHlo.after hostOps2 (W15 m ρ c)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V12 m ρ) c
  | ⟨1, _⟩ => fun c => dat1 (V14 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W16 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V12 m ρ) c).loose
  hwaits := Pipeline.hwaits_of_owed_zero _ _ _ _ L lv 0 fun _ _ => rfl
  pre c := iprop(StableHlo.held (c : Thread nD τ) (Pipeline.ucRefs τ sig) (Wh12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec0 c (V12 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (V12 m ρ) c)
    unfold Pipeline.ΦA
    iintro ⟨Hp, -, Hr⟩
    isplitl [Hr]; · iexact Hr
    iexact Hp
  hout c := by
    rw [Pipeline.ownSems0_none]
    refine (hout0 (V12 m ρ) c).trans (?_ : Pipeline.ΦA spec0 c ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V12 m ρ c) (V13 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V14 m ρ) c).loose
  hwaits := Pipeline.hwaits_of_owed_zero _ _ _ _ L lv 1 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec1 c (V14 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V14 m ρ c) (V15 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [
    .host (hseg hostOps0 hostOps0_sub hostOps0_fresh (Wh0 m ρ)),
    .host (hseg hostOps0_1 hostOps0_1_sub hostOps0_1_fresh (Wh1 m ρ)),
    .host (hseg hostOps0_2 hostOps0_2_sub hostOps0_2_fresh (Wh2 m ρ)),
    .host (hseg hostOps0_3 hostOps0_3_sub hostOps0_3_fresh (Wh3 m ρ)),
    .host (hseg hostOps0_4 hostOps0_4_sub hostOps0_4_fresh (Wh4 m ρ)),
    .host (hseg hostOps0_5 hostOps0_5_sub hostOps0_5_fresh (Wh5 m ρ)),
    .host (hseg hostOps0_6 hostOps0_6_sub hostOps0_6_fresh (Wh6 m ρ)),
    .host (hseg hostOps0_7 hostOps0_7_sub hostOps0_7_fresh (Wh7 m ρ)),
    .host (hseg hostOps0_8 hostOps0_8_sub hostOps0_8_fresh (Wh8 m ρ)),
    .host (hseg hostOps0_9 hostOps0_9_sub hostOps0_9_fresh (Wh9 m ρ)),
    .host (hseg hostOps0_10 hostOps0_10_sub hostOps0_10_fresh (Wh10 m ρ)),
    .host (hseg hostOps0_11 hostOps0_11_sub hostOps0_11_fresh (Wh11 m ρ)),
    .region (reg0 m ρ),
    .host (hseg hostOps1 hostOps1_sub hostOps1_fresh (W13 m ρ)),
    .region (reg1 m ρ),
    .host (hseg hostOps2 hostOps2_sub hostOps2_fresh (W15 m ρ)) ]

set_option maxHeartbeats 4000000 in

theorem main_run (c : Dev nD) : main (F := F) c = Pipeline.Seg.run (segs m ρ) := (main_chain c).trans (by chain_rfl)

set_option backward.isDefEq.respectTransparency.types false in
set_option maxHeartbeats 4000000 in

theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wh0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show (iprop(StableHlo.held (c : Thread nD τ) (Pipeline.ucRefs τ sig) (W16 m ρ c) ∗ R (F := F) c) : sProp 𝕄)
          ⊢ iprop(Tₙ m ρ c ∗ ∃ W, owes (c : Thread nD τ) (0 : CellTallies nD τ sig Unit) W)
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Wh0 m ρ c)
        from Pipeline.unscopedBufs_held c (Wh0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

end Cert.KernelIdeal.Hand

end
-- ==== Proof.LibSteps.lean ====
import Mathlib.Data.List.Basic

namespace Cert.Lib

universe u v w
variable {α : Type u} {κ : Type v} {β : κ → Type w} (read : α → (k : κ) → β k)

/-- `Steps read Ws Ls`: each state of `Ws` after the first reads as the one before it at every key outside the matching list of `Ls`. -/
def Steps : List α → List (List κ) → Prop
  | [_], [] => True
  | a :: b :: as, L :: Ls => (∀ k, k ∉ L → read b k = read a k) ∧ Steps (b :: as) Ls
  | _, _ => False

/-- Along such a sequence a key outside the lists from the `i`-th up to the `j`-th reads at `j` as it did at `i`. -/
theorem Steps.keep (d : α) (k : κ) :
    ∀ (Ws : List α) (Ls : List (List κ)), Steps read Ws Ls →
    ∀ i j, i ≤ j → j ≤ Ls.length → (∀ n < j, i ≤ n → k ∉ Ls.getD n []) → read (Ws.getD j d) k = read (Ws.getD i d) k
  | [_], [], _, i, j, hij, hj, _ => by
    obtain rfl : j = 0 := Nat.le_zero.mp hj
    obtain rfl : i = 0 := Nat.le_zero.mp hij
    rfl
  | a :: b :: as, L :: Ls, hs, i, j, hij, hj, h => by
    obtain ⟨h0, hs'⟩ := hs
    cases j with
    | zero => obtain rfl : i = 0 := Nat.le_zero.mp hij; rfl
    | succ j =>
      cases i with
      | zero =>
        exact (Steps.keep d k (b :: as) Ls hs' 0 j (Nat.zero_le _) (Nat.le_of_succ_le_succ hj)
          fun n hn _ => h (n + 1) (Nat.succ_lt_succ hn) (Nat.zero_le _)).trans (h0 k (h 0 (Nat.succ_pos _) (Nat.le_refl _)))
      | succ i =>
        exact Steps.keep d k (b :: as) Ls hs' i j (Nat.le_of_succ_le_succ hij) (Nat.le_of_succ_le_succ hj)
          fun n hn hin => h (n + 1) (Nat.succ_lt_succ hn) (Nat.succ_le_succ hin)
  | [], _, hs, _, _, _, _, _ => hs.elim
  | [_], _ :: _, hs, _, _, _, _, _ => hs.elim
  | _ :: _ :: _, [], hs, _, _, _, _, _ => hs.elim

end Cert.Lib
-- ==== Proof.KI.Kept.lean ====
import proofs.«131213_j77824807403876_2_alg».proof.Proof.Gen.KernelIdeal.Launch
import proofs.«131213_j77824807403876_2_alg».proof.Proof.Gen.KernelIdeal.Skeleton
import proofs.«131213_j77824807403876_2_alg».proof.Proof.Gen.KernelIdeal.Points
import proofs.«131213_j77824807403876_2_alg».proof.Proof.KI.Run
import proofs.«131213_j77824807403876_2_alg».proof.Proof.LibSteps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

abbrev hostOps0_W : List (Ref sig .tc) := [main_v0, main_v1, main_v2, main_v3, main_v4, main_c, main_v5, main_v6, main_c_0, main_v7, main_v8, main_c_1, main_v9, main_v10, main_v11, main_v12, main_v13, main_c_2, main_v14, main_c_3, main_v15, main_c_4, main_v16, main_v17, main_c_5, main_v18, main_v19, main_v20, main_v21, main_v22, main_v23, main_v24, main_c_6, main_v25, main_v26, main_v27, main_cst]
set_option maxHeartbeats 4000000 in
theorem hostOps0_writes : (hostOps0 : List (HloOp τ sig (Elt F))).Forall fun op => op.writes ⊆ ((hostOps0_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

abbrev hostOps0_1_W : List (Ref sig .tc) := [main_call0_v0, main_call0_v1, main_v28]
set_option maxHeartbeats 4000000 in
theorem hostOps0_1_writes : (hostOps0_1 : List (HloOp τ sig (Elt F))).Forall fun op => op.writes ⊆ ((hostOps0_1_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

abbrev hostOps0_2_W : List (Ref sig .tc) := [main_v29, main_v30, main_v31, main_cst_7, main_v32, main_cst_8, main_v33, main_v34, main_c_9, main_v35, main_v36, main_v37, main_v38, main_v39, main_v40, main_v41, main_cst_10, main_v42, main_cst_11, main_v43, main_v44, main_v45, main_v46, main_v47, main_v48, main_cst_12, main_v49, main_v50, main_v51, main_v52, main_cst_13, main_v53, main_cst_14, main_v54, main_v55, main_v56, main_v57, main_v58, main_v59, main_cst_15, main_v60, main_v61, main_v62, main_v63, main_v64, main_v65, main_cst_16, main_v66, main_c_17, main_v67, main_v68, main_c_18, main_v69, main_v70, main_v71, main_c_19, main_v72, main_v73, main_c_20, main_v74, main_v75, main_v76, main_v77, main_v78, main_v79, main_v80, main_v81, main_v82]
set_option maxHeartbeats 4000000 in
theorem hostOps0_2_writes : (hostOps0_2 : List (HloOp τ sig (Elt F))).Forall fun op => op.writes ⊆ ((hostOps0_2_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

abbrev hostOps0_3_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v83]
set_option maxHeartbeats 4000000 in
theorem hostOps0_3_writes : (hostOps0_3 : List (HloOp τ sig (Elt F))).Forall fun op => op.writes ⊆ ((hostOps0_3_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

abbrev hostOps0_4_W : List (Ref sig .tc) := [main_cst_21]
set_option maxHeartbeats 4000000 in
theorem hostOps0_4_writes : (hostOps0_4 : List (HloOp τ sig (Elt F))).Forall fun op => op.writes ⊆ ((hostOps0_4_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

abbrev hostOps0_5_W : List (Ref sig .tc) := [main_call2_v0, main_call2_v1, main_call2_v2, main_v84]
set_option maxHeartbeats 4000000 in
theorem hostOps0_5_writes : (hostOps0_5 : List (HloOp τ sig (Elt F))).Forall fun op => op.writes ⊆ ((hostOps0_5_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

abbrev hostOps0_6_W : List (Ref sig .tc) := [main_c_22]
set_option maxHeartbeats 4000000 in
theorem hostOps0_6_writes : (hostOps0_6 : List (HloOp τ sig (Elt F))).Forall fun op => op.writes ⊆ ((hostOps0_6_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

abbrev hostOps0_7_W : List (Ref sig .tc) := [main_call3_v0, main_v85]
set_option maxHeartbeats 4000000 in
theorem hostOps0_7_writes : (hostOps0_7 : List (HloOp τ sig (Elt F))).Forall fun op => op.writes ⊆ ((hostOps0_7_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

abbrev hostOps0_8_W : List (Ref sig .tc) := [main_v86, main_c_23]
set_option maxHeartbeats 4000000 in
theorem hostOps0_8_writes : (hostOps0_8 : List (HloOp τ sig (Elt F))).Forall fun op => op.writes ⊆ ((hostOps0_8_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

abbrev hostOps0_9_W : List (Ref sig .tc) := [main_call4_v0, main_v87]
set_option maxHeartbeats 4000000 in
theorem hostOps0_9_writes : (hostOps0_9 : List (HloOp τ sig (Elt F))).Forall fun op => op.writes ⊆ ((hostOps0_9_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

abbrev hostOps0_10_W : List (Ref sig .tc) := [main_c_24]
set_option maxHeartbeats 4000000 in
theorem hostOps0_10_writes : (hostOps0_10 : List (HloOp τ sig (Elt F))).Forall fun op => op.writes ⊆ ((hostOps0_10_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

abbrev hostOps0_11_W : List (Ref sig .tc) := [main_call5_v0, main_v88]
set_option maxHeartbeats 4000000 in
theorem hostOps0_11_writes : (hostOps0_11 : List (HloOp τ sig (Elt F))).Forall fun op => op.writes ⊆ ((hostOps0_11_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

abbrev hostOps1_W : List (Ref sig .tc) := [main_v90, main_v91, main_v92, main_v93, main_v94, main_v95, main_v96, main_v97, main_v98, main_v99, main_v100, main_v101, main_v102, main_v103, main_v104, main_v105, main_v106, main_v107, main_v108, main_v109, main_v110, main_v111]
set_option maxHeartbeats 4000000 in
theorem hostOps1_writes : (hostOps1 : List (HloOp τ sig (Elt F))).Forall fun op => op.writes ⊆ ((hostOps1_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

abbrev hostOps2_W : List (Ref sig .tc) := [main_v113, main_v114]
set_option maxHeartbeats 4000000 in
theorem hostOps2_writes : (hostOps2 : List (HloOp τ sig (Elt F))).Forall fun op => op.writes ⊆ ((hostOps2_W).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem Wh1_of (c : Dev nD) (r : Ref sig .tc) (h : r ∉ (hostOps0_W : List (Ref sig .tc))) :
    Wh1 m ρ c (Proc.devRef .tc r) = Wh0 m ρ c (Proc.devRef .tc r) :=
  StableHlo.after_of_writes_sub hostOps0 _ hostOps0_writes h
theorem Wh2_of (c : Dev nD) (r : Ref sig .tc) (h : r ∉ (hostOps0_1_W : List (Ref sig .tc))) :
    Wh2 m ρ c (Proc.devRef .tc r) = Wh1 m ρ c (Proc.devRef .tc r) :=
  StableHlo.after_of_writes_sub hostOps0_1 _ hostOps0_1_writes h
theorem Wh3_of (c : Dev nD) (r : Ref sig .tc) (h : r ∉ (hostOps0_2_W : List (Ref sig .tc))) :
    Wh3 m ρ c (Proc.devRef .tc r) = Wh2 m ρ c (Proc.devRef .tc r) :=
  StableHlo.after_of_writes_sub hostOps0_2 _ hostOps0_2_writes h
theorem Wh4_of (c : Dev nD) (r : Ref sig .tc) (h : r ∉ (hostOps0_3_W : List (Ref sig .tc))) :
    Wh4 m ρ c (Proc.devRef .tc r) = Wh3 m ρ c (Proc.devRef .tc r) :=
  StableHlo.after_of_writes_sub hostOps0_3 _ hostOps0_3_writes h
theorem Wh5_of (c : Dev nD) (r : Ref sig .tc) (h : r ∉ (hostOps0_4_W : List (Ref sig .tc))) :
    Wh5 m ρ c (Proc.devRef .tc r) = Wh4 m ρ c (Proc.devRef .tc r) :=
  StableHlo.after_of_writes_sub hostOps0_4 _ hostOps0_4_writes h
theorem Wh6_of (c : Dev nD) (r : Ref sig .tc) (h : r ∉ (hostOps0_5_W : List (Ref sig .tc))) :
    Wh6 m ρ c (Proc.devRef .tc r) = Wh5 m ρ c (Proc.devRef .tc r) :=
  StableHlo.after_of_writes_sub hostOps0_5 _ hostOps0_5_writes h
theorem Wh7_of (c : Dev nD) (r : Ref sig .tc) (h : r ∉ (hostOps0_6_W : List (Ref sig .tc))) :
    Wh7 m ρ c (Proc.devRef .tc r) = Wh6 m ρ c (Proc.devRef .tc r) :=
  StableHlo.after_of_writes_sub hostOps0_6 _ hostOps0_6_writes h
theorem Wh8_of (c : Dev nD) (r : Ref sig .tc) (h : r ∉ (hostOps0_7_W : List (Ref sig .tc))) :
    Wh8 m ρ c (Proc.devRef .tc r) = Wh7 m ρ c (Proc.devRef .tc r) :=
  StableHlo.after_of_writes_sub hostOps0_7 _ hostOps0_7_writes h
theorem Wh9_of (c : Dev nD) (r : Ref sig .tc) (h : r ∉ (hostOps0_8_W : List (Ref sig .tc))) :
    Wh9 m ρ c (Proc.devRef .tc r) = Wh8 m ρ c (Proc.devRef .tc r) :=
  StableHlo.after_of_writes_sub hostOps0_8 _ hostOps0_8_writes h
theorem Wh10_of (c : Dev nD) (r : Ref sig .tc) (h : r ∉ (hostOps0_9_W : List (Ref sig .tc))) :
    Wh10 m ρ c (Proc.devRef .tc r) = Wh9 m ρ c (Proc.devRef .tc r) :=
  StableHlo.after_of_writes_sub hostOps0_9 _ hostOps0_9_writes h
theorem Wh11_of (c : Dev nD) (r : Ref sig .tc) (h : r ∉ (hostOps0_10_W : List (Ref sig .tc))) :
    Wh11 m ρ c (Proc.devRef .tc r) = Wh10 m ρ c (Proc.devRef .tc r) :=
  StableHlo.after_of_writes_sub hostOps0_10 _ hostOps0_10_writes h
theorem Wh12_of (c : Dev nD) (r : Ref sig .tc) (h : r ∉ (hostOps0_11_W : List (Ref sig .tc))) :
    Wh12 m ρ c (Proc.devRef .tc r) = Wh11 m ρ c (Proc.devRef .tc r) :=
  StableHlo.after_of_writes_sub hostOps0_11 _ hostOps0_11_writes h

abbrev reg0_W : List (Ref sig .tc) := [main_arg0, main_v85, main_v87, main_v88, main_v89_0, main_v89_1, main_v89_2]

abbrev reg1_W : List (Ref sig .tc) := [main_v89_0, main_v94, main_v109, main_v84, main_v110, main_v111, main_v112_0, main_v112_1]

theorem W13_of (c : Dev nD) (r : Ref sig .tc) (h : r ∉ (reg0_W : List (Ref sig .tc))) :
    W13 m ρ c (Proc.devRef .tc r) = Wh12 m ρ c (Proc.devRef .tc r) :=
  W13_of_ne m ρ c r fun w e => h (by subst e; fin_cases w <;> decide)
theorem W14_of (c : Dev nD) (r : Ref sig .tc) (h : r ∉ (hostOps1_W : List (Ref sig .tc))) :
    W14 m ρ c (Proc.devRef .tc r) = W13 m ρ c (Proc.devRef .tc r) :=
  StableHlo.after_of_writes_sub hostOps1 _ hostOps1_writes h
theorem W15_of (c : Dev nD) (r : Ref sig .tc) (h : r ∉ (reg1_W : List (Ref sig .tc))) :
    W15 m ρ c (Proc.devRef .tc r) = W14 m ρ c (Proc.devRef .tc r) :=
  W15_of_ne m ρ c r fun w e => h (by subst e; fin_cases w <;> decide)
theorem W16_of (c : Dev nD) (r : Ref sig .tc) (h : r ∉ (hostOps2_W : List (Ref sig .tc))) :
    W16 m ρ c (Proc.devRef .tc r) = W15 m ρ c (Proc.devRef .tc r) :=
  StableHlo.after_of_writes_sub hostOps2 _ hostOps2_writes h

theorem W13_arg0 (c : Dev nD) : W13 m ρ c (Proc.devRef .tc main_arg0) = Wh12 m ρ c (Proc.devRef .tc main_arg0) :=
  (W13_arr m ρ c 0).trans (((dat0 (V12 m ρ) c).arrAt_in 0 rfl _).trans (A_eq0 (V12 m ρ) c 0))

/-- The buffer contents of core `c` at the seventeen boundaries between @main's items, launch first. -/
abbrev Ws (c : Dev nD) : List (Valuation τ sig (Elt F)) := [Wh0 m ρ c, Wh1 m ρ c, Wh2 m ρ c, Wh3 m ρ c, Wh4 m ρ c, Wh5 m ρ c, Wh6 m ρ c, Wh7 m ρ c, Wh8 m ρ c, Wh9 m ρ c, Wh10 m ρ c, Wh11 m ρ c, Wh12 m ρ c, W13 m ρ c, W14 m ρ c, W15 m ρ c, W16 m ρ c]
/-- The references each of the sixteen items writes. -/
abbrev Ls : List (List (Ref sig .tc)) := [hostOps0_W, hostOps0_1_W, hostOps0_2_W, hostOps0_3_W, hostOps0_4_W, hostOps0_5_W, hostOps0_6_W, hostOps0_7_W, hostOps0_8_W, hostOps0_9_W, hostOps0_10_W, hostOps0_11_W, reg0_W, hostOps1_W, reg1_W, hostOps2_W]

def Wn (n : ℕ) (c : Dev nD) : Valuation τ sig (Elt F) := (Ws m ρ c).getD n (W16 m ρ c)
def itemW (n : ℕ) : List (Ref sig .tc) := Ls.getD n []

theorem steps (c : Dev nD) : Cert.Lib.Steps (fun (W : Valuation τ sig (Elt F)) (r : Ref sig .tc) => W (Proc.devRef .tc r)) (Ws m ρ c) Ls :=
  And.intro (Wh1_of m ρ c) <| And.intro (Wh2_of m ρ c) <| And.intro (Wh3_of m ρ c) <| And.intro (Wh4_of m ρ c) <| And.intro (Wh5_of m ρ c) <| And.intro (Wh6_of m ρ c) <| And.intro (Wh7_of m ρ c) <| And.intro (Wh8_of m ρ c) <| And.intro (Wh9_of m ρ c) <| And.intro (Wh10_of m ρ c) <| And.intro (Wh11_of m ρ c) <| And.intro (Wh12_of m ρ c) <| And.intro (W13_of m ρ c) <| And.intro (W14_of m ρ c) <| And.intro (W15_of m ρ c) <| And.intro (W16_of m ρ c) trivial

/-- A reference that no item from the `i`-th up to the `j`-th writes holds at boundary `j` what it held at boundary `i`. -/
theorem Wn_keep (c : Dev nD) (r : Ref sig .tc) (i j : ℕ) (hj : j ≤ 16) (h : ∀ n < j, i ≤ n → r ∉ itemW n) (hij : i ≤ j) :
    Wn m ρ j c (Proc.devRef .tc r) = Wn m ρ i c (Proc.devRef .tc r) :=
  Cert.Lib.Steps.keep _ (W16 m ρ c) r _ _ (steps m ρ c) i j hij hj h

/-- Every argument array reads as launched. -/
abbrev ArgsKept (mem : (ℓ : Loc nD τ sig) → Buf (Elt F) ℓ) (c : Dev nD) : Prop :=
  mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_arg3) = m ((c : Thread nD τ).loc main_arg3)
    ∧ mem ((c : Thread nD τ).loc main_arg4) = m ((c : Thread nD τ).loc main_arg4)
    ∧ mem ((c : Thread nD τ).loc main_arg5) = m ((c : Thread nD τ).loc main_arg5)
    ∧ mem ((c : Thread nD τ).loc main_arg6) = m ((c : Thread nD τ).loc main_arg6)
    ∧ mem ((c : Thread nD τ).loc main_arg7) = m ((c : Thread nD τ).loc main_arg7)
    ∧ mem ((c : Thread nD τ).loc main_arg8) = m ((c : Thread nD τ).loc main_arg8)

/-- The run, with each argument array read back as launched: no item writes one (the first kernel only reads `main_arg0`). -/
theorem run_args : θ_run defs (onTc (τ := τ) (main (F := F))) ⟨m, fun _ => 0, ρ⟩ (fun r => ∀ c : Dev nD,
      (∀ b ∈ Pipeline.ucRefs τ sig, r.2.mem (((c : Thread nD τ)).1, b) = W16 m ρ c b)
      ∧ ArgsKept m r.2.mem c) :=
  (θ_run defs _ _).mono (fun r h c =>
    have k (a : Ref sig .tc) (hu : ¬ (Proc.devRef .tc a : DevRef τ sig).isScoped) (hh : ∀ n < 16, 0 ≤ n → a ∉ itemW n) :
        r.2.mem ((c : Thread nD τ).loc a) = m ((c : Thread nD τ).loc a) :=
      (h c _ (mem_uc a hu)).trans (Wn_keep m ρ c a 0 16 (by omega) hh (by omega))
    ⟨h c, (h c _ (mem_uc main_arg0 (by decide))).trans <| (Wn_keep m ρ c main_arg0 13 16 (by omega) (by decide) (by omega)).trans <|
        (W13_arg0 m ρ c).trans (Wn_keep m ρ c main_arg0 0 12 (by omega) (by decide) (by omega)),
      k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide)⟩)
    (run_all m ρ)

/-- The frame: every argument array ends as launched. -/
theorem frame_gen : θ_run defs (onTc (τ := τ) (main (F := F))) ⟨m, fun _ => 0, ρ⟩ (fun r => ∀ c : Dev nD, ArgsKept m r.2.mem c) :=
  (θ_run defs _ _).mono (fun _ h c => (h c).2) (run_args m ρ)

end Cert.KernelIdeal.Hand

end
-- ==== Proof.Frames.lean ====
import proofs.«131213_j77824807403876_2_alg».proof.Defs
import proofs.«131213_j77824807403876_2_alg».proof.Proof.Gen.KernelIdeal
import proofs.«131213_j77824807403876_2_alg».proof.Proof.KI.Kept

noncomputable section

namespace Cert.Proof.Frames

open Idealize.ShloMosaic Idealize.ShloMosaic.TcCoe Idealize.SL.Sem

open Lean Elab Term in
/-- `by_defeq e` is `e` at the expected type; that the two types agree is left to the final check of the declaration. -/
elab "by_defeq " e:term : term <= ty => do
  Meta.mkExpectedTypeHint (← elabTermAndSynthesize e none) ty

theorem frame_ki [Cert.KernelIdeal.Facts] [Cert.Pre_finite_inputs.Facts] : Cert.frame_KernelIdeal :=
  fun m ρ _ => Cert.KernelIdeal.Hand.frame_gen (F := Ideal) m ρ

set_option smartUnfolding false in
/-- The kernel program and its idealization are one text, so the frame proved of that text for every float model is the kernel program's too. -/
theorem frame_k [Cert.Kernel.Facts] [Cert.Pre_finite_inputs.Facts] : Cert.frame_Kernel :=
  haveI : Cert.KernelIdeal.Facts := Cert.KernelIdeal.Gen.facts
  fun m ρ _ => by_defeq (Cert.KernelIdeal.Hand.frame_gen (F := Bits) m ρ)

end Cert.Proof.Frames

end
-- ==== Proof.RefFrame.lean ====
import proofs.«131213_j77824807403876_2_alg».proof.Defs
import proofs.«131213_j77824807403876_2_alg».proof.Proof.RefRunP
import proofs.«131213_j77824807403876_2_alg».proof.Proof.RefReadP
import proofs.«131213_j77824807403876_2_alg».proof.Proof.LibSteps

noncomputable section

open Idealize.ShloMosaic Idealize.ShloMosaic.TcCoe Idealize.SL.Sem

namespace Cert.Proof.RefSide

open Cert.ReferenceIdeal Cert.ReferenceIdeal.Gen Idealize.ShloMosaic.StableHlo
open Cert.ReferenceIdeal.ValueP Cert.ReferenceIdeal.ReadP

variable {F : FTy → Type} [FloatOps F]

theorem ref_run (m : (ℓ : Loc nD τ sig) → Buf (Elt F) ℓ) (ρ : Dev nD → PrngReg) :
    θ_run Cert.ReferenceIdeal.defs (onTc (τ := Cert.ReferenceIdeal.τ) (Cert.ReferenceIdeal.main (F := F))) ⟨m, fun _ => 0, ρ⟩ fun r =>
      ∀ (d : Dev Cert.ReferenceIdeal.nD) (b : Ref Cert.ReferenceIdeal.sig .tc),
        r.2.mem ((d.tc : Thread _ _).loc b) = StableHlo.after ValueP.ops (StableHlo.launchContents m d) (Proc.devRef .tc b) :=
  StableHlo.run_seq scopedRefs_eq scopedSems_eq defs main (fun _ => ops) main_eq (fun _ => ops_sub) m ρ

def cLogits : List (HloOp τ sig (Elt F)) := ops.take 12

def cCanCopy : List (HloOp τ sig (Elt F)) := (ops.drop 12).take 29

def cGate : List (HloOp τ sig (Elt F)) := (ops.drop 41).take 18

def cAttn : List (HloOp τ sig (Elt F)) := (ops.drop 59).take 14

def cIdx : List (HloOp τ sig (Elt F)) := (ops.drop 73).take 21

def cPtr : List (HloOp τ sig (Elt F)) := (ops.drop 94).take 13

def cOut : List (HloOp τ sig (Elt F)) := ops.drop 107

theorem ops_eq : (ops : List (HloOp τ sig (Elt F))) = cLogits ++ (cCanCopy ++ (cGate ++ (cAttn ++ (cIdx ++ (cPtr ++ (cOut)))))) := rfl

theorem after_cat (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

abbrev cLogits_W : List (Ref sig .tc) := [main_v0, main_v1, main_v2, main_v3, main_v4, main_v5, main_v6, main_v7, main_v8, main_v9, main_v10, main_v11]

theorem cLogits_writes : (cLogits (F := F)).Forall fun op => op.writes ⊆ (cLogits_W.map (Proc.devRef (τ := τ) .tc)).toFinset := by
  simp only [cLogits, ops, List.take_succ_cons, List.take_zero, List.drop_succ_cons, List.drop_zero, List.Forall]
  repeat' apply And.intro
  all_goals
    simp only [nullary_writes, unary_writes, binary_writes, ternary_writes, Finset.singleton_subset_iff, List.mem_toFinset]
    exact List.mem_map_of_mem (by decide)

theorem cLogits_keep (W : Valuation τ sig (Elt F)) (r : Ref sig .tc) (h : r ∉ cLogits_W) :
    after cLogits W (Proc.devRef .tc r) = W (Proc.devRef .tc r) :=
  after_of_writes_sub cLogits W cLogits_writes h

abbrev cCanCopy_W : List (Ref sig .tc) := [main_cst, main_v12, main_c, main_v13, main_v14, main_c_0, main_v15, main_v16, main_v17, main_v18, main_cst_1, main_v19, main_v20, main_c_2, main_v21, main_cst_3, main_v22, main_v23, main_v24, main_v25, main_cst_4, main_v26, main_cst_5, main_v27, main_v28, main_c_6, main_v29, main_v30, main_v31]

theorem cCanCopy_writes : (cCanCopy (F := F)).Forall fun op => op.writes ⊆ (cCanCopy_W.map (Proc.devRef (τ := τ) .tc)).toFinset := by
  simp only [cCanCopy, ops, List.take_succ_cons, List.take_zero, List.drop_succ_cons, List.drop_zero, List.Forall]
  repeat' apply And.intro
  all_goals
    simp only [nullary_writes, unary_writes, binary_writes, ternary_writes, Finset.singleton_subset_iff, List.mem_toFinset]
    exact List.mem_map_of_mem (by decide)

theorem cCanCopy_keep (W : Valuation τ sig (Elt F)) (r : Ref sig .tc) (h : r ∉ cCanCopy_W) :
    after cCanCopy W (Proc.devRef .tc r) = W (Proc.devRef .tc r) :=
  after_of_writes_sub cCanCopy W cCanCopy_writes h

abbrev cGate_W : List (Ref sig .tc) := [main_v32, main_v33, main_v34, main_v35, main_cst_7, main_v36, main_cst_8, main_v37, main_v38, main_v39, main_v40, main_v41, main_v42, main_cst_9, main_v43, main_v44, main_v45, main_v46]

theorem cGate_writes : (cGate (F := F)).Forall fun op => op.writes ⊆ (cGate_W.map (Proc.devRef (τ := τ) .tc)).toFinset := by
  simp only [cGate, ops, List.take_succ_cons, List.take_zero, List.drop_succ_cons, List.drop_zero, List.Forall]
  repeat' apply And.intro
  all_goals
    simp only [nullary_writes, unary_writes, binary_writes, ternary_writes, Finset.singleton_subset_iff, List.mem_toFinset]
    exact List.mem_map_of_mem (by decide)

theorem cGate_keep (W : Valuation τ sig (Elt F)) (r : Ref sig .tc) (h : r ∉ cGate_W) :
    after cGate W (Proc.devRef .tc r) = W (Proc.devRef .tc r) :=
  after_of_writes_sub cGate W cGate_writes h

abbrev cAttn_W : List (Ref sig .tc) := [main_cst_10, main_v47, main_cst_11, main_v48, main_v49, main_v50, main_v51, main_v52, main_v53, main_cst_12, main_v54, main_v55, main_v56, main_v57]

theorem cAttn_writes : (cAttn (F := F)).Forall fun op => op.writes ⊆ (cAttn_W.map (Proc.devRef (τ := τ) .tc)).toFinset := by
  simp only [cAttn, ops, List.take_succ_cons, List.take_zero, List.drop_succ_cons, List.drop_zero, List.Forall]
  repeat' apply And.intro
  all_goals
    simp only [nullary_writes, unary_writes, binary_writes, ternary_writes, Finset.singleton_subset_iff, List.mem_toFinset]
    exact List.mem_map_of_mem (by decide)

theorem cAttn_keep (W : Valuation τ sig (Elt F)) (r : Ref sig .tc) (h : r ∉ cAttn_W) :
    after cAttn W (Proc.devRef .tc r) = W (Proc.devRef .tc r) :=
  after_of_writes_sub cAttn W cAttn_writes h

abbrev cIdx_W : List (Ref sig .tc) := [main_v58, main_v59, main_cst_13, main_v60, main_c_14, main_v61, main_v62, main_c_15, main_v63, main_v64, main_v65, main_c_16, main_v66, main_v67, main_c_17, main_v68, main_v69, main_v70, main_v71, main_v72, main_v73]

theorem cIdx_writes : (cIdx (F := F)).Forall fun op => op.writes ⊆ (cIdx_W.map (Proc.devRef (τ := τ) .tc)).toFinset := by
  simp only [cIdx, ops, List.take_succ_cons, List.take_zero, List.drop_succ_cons, List.drop_zero, List.Forall]
  repeat' apply And.intro
  all_goals
    simp only [nullary_writes, unary_writes, binary_writes, ternary_writes, Finset.singleton_subset_iff, List.mem_toFinset]
    exact List.mem_map_of_mem (by decide)

theorem cIdx_keep (W : Valuation τ sig (Elt F)) (r : Ref sig .tc) (h : r ∉ cIdx_W) :
    after cIdx W (Proc.devRef .tc r) = W (Proc.devRef .tc r) :=
  after_of_writes_sub cIdx W cIdx_writes h

abbrev cPtr_W : List (Ref sig .tc) := [main_v74, main_v75, main_cst_18, main_v76, main_c_19, main_v77, main_v78, main_c_20, main_v79, main_v80, main_v81, main_v82, main_v83]

theorem cPtr_writes : (cPtr (F := F)).Forall fun op => op.writes ⊆ (cPtr_W.map (Proc.devRef (τ := τ) .tc)).toFinset := by
  simp only [cPtr, ops, List.take_succ_cons, List.take_zero, List.drop_succ_cons, List.drop_zero, List.Forall]
  repeat' apply And.intro
  all_goals
    simp only [nullary_writes, unary_writes, binary_writes, ternary_writes, Finset.singleton_subset_iff, List.mem_toFinset]
    exact List.mem_map_of_mem (by decide)

theorem cPtr_keep (W : Valuation τ sig (Elt F)) (r : Ref sig .tc) (h : r ∉ cPtr_W) :
    after cPtr W (Proc.devRef .tc r) = W (Proc.devRef .tc r) :=
  after_of_writes_sub cPtr W cPtr_writes h

abbrev cOut_W : List (Ref sig .tc) := [main_cst_21, main_v84, main_cst_22, main_v85, main_v86, main_v87, main_v88, main_v89, main_v90, main_cst_23, main_v91, main_v92, main_v93, main_v94, main_v95, main_v96, main_v97, main_v98, main_v99, main_v100, main_v101, main_v102]

theorem cOut_writes : (cOut (F := F)).Forall fun op => op.writes ⊆ (cOut_W.map (Proc.devRef (τ := τ) .tc)).toFinset := by
  simp only [cOut, ops, List.take_succ_cons, List.take_zero, List.drop_succ_cons, List.drop_zero, List.Forall]
  repeat' apply And.intro
  all_goals
    simp only [nullary_writes, unary_writes, binary_writes, ternary_writes, Finset.singleton_subset_iff, List.mem_toFinset]
    exact List.mem_map_of_mem (by decide)

theorem cOut_keep (W : Valuation τ sig (Elt F)) (r : Ref sig .tc) (h : r ∉ cOut_W) :
    after cOut W (Proc.devRef .tc r) = W (Proc.devRef .tc r) :=
  after_of_writes_sub cOut W cOut_writes h

theorem cLogits_v6 (W : Valuation τ sig (Elt F)) (x0 : (⟨S128x1024, .f32⟩ : BufTy).Contents (Elt F)) (x3 : (⟨S128x50000, .f32⟩ : BufTy).Contents (Elt F)) (x4 : (⟨S50000x1024, .f32⟩ : BufTy).Contents (Elt F)) (x5 : (⟨S50000, .f32⟩ : BufTy).Contents (Elt F))
    (h0 : W (Proc.devRef .tc main_arg0) = x0) (h3 : W (Proc.devRef .tc main_arg3) = x3) (h4 : W (Proc.devRef .tc main_arg4) = x4) (h5 : W (Proc.devRef .tc main_arg5) = x5) :
    after cLogits W (Proc.devRef .tc main_v6) = val_main_v6 (F := F) x0 x3 x4 x5 := by
  simp only [cLogits, ops, List.take_succ_cons, List.take_zero, List.drop_succ_cons, List.drop_zero]
  after_results_simp
  subst h0 h3 h4 h5
  rfl

theorem cLogits_v11 (W : Valuation τ sig (Elt F)) (x0 : (⟨S128x1024, .f32⟩ : BufTy).Contents (Elt F)) (x6 : (⟨S2x1024, .f32⟩ : BufTy).Contents (Elt F)) (x7 : (⟨S2, .f32⟩ : BufTy).Contents (Elt F))
    (h0 : W (Proc.devRef .tc main_arg0) = x0) (h6 : W (Proc.devRef .tc main_arg6) = x6) (h7 : W (Proc.devRef .tc main_arg7) = x7) :
    after cLogits W (Proc.devRef .tc main_v11) = val_main_v11 (F := F) x0 x6 x7 := by
  simp only [cLogits, ops, List.take_succ_cons, List.take_zero, List.drop_succ_cons, List.drop_zero]
  after_results_simp
  subst h0 h6 h7
  rfl

theorem cCanCopy_v30 (W : Valuation τ sig (Elt F)) :
    after cCanCopy W (Proc.devRef .tc main_v30) = val_main_v30 (F := F) := by
  simp only [cCanCopy, ops, List.take_succ_cons, List.take_zero, List.drop_succ_cons, List.drop_zero]
  after_results_simp
  rfl

theorem cCanCopy_v31 (W : Valuation τ sig (Elt F)) (x3 : (⟨S128x50000, .f32⟩ : BufTy).Contents (Elt F)) (x8 : (⟨S32000, .i32⟩ : BufTy).Contents (Elt F))
    (h3 : W (Proc.devRef .tc main_arg3) = x3) (h8 : W (Proc.devRef .tc main_arg8) = x8) :
    after cCanCopy W (Proc.devRef .tc main_v31) = val_main_v31 (F := F) x3 x8 := by
  simp only [cCanCopy, ops, List.take_succ_cons, List.take_zero, List.drop_succ_cons, List.drop_zero]
  after_results_simp
  subst h3 h8
  rfl

theorem cGate_v46 (W : Valuation τ sig (Elt F)) (x0 : (⟨S128x1024, .f32⟩ : BufTy).Contents (Elt F)) (x3 : (⟨S128x50000, .f32⟩ : BufTy).Contents (Elt F)) (x6 : (⟨S2x1024, .f32⟩ : BufTy).Contents (Elt F)) (x7 : (⟨S2, .f32⟩ : BufTy).Contents (Elt F)) (x8 : (⟨S32000, .i32⟩ : BufTy).Contents (Elt F))
    (hv30 : W (Proc.devRef .tc main_v30) = val_main_v30 (F := F)) (hv31 : W (Proc.devRef .tc main_v31) = val_main_v31 (F := F) x3 x8) (hv11 : W (Proc.devRef .tc main_v11) = val_main_v11 (F := F) x0 x6 x7) :
    after cGate W (Proc.devRef .tc main_v46) = val_main_v46 (F := F) x0 x3 x6 x7 x8 := by
  simp only [cGate, ops, List.take_succ_cons, List.take_zero, List.drop_succ_cons, List.drop_zero]
  after_results_simp
  rw [hv30, hv31, hv11]
  rfl

theorem cAttn_v57 (W : Valuation τ sig (Elt F)) (x2 : (⟨S128x512, .f32⟩ : BufTy).Contents (Elt F))
    (h2 : W (Proc.devRef .tc main_arg2) = x2) :
    after cAttn W (Proc.devRef .tc main_v57) = val_main_v57 (F := F) x2 := by
  simp only [cAttn, ops, List.take_succ_cons, List.take_zero, List.drop_succ_cons, List.drop_zero]
  after_results_simp
  subst h2
  rfl

theorem cIdx_v60 (W : Valuation τ sig (Elt F)) :
    after cIdx W (Proc.devRef .tc main_v60) = val_main_v60 (F := F) := by
  simp only [cIdx, ops, List.take_succ_cons, List.take_zero, List.drop_succ_cons, List.drop_zero]
  after_results_simp
  rfl

theorem cIdx_v72 (W : Valuation τ sig (Elt F)) :
    after cIdx W (Proc.devRef .tc main_v72) = val_main_v72 (F := F) := by
  simp only [cIdx, ops, List.take_succ_cons, List.take_zero, List.drop_succ_cons, List.drop_zero]
  after_results_simp
  rfl

theorem cIdx_v73 (W : Valuation τ sig (Elt F)) (x1 : (⟨S128x512, .i32⟩ : BufTy).Contents (Elt F))
    (h1 : W (Proc.devRef .tc main_arg1) = x1) :
    after cIdx W (Proc.devRef .tc main_v73) = val_main_v73 (F := F) x1 := by
  simp only [cIdx, ops, List.take_succ_cons, List.take_zero, List.drop_succ_cons, List.drop_zero]
  after_results_simp
  subst h1
  rfl

theorem cPtr_v83 (W : Valuation τ sig (Elt F)) (x1 : (⟨S128x512, .i32⟩ : BufTy).Contents (Elt F)) (x2 : (⟨S128x512, .f32⟩ : BufTy).Contents (Elt F)) (x8 : (⟨S32000, .i32⟩ : BufTy).Contents (Elt F))
    (h8 : W (Proc.devRef .tc main_arg8) = x8) (hv72 : W (Proc.devRef .tc main_v72) = val_main_v72 (F := F)) (hv73 : W (Proc.devRef .tc main_v73) = val_main_v73 (F := F) x1) (hv60 : W (Proc.devRef .tc main_v60) = val_main_v60 (F := F)) (hv57 : W (Proc.devRef .tc main_v57) = val_main_v57 (F := F) x2) :
    after cPtr W (Proc.devRef .tc main_v83) = val_main_v83 (F := F) x1 x2 x8 := by
  simp only [cPtr, ops, List.take_succ_cons, List.take_zero, List.drop_succ_cons, List.drop_zero]
  after_results_simp
  rw [hv72, hv73, hv60, hv57]
  subst h8
  rfl

theorem cOut_v94 (W : Valuation τ sig (Elt F)) (x0 : (⟨S128x1024, .f32⟩ : BufTy).Contents (Elt F)) (x3 : (⟨S128x50000, .f32⟩ : BufTy).Contents (Elt F)) (x4 : (⟨S50000x1024, .f32⟩ : BufTy).Contents (Elt F)) (x5 : (⟨S50000, .f32⟩ : BufTy).Contents (Elt F))
    (hv6 : W (Proc.devRef .tc main_v6) = val_main_v6 (F := F) x0 x3 x4 x5) :
    after cOut W (Proc.devRef .tc main_v94) = val_main_v94 (F := F) x0 x3 x4 x5 := by
  simp only [cOut, ops, List.take_succ_cons, List.take_zero, List.drop_succ_cons, List.drop_zero]
  after_results_simp
  rw [hv6]
  rfl

theorem cOut_v102 (W : Valuation τ sig (Elt F)) (x0 : (⟨S128x1024, .f32⟩ : BufTy).Contents (Elt F)) (x1 : (⟨S128x512, .i32⟩ : BufTy).Contents (Elt F)) (x2 : (⟨S128x512, .f32⟩ : BufTy).Contents (Elt F)) (x3 : (⟨S128x50000, .f32⟩ : BufTy).Contents (Elt F)) (x4 : (⟨S50000x1024, .f32⟩ : BufTy).Contents (Elt F)) (x5 : (⟨S50000, .f32⟩ : BufTy).Contents (Elt F)) (x6 : (⟨S2x1024, .f32⟩ : BufTy).Contents (Elt F)) (x7 : (⟨S2, .f32⟩ : BufTy).Contents (Elt F)) (x8 : (⟨S32000, .i32⟩ : BufTy).Contents (Elt F))
    (hv6 : W (Proc.devRef .tc main_v6) = val_main_v6 (F := F) x0 x3 x4 x5) (hv46 : W (Proc.devRef .tc main_v46) = val_main_v46 (F := F) x0 x3 x6 x7 x8) (hv83 : W (Proc.devRef .tc main_v83) = val_main_v83 (F := F) x1 x2 x8) :
    after cOut W (Proc.devRef .tc main_v102) = val_main_v102 (F := F) x0 x1 x2 x3 x4 x5 x6 x7 x8 := by
  simp only [cOut, ops, List.take_succ_cons, List.take_zero, List.drop_succ_cons, List.drop_zero]
  after_results_simp
  rw [hv6, hv46, hv83]
  rfl

abbrev pastLogits (V : Valuation τ sig (Elt F)) : Valuation τ sig (Elt F) := after cLogits V

abbrev pastCanCopy (V : Valuation τ sig (Elt F)) : Valuation τ sig (Elt F) := after cCanCopy (pastLogits V)

abbrev pastGate (V : Valuation τ sig (Elt F)) : Valuation τ sig (Elt F) := after cGate (pastCanCopy V)

abbrev pastAttn (V : Valuation τ sig (Elt F)) : Valuation τ sig (Elt F) := after cAttn (pastGate V)

abbrev pastIdx (V : Valuation τ sig (Elt F)) : Valuation τ sig (Elt F) := after cIdx (pastAttn V)

abbrev pastPtr (V : Valuation τ sig (Elt F)) : Valuation τ sig (Elt F) := after cPtr (pastIdx V)

abbrev pastOut (V : Valuation τ sig (Elt F)) : Valuation τ sig (Elt F) := after cOut (pastPtr V)

theorem after_ops (V : Valuation τ sig (Elt F)) : after ops V = pastOut V := by
  rw [ops_eq]; simp only [after_cat]

/-- The contents after none, one, …, all seven groups of the reference's operations. -/
abbrev pasts (V : Valuation τ sig (Elt F)) : List (Valuation τ sig (Elt F)) :=
  [V, pastLogits V, pastCanCopy V, pastGate V, pastAttn V, pastIdx V, pastPtr V, pastOut V]
/-- The references each group writes. -/
abbrev chunkWs : List (List (Ref sig .tc)) := [cLogits_W, cCanCopy_W, cGate_W, cAttn_W, cIdx_W, cPtr_W, cOut_W]

def past (V : Valuation τ sig (Elt F)) (n : ℕ) : Valuation τ sig (Elt F) := (pasts V).getD n (pastOut V)
def chunkW (n : ℕ) : List (Ref sig .tc) := chunkWs.getD n []

theorem past_steps (V : Valuation τ sig (Elt F)) :
    Cert.Lib.Steps (fun (W : Valuation τ sig (Elt F)) (r : Ref sig .tc) => W (Proc.devRef .tc r)) (pasts V) chunkWs :=
  And.intro (cLogits_keep V) <| And.intro (cCanCopy_keep (pastLogits V)) <| And.intro (cGate_keep (pastCanCopy V)) <|
    And.intro (cAttn_keep (pastGate V)) <| And.intro (cIdx_keep (pastAttn V)) <| And.intro (cPtr_keep (pastIdx V)) <|
    And.intro (cOut_keep (pastPtr V)) trivial

/-- A reference that no group from the `i`-th up to the `j`-th writes holds after `j` groups what it held after `i`. -/
theorem past_keep (V : Valuation τ sig (Elt F)) (r : Ref sig .tc) (i j : ℕ) (hj : j ≤ 7) (h : ∀ n < j, i ≤ n → r ∉ chunkW n) (hij : i ≤ j) :
    past V j (Proc.devRef .tc r) = past V i (Proc.devRef .tc r) :=
  Cert.Lib.Steps.keep _ (pastOut V) r _ _ (past_steps V) i j hij hj h

theorem pastLogits_v6 (V : Valuation τ sig (Elt F)) :
    pastLogits V (Proc.devRef .tc main_v6) = val_main_v6 (F := F) (V (Proc.devRef .tc main_arg0)) (V (Proc.devRef .tc main_arg3)) (V (Proc.devRef .tc main_arg4)) (V (Proc.devRef .tc main_arg5)) :=
  cLogits_v6 V _ _ _ _ rfl rfl rfl rfl
theorem pastLogits_v11 (V : Valuation τ sig (Elt F)) :
    pastLogits V (Proc.devRef .tc main_v11) = val_main_v11 (F := F) (V (Proc.devRef .tc main_arg0)) (V (Proc.devRef .tc main_arg6)) (V (Proc.devRef .tc main_arg7)) :=
  cLogits_v11 V _ _ _ rfl rfl rfl

theorem pastGate_v46 (V : Valuation τ sig (Elt F)) :
    pastGate V (Proc.devRef .tc main_v46) = val_main_v46 (F := F) (V (Proc.devRef .tc main_arg0)) (V (Proc.devRef .tc main_arg3)) (V (Proc.devRef .tc main_arg6)) (V (Proc.devRef .tc main_arg7)) (V (Proc.devRef .tc main_arg8)) :=
  cGate_v46 (pastCanCopy V) _ _ _ _ _ (cCanCopy_v30 (pastLogits V))
    (cCanCopy_v31 (pastLogits V) _ _ (past_keep V main_arg3 0 1 (by omega) (by decide) (by omega)) (past_keep V main_arg8 0 1 (by omega) (by decide) (by omega)))
    ((past_keep V main_v11 1 2 (by omega) (by decide) (by omega)).trans (pastLogits_v11 V))

theorem pastAttn_v57 (V : Valuation τ sig (Elt F)) :
    pastAttn V (Proc.devRef .tc main_v57) = val_main_v57 (F := F) (V (Proc.devRef .tc main_arg2)) :=
  cAttn_v57 (pastGate V) _ (past_keep V main_arg2 0 3 (by omega) (by decide) (by omega))

theorem pastPtr_v83 (V : Valuation τ sig (Elt F)) :
    pastPtr V (Proc.devRef .tc main_v83) = val_main_v83 (F := F) (V (Proc.devRef .tc main_arg1)) (V (Proc.devRef .tc main_arg2)) (V (Proc.devRef .tc main_arg8)) :=
  cPtr_v83 (pastIdx V) _ _ _ (past_keep V main_arg8 0 5 (by omega) (by decide) (by omega)) (cIdx_v72 (pastAttn V)) (cIdx_v73 (pastAttn V) _ (past_keep V main_arg1 0 4 (by omega) (by decide) (by omega)))
    (cIdx_v60 (pastAttn V)) ((past_keep V main_v57 4 5 (by omega) (by decide) (by omega)).trans (pastAttn_v57 V))

theorem pastPtr_v6 (V : Valuation τ sig (Elt F)) :
    pastPtr V (Proc.devRef .tc main_v6) = val_main_v6 (F := F) (V (Proc.devRef .tc main_arg0)) (V (Proc.devRef .tc main_arg3)) (V (Proc.devRef .tc main_arg4)) (V (Proc.devRef .tc main_arg5)) :=
  (past_keep V main_v6 1 6 (by omega) (by decide) (by omega)).trans (pastLogits_v6 V)

theorem pastOut_v46 (V : Valuation τ sig (Elt F)) :
    pastOut V (Proc.devRef .tc main_v46) = val_main_v46 (F := F) (V (Proc.devRef .tc main_arg0)) (V (Proc.devRef .tc main_arg3)) (V (Proc.devRef .tc main_arg6)) (V (Proc.devRef .tc main_arg7)) (V (Proc.devRef .tc main_arg8)) :=
  (past_keep V main_v46 3 7 (by omega) (by decide) (by omega)).trans (pastGate_v46 V)
theorem pastOut_v57 (V : Valuation τ sig (Elt F)) :
    pastOut V (Proc.devRef .tc main_v57) = val_main_v57 (F := F) (V (Proc.devRef .tc main_arg2)) :=
  (past_keep V main_v57 4 7 (by omega) (by decide) (by omega)).trans (pastAttn_v57 V)
theorem pastOut_v94 (V : Valuation τ sig (Elt F)) :
    pastOut V (Proc.devRef .tc main_v94) = val_main_v94 (F := F) (V (Proc.devRef .tc main_arg0)) (V (Proc.devRef .tc main_arg3)) (V (Proc.devRef .tc main_arg4)) (V (Proc.devRef .tc main_arg5)) :=
  cOut_v94 (pastPtr V) _ _ _ _ (pastPtr_v6 V)
theorem pastOut_v102 (V : Valuation τ sig (Elt F)) :
    pastOut V (Proc.devRef .tc main_v102) = val_main_v102 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  cOut_v102 (pastPtr V) _ _ _ _ _ _ _ _ _ (pastPtr_v6 V) ((past_keep V main_v46 3 6 (by omega) (by decide) (by omega)).trans (pastGate_v46 V)) (pastPtr_v83 V)

theorem res0 (m : (ℓ : Loc nD τ sig) → Buf (Elt F) ℓ) (c : Dev nD) :
    StableHlo.after ValueP.ops (StableHlo.launchContents m c) (Proc.devRef .tc main_v102)
      = ReadP.val_main_v102 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [after_ops]; exact pastOut_v102 (StableHlo.launchContents m c)

theorem res1 (m : (ℓ : Loc nD τ sig) → Buf (Elt F) ℓ) (c : Dev nD) :
    StableHlo.after ValueP.ops (StableHlo.launchContents m c) (Proc.devRef .tc main_v46)
      = ReadP.val_main_v46 (F := F) (m ((c.tc : Thread nD τ).loc main_arg0)) (m ((c.tc : Thread nD τ).loc main_arg3)) (m ((c.tc : Thread nD τ).loc main_arg6)) (m ((c.tc : Thread nD τ).loc main_arg7)) (m ((c.tc : Thread nD τ).loc main_arg8)) := by
  rw [after_ops]; exact pastOut_v46 (StableHlo.launchContents m c)

theorem res2 (m : (ℓ : Loc nD τ sig) → Buf (Elt F) ℓ) (c : Dev nD) :
    StableHlo.after ValueP.ops (StableHlo.launchContents m c) (Proc.devRef .tc main_v94)
      = ReadP.val_main_v94 (F := F) (m ((c.tc : Thread nD τ).loc main_arg0)) (m ((c.tc : Thread nD τ).loc main_arg3)) (m ((c.tc : Thread nD τ).loc main_arg4)) (m ((c.tc : Thread nD τ).loc main_arg5)) := by
  rw [after_ops]; exact pastOut_v94 (StableHlo.launchContents m c)

theorem res3 (m : (ℓ : Loc nD τ sig) → Buf (Elt F) ℓ) (c : Dev nD) :
    StableHlo.after ValueP.ops (StableHlo.launchContents m c) (Proc.devRef .tc main_v57)
      = ReadP.val_main_v57 (F := F) (m ((c.tc : Thread nD τ).loc main_arg2)) := by
  rw [after_ops]; exact pastOut_v57 (StableHlo.launchContents m c)

theorem end_arg (m : (ℓ : Loc nD τ sig) → Buf (Elt F) ℓ) (c : Dev nD) (r : Ref sig .tc) (h : ∀ n < 7, 0 ≤ n → r ∉ chunkW n) :
    StableHlo.after ValueP.ops (StableHlo.launchContents m c) (Proc.devRef .tc r) = m ((c.tc : Thread nD τ).loc r) := by
  rw [after_ops]; exact past_keep (StableHlo.launchContents m c) r 0 7 (by omega) h (by omega)

theorem ref_results (m : (ℓ : Loc nD τ sig) → Buf (Elt F) ℓ) (ρ : Dev nD → PrngReg) :
    θ_run Cert.ReferenceIdeal.defs (onTc (τ := Cert.ReferenceIdeal.τ) (Cert.ReferenceIdeal.main (F := F))) ⟨m, fun _ => 0, ρ⟩ fun r =>
      ∀ c : Dev Cert.ReferenceIdeal.nD,
        r.2.mem ((c.tc : Thread nD τ).loc main_v102) = ReadP.val_main_v102 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        ∧ r.2.mem ((c.tc : Thread nD τ).loc main_v46) = ReadP.val_main_v46 (F := F) (m ((c.tc : Thread nD τ).loc main_arg0)) (m ((c.tc : Thread nD τ).loc main_arg3)) (m ((c.tc : Thread nD τ).loc main_arg6)) (m ((c.tc : Thread nD τ).loc main_arg7)) (m ((c.tc : Thread nD τ).loc main_arg8))
        ∧ r.2.mem ((c.tc : Thread nD τ).loc main_v94) = ReadP.val_main_v94 (F := F) (m ((c.tc : Thread nD τ).loc main_arg0)) (m ((c.tc : Thread nD τ).loc main_arg3)) (m ((c.tc : Thread nD τ).loc main_arg4)) (m ((c.tc : Thread nD τ).loc main_arg5))
        ∧ r.2.mem ((c.tc : Thread nD τ).loc main_v57) = ReadP.val_main_v57 (F := F) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8) :=
  (θ_run Cert.ReferenceIdeal.defs _ _).mono
    (fun _ h c => ⟨(h c main_v102).trans (res0 m c), (h c main_v46).trans (res1 m c), (h c main_v94).trans (res2 m c), (h c main_v57).trans (res3 m c),
      (h c main_arg0).trans (end_arg m c _ (by decide)), (h c main_arg1).trans (end_arg m c _ (by decide)), (h c main_arg2).trans (end_arg m c _ (by decide)), (h c main_arg3).trans (end_arg m c _ (by decide)), (h c main_arg4).trans (end_arg m c _ (by decide)), (h c main_arg5).trans (end_arg m c _ (by decide)), (h c main_arg6).trans (end_arg m c _ (by decide)), (h c main_arg7).trans (end_arg m c _ (by decide)), (h c main_arg8).trans (end_arg m c _ (by decide))⟩)
    (ref_run m ρ)

theorem frame_ri [Cert.ReferenceIdeal.Facts] [Cert.Pre_finite_inputs.Facts] : Cert.frame_ReferenceIdeal :=
  fun m g _ => (θ_run (Cert.ReferenceIdeal.defs (F := Ideal)) _ _).mono (fun _ h c => (h c).2.2.2.2) (ref_results (F := Ideal) m g)

end Cert.Proof.RefSide

end
-- ==== Proof.Spec.Softmax.lean ====
import Idealize.ShloMosaic.PureOps.Ideal

noncomputable section

namespace Cert.Spec.Softmax

open Idealize.ShloMosaic

variable {ι : Type} [DecidableEq ι]

def mx (x : ι → EReal) (S : Finset ι) : EReal := S.sup x

def sm (x : ι → EReal) (S : Finset ι) (m : EReal) : EReal := ∑ v ∈ S, Ideal.exp (x v - m)

@[simp] theorem mx_empty (x : ι → EReal) : mx x ∅ = ⊥ := Finset.sup_empty
@[simp] theorem sm_empty (x : ι → EReal) (m : EReal) : sm x ∅ m = 0 := Finset.sum_empty

theorem exp_nonneg (y : EReal) : 0 ≤ Ideal.exp y := by
  induction y using EReal.rec with
  | bot => simp
  | coe r => rw [Ideal.exp_coe]; exact EReal.coe_nonneg.mpr (Real.exp_pos r).le
  | top => simp

theorem exp_bot_sub (m : EReal) : Ideal.exp (⊥ - m) = 0 := by
  rw [EReal.bot_sub, Ideal.exp_bot]

theorem exp_sub_mul (a m m' : EReal) (ha : a ≤ m) (hm : m ≤ m') (hm' : m' ≠ ⊤) :
    Ideal.exp (a - m) * Ideal.exp (m - m') = Ideal.exp (a - m') := by
  induction a using EReal.rec with
  | bot => rw [exp_bot_sub, exp_bot_sub, zero_mul]
  | top =>
    have h1 : m = ⊤ := top_le_iff.mp ha
    have h2 : m' = ⊤ := top_le_iff.mp (h1 ▸ hm)
    exact absurd h2 hm'
  | coe a =>
    induction m using EReal.rec with
    | bot => exact absurd ha (not_le.mpr (EReal.bot_lt_coe a))
    | top => exact absurd (top_le_iff.mp hm) hm'
    | coe m =>
      induction m' using EReal.rec with
      | bot => exact absurd hm (not_le.mpr (EReal.bot_lt_coe m))
      | top => exact absurd rfl hm'
      | coe m' =>
        rw [← EReal.coe_sub, ← EReal.coe_sub, ← EReal.coe_sub, Ideal.exp_coe, Ideal.exp_coe, Ideal.exp_coe,
          ← EReal.coe_mul, ← Real.exp_add]
        congr 2
        ring

theorem sum_mul_of_nonneg (f : ι → EReal) (S : Finset ι) (c : EReal) (hf : ∀ v, 0 ≤ f v) :
    (∑ v ∈ S, f v) * c = ∑ v ∈ S, f v * c := by
  induction S using Finset.induction_on with
  | empty => simp
  | insert a s ha ih =>
    rw [Finset.sum_insert ha, Finset.sum_insert ha,
      EReal.right_distrib_of_nonneg (hf a) (Finset.sum_nonneg fun v _ => hf v), ih]

theorem mx_ne_top (x : ι → EReal) (S : Finset ι) (hx : ∀ v ∈ S, x v ≠ ⊤) : mx x S ≠ ⊤ := by
  have h : mx x S < ⊤ := (Finset.sup_lt_iff bot_lt_top).mpr fun v hv => lt_top_iff_ne_top.mpr (hx v hv)
  exact h.ne

theorem le_mx (x : ι → EReal) (S : Finset ι) : ∀ v ∈ S, x v ≤ mx x S := fun _ hv => Finset.le_sup hv

theorem mx_union (x : ι → EReal) (S T : Finset ι) : mx x (S ∪ T) = max (mx x S) (mx x T) := by
  unfold mx
  exact Finset.sup_union

theorem sm_rescale (x : ι → EReal) (S : Finset ι) (m m' : EReal) (hx : ∀ v ∈ S, x v ≤ m) (hm : m ≤ m') (hm' : m' ≠ ⊤) :
    sm x S m * Ideal.exp (m - m') = sm x S m' := by
  unfold sm
  rw [sum_mul_of_nonneg (fun v => Ideal.exp (x v - m)) S _ fun v => exp_nonneg _]
  exact Finset.sum_congr rfl fun v hv => exp_sub_mul (x v) m m' (hx v hv) hm hm'

theorem sm_union (x : ι → EReal) (S T : Finset ι) (hd : Disjoint S T) (m : EReal) :
    sm x (S ∪ T) m = sm x S m + sm x T m := Finset.sum_union hd

theorem max_mx_ne_top (x : ι → EReal) (S T : Finset ι) (hx : ∀ v ∈ S ∪ T, x v ≠ ⊤) :
    max (mx x S) (mx x T) ≠ ⊤ := by
  rw [← mx_union]
  exact mx_ne_top x (S ∪ T) hx

theorem sm_step (x : ι → EReal) (S T : Finset ι) (hd : Disjoint S T) (hx : ∀ v ∈ S ∪ T, x v ≠ ⊤) :
    sm x S (mx x S) * Ideal.exp (mx x S - max (mx x S) (mx x T)) + sm x T (max (mx x S) (mx x T))
      = sm x (S ∪ T) (mx x (S ∪ T)) := by
  rw [mx_union, sm_union x S T hd,
    sm_rescale x S (mx x S) (max (mx x S) (mx x T)) (le_mx x S) (le_max_left _ _) (max_mx_ne_top x S T hx)]

theorem sm_merge (x : ι → EReal) (S T : Finset ι) (hd : Disjoint S T) (hx : ∀ v ∈ S ∪ T, x v ≠ ⊤) :
    sm x S (mx x S) * Ideal.exp (mx x S - max (mx x S) (mx x T))
        + sm x T (mx x T) * Ideal.exp (mx x T - max (mx x S) (mx x T))
      = sm x (S ∪ T) (mx x (S ∪ T)) := by
  rw [mx_union, sm_union x S T hd,
    sm_rescale x S (mx x S) (max (mx x S) (mx x T)) (le_mx x S) (le_max_left _ _) (max_mx_ne_top x S T hx),
    sm_rescale x T (mx x T) (max (mx x S) (mx x T)) (le_mx x T) (le_max_right _ _) (max_mx_ne_top x S T hx)]

theorem mx_union_bot (x : ι → EReal) (S T : Finset ι) (hT : ∀ v ∈ T, x v = ⊥) : mx x (S ∪ T) = mx x S := by
  have h : mx x T = ⊥ := (Finset.sup_eq_bot_iff x T).mpr hT
  rw [mx_union, h, max_bot_right]

theorem sm_union_bot (x : ι → EReal) (S T : Finset ι) (hd : Disjoint S T) (hT : ∀ v ∈ T, x v = ⊥) (m : EReal) :
    sm x (S ∪ T) m = sm x S m := by
  have h : sm x T m = 0 := Finset.sum_eq_zero fun v hv => by rw [hT v hv, exp_bot_sub]
  rw [sm_union x S T hd, h, add_zero]

end Cert.Spec.Softmax

end
-- ==== Proof.Val.Pay.lean ====
import proofs.«131213_j77824807403876_2_alg».proof.Proof.KI.Body0
import proofs.«131213_j77824807403876_2_alg».proof.Proof.Spec.Softmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Cert.Spec.Softmax

def tileLogit (x0 : Vec Ideal S128x1024 .f32) (x1 : Vec Ideal S2560x1024 .f32) (x2 : Vec Ideal S1x2560 .f32) (x3 : Vec Ideal S128x2560 .f32)
    (p : Fin 128) (j : Fin 2560) : EReal :=
  (∑ k : Fin 1024, x0 (ix2 p k) * x1 (ix2 j k)) + x2 (ix2 (0 : Fin 1) j) + Ideal.log (x3 (ix2 p j))

namespace Pay

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem lhs_pay7_0 (i : S128x2560.Idx) (q : dot_S128x1024_S1024x2560_S128x2560_1_0_0_1_n_n.contr.Idx) :
    (dot_S128x1024_S1024x2560_S128x2560_1_0_0_1_n_n.lhsIdx i q 0).val = (i 0).val := by
  unfold DotDims.lhsIdx
  rw [dif_neg (show ¬(0 : Fin S128x1024.rank) ∈ dot_S128x1024_S1024x2560_S128x2560_1_0_0_1_n_n.lhsBatch by decide), dif_pos (show (0 : Fin S128x1024.rank) ∈ dot_S128x1024_S1024x2560_S128x2560_1_0_0_1_n_n.lhsNonContracting by decide)]
  rfl
theorem lhs_pay7_1 (i : S128x2560.Idx) (q : dot_S128x1024_S1024x2560_S128x2560_1_0_0_1_n_n.contr.Idx) :
    (dot_S128x1024_S1024x2560_S128x2560_1_0_0_1_n_n.lhsIdx i q 1).val = (q ⟨0, by decide⟩).val :=
  dot_S128x1024_S1024x2560_S128x2560_1_0_0_1_n_n.lhsIdx_val_of_single rfl i q
theorem rhs_pay7_0 (i : S128x2560.Idx) (q : dot_S128x1024_S1024x2560_S128x2560_1_0_0_1_n_n.contr.Idx) :
    (dot_S128x1024_S1024x2560_S128x2560_1_0_0_1_n_n.rhsIdx i q 0).val = (q ⟨0, by decide⟩).val :=
  dot_S128x1024_S1024x2560_S128x2560_1_0_0_1_n_n.rhsIdx_val_of_single rfl i q
theorem rhs_pay7_1 (i : S128x2560.Idx) (q : dot_S128x1024_S1024x2560_S128x2560_1_0_0_1_n_n.contr.Idx) :
    (dot_S128x1024_S1024x2560_S128x2560_1_0_0_1_n_n.rhsIdx i q 1).val = (i 1).val := by
  unfold DotDims.rhsIdx
  rw [dif_neg (show ¬(1 : Fin S1024x2560.rank) ∈ dot_S128x1024_S1024x2560_S128x2560_1_0_0_1_n_n.rhsBatch by decide), dif_pos (show (1 : Fin S1024x2560.rank) ∈ dot_S128x1024_S1024x2560_S128x2560_1_0_0_1_n_n.rhsNonContracting by decide)]
  rfl

theorem matmul7_apply (a : FVec Ideal S128x1024 .bf16) (b : FVec Ideal S1024x2560 .bf16) (p : Fin 128) (j : Fin 2560) :
    matmul dot_S128x1024_S1024x2560_S128x2560_1_0_0_1_n_n none a b (constant (F := Ideal) S128x2560 .f32 0x00000000#32) (ix2 p j)
      = ∑ k : Fin 1024, a (ix2 p k) * b (ix2 k j) := by
  simp only [matmul]
  rw [Ideal.matmul_constant_zero_apply, ← Equiv.sum_comp (contrEquiv1 dot_S128x1024_S1024x2560_S128x2560_1_0_0_1_n_n 1024 rfl rfl).symm]
  refine Finset.sum_congr rfl fun k _ => ?_
  have hk := contrEquiv1_symm_val dot_S128x1024_S1024x2560_S128x2560_1_0_0_1_n_n 1024 rfl rfl k
  have el : dot_S128x1024_S1024x2560_S128x2560_1_0_0_1_n_n.lhsIdx (ix2 p j) ((contrEquiv1 dot_S128x1024_S1024x2560_S128x2560_1_0_0_1_n_n 1024 rfl rfl).symm k) = ix2 p k := funext fun c => Fin.ext (by
    match c with
    | ⟨0, _⟩ => exact lhs_pay7_0 _ _
    | ⟨1, _⟩ => exact (lhs_pay7_1 _ _).trans hk)
  have er : dot_S128x1024_S1024x2560_S128x2560_1_0_0_1_n_n.rhsIdx (ix2 p j) ((contrEquiv1 dot_S128x1024_S1024x2560_S128x2560_1_0_0_1_n_n 1024 rfl rfl).symm k) = ix2 k j := funext fun c => Fin.ext (by
    match c with
    | ⟨0, _⟩ => exact (rhs_pay7_0 _ _).trans hk
    | ⟨1, _⟩ => exact rhs_pay7_1 _ _)
  rw [el, er]

end Pay

open Pay

theorem pay7_apply (x0 : Vec Ideal S128x1024 .f32) (x1 : Vec Ideal S2560x1024 .f32) (x2 : Vec Ideal S1x2560 .f32) (x3 : Vec Ideal S128x2560 .f32)
    (p : Fin 128) (j : Fin 2560) : k0_pay7 (F := Ideal) x0 x1 x2 x3 (ix2 p j) = tileLogit x0 x1 x2 x3 p j := by
  unfold k0_pay7 tileLogit
  simp only [shapeCast_self]
  rw [addf_apply, addf_apply, log_apply, broadcastTo_1b_ab_apply, matmul7_apply]
  refine congrArg (fun t => t + x2 (ix2 (0 : Fin 1) j) + Ideal.log (x3 (ix2 p j))) (Finset.sum_congr rfl fun k _ => ?_)
  rw [truncf_apply, transpose_ix2_apply, truncf_apply]

theorem pay5_apply (y : S128x1.Idx) : k0_pay5 (F := Ideal) y = (⊥ : EReal) := by
  unfold k0_pay5
  rw [shapeCast_self]
  show Ideal.ofBits .f32 0xFF800000#32 = ⊥
  simp [Ideal.ofBits, Ideal.ieee]
theorem pay6_apply (y : S128x1.Idx) : k0_pay6 (F := Ideal) y = (0 : EReal) := by
  unfold k0_pay6
  rw [shapeCast_self]
  exact Ideal.ofBits_zero_f32

namespace Pay

theorem lift_row (p : Fin 128) (k : Fin 2560) : reduces_S128x2560_S128.lift (ix1 p) k = ix2 p k := by
  funext c
  refine Fin.ext ?_
  match c with
  | ⟨0, _⟩ => rfl
  | ⟨1, _⟩ => rfl

theorem ofBits_negInf_f32 : Ideal.ofBits .f32 0xFF800000#32 = (⊥ : EReal) := by simp [Ideal.ofBits, Ideal.ieee]

theorem rowMax_apply (v : FVec Ideal S128x2560 .f32) (hφ : FKind.Formats .f32)
    (hacc : (0xFF800000#32 : BitVec 32) = FKind.maximumf.neutral .f32 hφ) (p : Fin 128) :
    multiReduction (F := Ideal) .maximumf [1] S128 v 0xFF800000#32 reduces_S128x2560_S128 hφ hacc (ix1 p)
      = Finset.univ.sup fun j : Fin 2560 => v (ix2 p j) := by
  refine (Ideal.multiReduction_maximumf_single v 0xFF800000#32 reduces_S128x2560_S128 hφ hacc (ix1 p)).trans ?_
  have hf : (v ∘ reduces_S128x2560_S128.lift (ix1 p)) = fun j : Fin 2560 => v (ix2 p j) :=
    funext fun k => congrArg v (lift_row p k)
  show Finset.fold max (Ideal.ofBits .f32 0xFF800000#32) (v ∘ reduces_S128x2560_S128.lift (ix1 p)) (Finset.univ : Finset (Fin 2560)) = _
  rw [hf, ofBits_negInf_f32]
  rfl

theorem rowSum_apply (v : FVec Ideal S128x2560 .f32) (hφ : FKind.Formats .f32)
    (hacc : (0x00000000#32 : BitVec 32) = FKind.add.neutral .f32 hφ) (p : Fin 128) :
    multiReduction (F := Ideal) .add [1] S128 v 0x00000000#32 reduces_S128x2560_S128 hφ hacc (ix1 p)
      = ∑ j : Fin 2560, v (ix2 p j) := by
  refine (Ideal.multiReduction_add_single v 0x00000000#32 reduces_S128x2560_S128 hφ hacc (ix1 p)).trans ?_
  exact Finset.sum_congr rfl fun k _ => congrArg v (lift_row p k)

theorem pay8_apply (x0 : Vec Ideal S128x1024 .f32) (x1 : Vec Ideal S2560x1024 .f32) (x2 : Vec Ideal S1x2560 .f32) (x3 : Vec Ideal S128x2560 .f32)
    (ms : Vec Ideal S128x1 .f32) (p : Fin 128) :
    k0_pay8 (F := Ideal) x0 x1 x2 x3 ms (ix2 p (0 : Fin 1)) = max (ms (ix2 p (0 : Fin 1))) (Finset.univ.sup (tileLogit x0 x1 x2 x3 p)) := by
  unfold k0_pay8
  dsimp only
  rw [maximumf_apply, shapeCast_a_a1_apply]
  refine congrArg (max (ms (ix2 p (0 : Fin 1)))) ?_
  refine (rowMax_apply _ _ _ p).trans ?_
  exact congrArg (Finset.sup Finset.univ) (funext fun j => pay7_apply x0 x1 x2 x3 p j)

end Pay

theorem mNew_apply (x0 : Vec Ideal S128x1024 .f32) (x1 : Vec Ideal S2560x1024 .f32) (x2 : Vec Ideal S1x2560 .f32) (x3 : Vec Ideal S128x2560 .f32)
    (ms : Vec Ideal S128x1 .f32) (p : Fin 128) :
    mNew (F := Ideal) x0 x1 x2 x3 ms (ix2 p (0 : Fin 1)) = max (ms (ix2 p (0 : Fin 1))) (Finset.univ.sup (tileLogit x0 x1 x2 x3 p)) := by
  unfold mNew k0_pay2
  rw [shapeCast_self]
  exact pay8_apply x0 x1 x2 x3 ms p

theorem lNew_apply (x0 : Vec Ideal S128x1024 .f32) (x1 : Vec Ideal S2560x1024 .f32) (x2 : Vec Ideal S1x2560 .f32) (x3 : Vec Ideal S128x2560 .f32)
    (ms ls : Vec Ideal S128x1 .f32) (p : Fin 128) :
    lNew (F := Ideal) x0 x1 x2 x3 ms ls (ix2 p (0 : Fin 1))
      = ls (ix2 p (0 : Fin 1)) * Ideal.exp (ms (ix2 p (0 : Fin 1)) - max (ms (ix2 p (0 : Fin 1))) (Finset.univ.sup (tileLogit x0 x1 x2 x3 p)))
        + ∑ j : Fin 2560, Ideal.exp (tileLogit x0 x1 x2 x3 p j - max (ms (ix2 p (0 : Fin 1))) (Finset.univ.sup (tileLogit x0 x1 x2 x3 p))) := by
  unfold lNew k0_pay1
  rw [shapeCast_self]
  unfold k0_pay9
  dsimp only
  rw [addf_apply, mulf_apply, exp_apply, subf_apply, pay8_apply, shapeCast_a_a1_apply]
  refine congrArg (fun t => ls (ix2 p (0 : Fin 1)) * Ideal.exp (ms (ix2 p (0 : Fin 1)) - max (ms (ix2 p (0 : Fin 1))) (Finset.univ.sup (tileLogit x0 x1 x2 x3 p))) + t) ?_
  refine (rowSum_apply _ _ _ p).trans ?_
  refine Finset.sum_congr rfl fun j _ => ?_
  rw [exp_apply, subf_apply, broadcastTo_a1_ab_apply, pay8_apply, pay7_apply]

theorem pay3_apply (v : Vec Ideal S128x1 .f32) (p : Fin 128) :
    k0_pay3 (F := Ideal) v (ix3 (0 : Fin 1) p (0 : Fin 1)) = v (ix2 p (0 : Fin 1)) := by
  unfold k0_pay3
  exact shapeCast_ab_1ab_apply v _ _ _ _
theorem pay4_apply (v : Vec Ideal S128x1 .f32) (p : Fin 128) :
    k0_pay4 (F := Ideal) v (ix3 (0 : Fin 1) p (0 : Fin 1)) = v (ix2 p (0 : Fin 1)) := by
  unfold k0_pay4
  exact shapeCast_ab_1ab_apply v _ _ _ _

theorem k1_pay1_apply (y0 : Vec Ideal S128x5120 .f32) (y1 y2 : Vec Ideal S128x1 .f32) (p : Fin 128) (j : Fin 5120) :
    k1_pay1 (F := Ideal) y0 y1 y2 (ix2 p j)
      = Ideal.div (Ideal.exp (y0 (ix2 p j) - y1 (ix2 p (0 : Fin 1)))) (y2 (ix2 p (0 : Fin 1))) := by
  unfold k1_pay1
  simp only [shapeCast_self]
  rw [divf_apply, exp_apply, subf_apply, broadcastTo_a1_ab_apply, broadcastTo_a1_ab_apply]

theorem k1_pay2_apply (y0 : Vec Ideal S128x5120 .f32) (y1 y2 : Vec Ideal S128x1 .f32) (y4 y5 : Vec Ideal S128x1 .f32) (y3 : Vec Ideal S128x5120 .f32)
    (p : Fin 128) (j : Fin 5120) :
    k1_pay2 (F := Ideal) y0 y1 y2 y4 y5 y3 (ix2 p j)
      = Ideal.log (y4 (ix2 p (0 : Fin 1)) * Ideal.div (Ideal.exp (y0 (ix2 p j) - y1 (ix2 p (0 : Fin 1)))) (y2 (ix2 p (0 : Fin 1)))
          + y5 (ix2 p (0 : Fin 1)) * y3 (ix2 p j)) := by
  unfold k1_pay2
  simp only [shapeCast_self]
  rw [log_apply, addf_apply, mulf_apply, mulf_apply, broadcastTo_a1_ab_apply, broadcastTo_a1_ab_apply, k1_pay1_apply]

end Cert.KernelIdeal.HandVal

end
-- ==== Proof.Val.Reg0.lean ====
import proofs.«131213_j77824807403876_2_alg».proof.Proof.KI.Run
import proofs.«131213_j77824807403876_2_alg».proof.Proof.Val.Pay
import proofs.«131213_j77824807403876_2_alg».proof.Proof.Spec.Softmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Cert.Spec.Softmax

namespace Logits

variable (V : (c : Dev nD) → (b : Ref sig .tc) → Buf (Elt Ideal) ((c : Thread nD τ).loc b))

theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem blk0_apply (c : Dev nD) (t : Fin cfg0.N) (x : S128x1024.Idx) (k : S128x1024.Idx)
    (hk0 : (k 0).val = (x 0).val) (hk1 : (k 1).val = (x 1).val) :
    (iblk0 V c 0 t : Vec Ideal S128x1024 .f32) x = (V c main_arg0 : Vec Ideal S128x1024 .f32) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 128 + 1 * (x 0).val = (k 0).val; rw [e0, hk0]; omega
  | ⟨1, _⟩ => show win0_0.index t (1 : Fin 2) * 1024 + 1 * (x 1).val = (k 1).val; rw [e1, hk1]; omega

theorem blk1_apply (c : Dev nD) (t : Fin cfg0.N) (x : S2560x1024.Idx) (k : S51200x1024.Idx)
    (hk0 : (k 0).val = 2560 * t.val + (x 0).val) (hk1 : (k 1).val = (x 1).val) :
    (iblk0 V c 1 t : Vec Ideal S2560x1024 .f32) x = (V c main_v85 : Vec Ideal S51200x1024 .f32) k := by
  obtain ⟨-, -, e0, e1, -⟩ := idx_facts0 t
  unfold iblk0
  rw [View.read_apply]
  show V c main_v85 _ = V c main_v85 _
  congr 1
  funext a
  apply Fin.ext
  match a with
  | ⟨0, _⟩ => show win0_1.index t (0 : Fin 2) * 2560 + 1 * (x 0).val = (k 0).val; rw [e0, hk0]; omega
  | ⟨1, _⟩ => show win0_1.index t (1 : Fin 2) * 1024 + 1 * (x 1).val = (k 1).val; rw [e1, hk1]; omega

theorem blk2_apply (c : Dev nD) (t : Fin cfg0.N) (x : S1x2560.Idx) (k : S1x51200.Idx)
    (hk0 : (k 0).val = (x 0).val) (hk1 : (k 1).val = 2560 * t.val + (x 1).val) :
    (iblk0 V c 2 t : Vec Ideal S1x2560 .f32) x = (V c main_v87 : Vec Ideal S1x51200 .f32) k := by
  obtain ⟨-, -, -, -, e0, e1, -⟩ := idx_facts0 t
  unfold iblk0
  rw [View.read_apply]
  show V c main_v87 _ = V c main_v87 _
  congr 1
  funext a
  apply Fin.ext
  match a with
  | ⟨0, _⟩ => show win0_2.index t (0 : Fin 2) * 1 + 1 * (x 0).val = (k 0).val; rw [e0, hk0]; omega
  | ⟨1, _⟩ => show win0_2.index t (1 : Fin 2) * 2560 + 1 * (x 1).val = (k 1).val; rw [e1, hk1]; omega

theorem blk3_apply (c : Dev nD) (t : Fin cfg0.N) (x : S128x2560.Idx) (k : S128x51200.Idx)
    (hk0 : (k 0).val = (x 0).val) (hk1 : (k 1).val = 2560 * t.val + (x 1).val) :
    (iblk0 V c 3 t : Vec Ideal S128x2560 .f32) x = (V c main_v88 : Vec Ideal S128x51200 .f32) k := by
  obtain ⟨-, -, -, -, -, -, e0, e1, -⟩ := idx_facts0 t
  unfold iblk0
  rw [View.read_apply]
  show V c main_v88 _ = V c main_v88 _
  congr 1
  funext a
  apply Fin.ext
  match a with
  | ⟨0, _⟩ => show win0_3.index t (0 : Fin 2) * 128 + 1 * (x 0).val = (k 0).val; rw [e0, hk0]; omega
  | ⟨1, _⟩ => show win0_3.index t (1 : Fin 2) * 2560 + 1 * (x 1).val = (k 1).val; rw [e1, hk1]; omega

def lpArr (A0 : Vec Ideal S128x1024 .f32) (A1 : Vec Ideal S51200x1024 .f32) (A2 : Vec Ideal S1x51200 .f32)
    (A3 : Vec Ideal S128x51200 .f32) (p : Fin 128) (q : Fin 51200) : EReal :=
  (∑ k : Fin 1024, A0 (ix2 p k) * A1 (ix2 q k)) + A2 (ix2 (0 : Fin 1) q) + Ideal.log (A3 (ix2 p q))

def lpOf (c : Dev nD) (p : Fin 128) (q : Fin 51200) : EReal :=
  lpArr (V c main_arg0) (V c main_v85) (V c main_v87) (V c main_v88) p q

def logitsOf (c : Dev nD) : Vec Ideal S128x51200 .f32 := fun i => lpOf V c (i 0) (i 1)

theorem tileLogit_of_blocks (x0 : Vec Ideal S128x1024 .f32) (x1 : Vec Ideal S2560x1024 .f32) (x2 : Vec Ideal S1x2560 .f32)
    (x3 : Vec Ideal S128x2560 .f32) (A0 : Vec Ideal S128x1024 .f32) (A1 : Vec Ideal S51200x1024 .f32) (A2 : Vec Ideal S1x51200 .f32)
    (A3 : Vec Ideal S128x51200 .f32) (p p' : Fin 128) (j : Fin 2560) (q : Fin 51200)
    (h0 : ∀ k : Fin 1024, x0 (ix2 p k) = A0 (ix2 p' k)) (h1 : ∀ k : Fin 1024, x1 (ix2 j k) = A1 (ix2 q k))
    (h2 : x2 (ix2 (0 : Fin 1) j) = A2 (ix2 (0 : Fin 1) q)) (h3 : x3 (ix2 p j) = A3 (ix2 p' q)) :
    tileLogit x0 x1 x2 x3 p j = lpArr A0 A1 A2 A3 p' q := by
  unfold tileLogit lpArr
  rw [h2, h3]
  congr 2
  exact Finset.sum_congr rfl fun k _ => by rw [h0 k, h1 k]

theorem tile_at (c : Dev nD) (t : Fin cfg0.N) (p p' : Fin 128) (j : Fin 2560) (q : Fin 51200)
    (hp : p'.val = p.val) (hq : q.val = 2560 * t.val + j.val) :
    k0_pay7 (F := Ideal) (iblk0 V c 0 t) (iblk0 V c 1 t) (iblk0 V c 2 t) (iblk0 V c 3 t) (ix2 p j) = lpOf V c p' q := by
  refine (pay7_apply (iblk0 V c 0 t) (iblk0 V c 1 t) (iblk0 V c 2 t) (iblk0 V c 3 t) p j).trans ?_
  exact tileLogit_of_blocks (iblk0 V c 0 t) (iblk0 V c 1 t) (iblk0 V c 2 t) (iblk0 V c 3 t)
    (V c main_arg0) (V c main_v85) (V c main_v87) (V c main_v88) p p' j q
    (fun k => blk0_apply V c t (ix2 p k) (ix2 p' k) hp rfl)
    (fun k => blk1_apply V c t (ix2 j k) (ix2 q k) hq rfl)
    (blk2_apply V c t (ix2 (0 : Fin 1) j) (ix2 (0 : Fin 1) q) rfl hq)
    (blk3_apply V c t (ix2 p j) (ix2 p' q) hp hq)

theorem flushed4_eq (c : Dev nD) (t : Fin cfg0.N) :
    (dat0 V c).flushed 4 t = ((cfg0.win 4).blk t).view.read (Elt Ideal) (logitsOf V c) := by
  show (cfg0.win 4).cut (grid0.coords t) ((dat0 V c).after 4 t) = _
  rw [after0_4]
  obtain ⟨-, -, -, -, -, -, -, -, e0, e1⟩ := idx_facts0 t
  funext y
  obtain ⟨p, j, rfl⟩ : ∃ (p : Fin 128) (j : Fin 2560), y = ix2 p j := ⟨y 0, y 1, eq_ix2 y⟩
  show k0_pay7 (F := Ideal) (iblk0 V c 0 t) (iblk0 V c 1 t) (iblk0 V c 2 t) (iblk0 V c 3 t) (ix2 p j)
    = lpOf V c ((((cfg0.win 4).blk t).view.emb (ix2 p j)) 0) ((((cfg0.win 4).blk t).view.emb (ix2 p j)) 1)
  refine tile_at V c t p _ j _ ?_ ?_
  · show win0_4.index t (0 : Fin 2) * 128 + 1 * p.val = p.val
    rw [e0]; omega
  · show win0_4.index t (1 : Fin 2) * 2560 + 1 * j.val = 2560 * t.val + j.val
    rw [e1]; omega

theorem mem_blk4 (t : Fin cfg0.N) (i : S128x51200.Idx) :
    i ∈ ((cfg0.win 4).blk t).view.set ↔ ∀ a : Fin 2, win0_4.index t a * S128x2560.size a ≤ (i a).val ∧ (i a).val < win0_4.index t a * S128x2560.size a + S128x2560.size a := by
  show i ∈ ((View.whole main_v89_0).slice (win0_4.rect t)).set ↔ _
  rw [View.set_slice_whole, Rect.mem_set_unit]
  exact Iff.rfl

theorem cover4 (i : S128x51200.Idx) :
    ∃ t : Fin cfg0.N, (cfg0.win 4).flush t = true ∧ i ∈ ((cfg0.win 4).blk t).view.set := by
  have hi0 : (i 0).val < 128 := (i 0).isLt
  have hi1 : (i 1).val < 51200 := (i 1).isLt
  have hN : grid0.N = 20 := N_0
  have ht : (i 1).val / 2560 < cfg0.N := by show (i 1).val / 2560 < grid0.N; rw [hN]; omega
  obtain ⟨-, -, -, -, -, -, -, -, e0, e1⟩ := idx_facts0 ⟨(i 1).val / 2560, ht⟩
  refine ⟨⟨(i 1).val / 2560, ht⟩, flush0_4 _, ?_⟩
  rw [mem_blk4]
  intro a
  match a with
  | ⟨0, _⟩ =>
    show win0_4.index ⟨(i 1).val / 2560, ht⟩ (0 : Fin 2) * 128 ≤ (i 0).val ∧ (i 0).val < win0_4.index ⟨(i 1).val / 2560, ht⟩ (0 : Fin 2) * 128 + 128
    rw [e0]; omega
  | ⟨1, _⟩ =>
    show win0_4.index ⟨(i 1).val / 2560, ht⟩ (1 : Fin 2) * 2560 ≤ (i 1).val ∧ (i 1).val < win0_4.index ⟨(i 1).val / 2560, ht⟩ (1 : Fin 2) * 2560 + 2560
    rw [e1]
    show (i 1).val / 2560 * 2560 ≤ (i 1).val ∧ (i 1).val < (i 1).val / 2560 * 2560 + 2560
    omega

theorem final4 (c : Dev nD) : (dat0 V c).arrAt 4 cfg0.N = logitsOf V c :=
  (dat0 V c).arrAt_eq_of_cover 4 (logitsOf V c) (fun t _ => flushed4_eq V c t) cover4

theorem final4_apply (c : Dev nD) (p : Fin 128) (q : Fin 51200) :
    ((dat0 V c).arrAt 4 cfg0.N : Vec Ideal S128x51200 .f32) (ix2 p q) = lpOf V c p q :=
  congrFun (final4 V c) (ix2 p q)

end Logits

variable (m : (ℓ : Loc nD τ sig) → Buf (Elt Ideal) ℓ) (ρ : Dev nD → PrngReg)

abbrev xArr (c : Dev nD) : Vec Ideal S128x1024 .f32 := V12 m ρ c main_arg0
abbrev wArr (c : Dev nD) : Vec Ideal S51200x1024 .f32 := V12 m ρ c main_v85
abbrev bArr (c : Dev nD) : Vec Ideal S1x51200 .f32 := V12 m ρ c main_v87
abbrev kArr (c : Dev nD) : Vec Ideal S128x51200 .f32 := V12 m ρ c main_v88

def lp (c : Dev nD) (p : Fin 128) (q : Fin 51200) : EReal :=
  (∑ k : Fin 1024, xArr m ρ c (ix2 p k) * wArr m ρ c (ix2 q k)) + bArr m ρ c (ix2 (0 : Fin 1) q) + Ideal.log (kArr m ρ c (ix2 p q))

def coreCols (o : Fin 2) : Finset (Fin 51200) := Finset.univ.filter fun q => q.val / 25600 = o.val

theorem logits_eq (c : Dev nD) (p : Fin 128) (q : Fin 51200) :
    (V13 m ρ c main_v89_0 : Vec Ideal S128x51200 .f32) (ix2 p q) = lp m ρ c p q := by
  have harr : (V13 m ρ c main_v89_0 : Vec Ideal S128x51200 .f32) = (dat0 (V12 m ρ) c).arrAt 4 cfg0.N := W13_arr m ρ c 4
  exact (congrFun harr (ix2 p q)).trans (Logits.final4_apply (V12 m ρ) c p q)

end Cert.KernelIdeal.HandVal

end
-- ==== Proof.Val.Reg0Parts.lean ====
import proofs.«131213_j77824807403876_2_alg».proof.Proof.Val.Reg0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Cert.Spec.Softmax

variable (m : (ℓ : Loc nD τ sig) → Buf (Elt Ideal) ℓ) (ρ : Dev nD → PrngReg)

namespace Parts

def tileCols (t : ℕ) : Finset (Fin 51200) := Finset.univ.filter fun q => q.val / 2560 = t

def runCols (a n : ℕ) : Finset (Fin 51200) := Finset.univ.filter fun q => a ≤ q.val / 2560 ∧ q.val / 2560 < a + n

theorem runCols_zero (a : ℕ) : runCols a 0 = ∅ := by
  unfold runCols
  refine Finset.filter_eq_empty_iff.mpr fun q _ h => ?_
  omega

theorem runCols_succ (a n : ℕ) : runCols a (n + 1) = runCols a n ∪ tileCols (a + n) := by
  unfold runCols tileCols
  ext q
  simp only [Finset.mem_filter, Finset.mem_univ, true_and, Finset.mem_union]
  omega

theorem runCols_disjoint (a n : ℕ) : Disjoint (runCols a n) (tileCols (a + n)) := by
  unfold runCols tileCols
  refine Finset.disjoint_left.mpr fun q h1 h2 => ?_
  simp only [Finset.mem_filter, Finset.mem_univ, true_and] at h1 h2
  omega

def col (t : ℕ) (ht : t < 20) (j : Fin 2560) : Fin 51200 := ⟨2560 * t + j.val, by have := j.isLt; omega⟩

theorem col_injective (t : ℕ) (ht : t < 20) : Function.Injective (col t ht) := fun j j' h => by
  have := congrArg Fin.val h
  unfold col at this
  exact Fin.ext (by simp only at this; omega)

theorem tileCols_eq_image (t : ℕ) (ht : t < 20) : tileCols t = Finset.univ.image (col t ht) := by
  unfold tileCols
  ext q
  simp only [Finset.mem_filter, Finset.mem_univ, true_and, Finset.mem_image]
  constructor
  · intro h
    refine ⟨⟨q.val % 2560, Nat.mod_lt _ (by norm_num)⟩, Fin.ext ?_⟩
    show 2560 * t + q.val % 2560 = q.val
    omega
  · rintro ⟨j, rfl⟩
    show (2560 * t + j.val) / 2560 = t
    have := j.isLt
    omega

theorem sup_tile (x : Fin 51200 → EReal) (t : ℕ) (ht : t < 20) (f : Fin 2560 → EReal) (hf : ∀ j, f j = x (col t ht j)) :
    Finset.univ.sup f = mx x (tileCols t) := by
  unfold mx
  rw [tileCols_eq_image t ht, Finset.sup_image]
  exact Finset.sup_congr rfl fun j _ => hf j

theorem sum_tile (x : Fin 51200 → EReal) (t : ℕ) (ht : t < 20) (f : Fin 2560 → EReal) (hf : ∀ j, f j = x (col t ht j)) (M : EReal) :
    (∑ j : Fin 2560, Ideal.exp (f j - M)) = sm x (tileCols t) M := by
  unfold sm
  rw [tileCols_eq_image t ht, Finset.sum_image fun j _ j' _ h => col_injective t ht h]
  exact Finset.sum_congr rfl fun j _ => by rw [hf j]

theorem step_mx (x : Fin 51200 → EReal) (S : Finset (Fin 51200)) (t : ℕ) (ht : t < 20) (f : Fin 2560 → EReal)
    (hf : ∀ j, f j = x (col t ht j)) (a : EReal) (ha : a = mx x S) :
    max a (Finset.univ.sup f) = mx x (S ∪ tileCols t) := by
  rw [ha, sup_tile x t ht f hf, mx_union]

theorem step_sm (x : Fin 51200 → EReal) (hx : ∀ q, x q ≠ ⊤) (S : Finset (Fin 51200)) (t : ℕ) (ht : t < 20) (hd : Disjoint S (tileCols t))
    (f : Fin 2560 → EReal) (hf : ∀ j, f j = x (col t ht j)) (a l : EReal) (ha : a = mx x S) (hl : l = sm x S (mx x S)) :
    l * Ideal.exp (a - max a (Finset.univ.sup f)) + ∑ j : Fin 2560, Ideal.exp (f j - max a (Finset.univ.sup f))
      = sm x (S ∪ tileCols t) (mx x (S ∪ tileCols t)) := by
  rw [sum_tile x t ht f hf, ha, hl, sup_tile x t ht f hf]
  exact sm_step x S (tileCols t) hd fun v _ => hx v

theorem idx_facts : ∀ t : Fin cfg0.N,
    win0_5.index t (0 : Fin 3) = t.val / 10 ∧ win0_5.index t (1 : Fin 3) = 0 ∧ win0_5.index t (2 : Fin 3) = 0
    ∧ win0_6.index t (0 : Fin 3) = t.val / 10 ∧ win0_6.index t (1 : Fin 3) = 0 ∧ win0_6.index t (2 : Fin 3) = 0 :=
  (by decide +kernel : ∀ t : Fin grid0.N, _)

theorem tile_read (c : Dev nD) (t : Fin cfg0.N) (p : Fin 128) (j : Fin 2560) (q : Fin 51200) (hq : q.val = 2560 * t.val + j.val) :
    tileLogit (iblk0 (V12 m ρ) c 0 t) (iblk0 (V12 m ρ) c 1 t) (iblk0 (V12 m ρ) c 2 t) (iblk0 (V12 m ρ) c 3 t) p j = lp m ρ c p q :=
  Logits.tileLogit_of_blocks (iblk0 (V12 m ρ) c 0 t) (iblk0 (V12 m ρ) c 1 t) (iblk0 (V12 m ρ) c 2 t) (iblk0 (V12 m ρ) c 3 t)
    (V12 m ρ c main_arg0) (V12 m ρ c main_v85) (V12 m ρ c main_v87) (V12 m ρ c main_v88) p p j q
    (fun k => Logits.blk0_apply (V12 m ρ) c t (ix2 p k) (ix2 p k) rfl rfl)
    (fun k => Logits.blk1_apply (V12 m ρ) c t (ix2 j k) (ix2 q k) hq rfl)
    (Logits.blk2_apply (V12 m ρ) c t (ix2 (0 : Fin 1) j) (ix2 (0 : Fin 1) q) rfl hq)
    (Logits.blk3_apply (V12 m ρ) c t (ix2 p j) (ix2 p q) rfl hq)

theorem runCols_core (o : Fin 2) : runCols (10 * o.val) 10 = coreCols o := by
  unfold runCols coreCols
  ext q
  simp only [Finset.mem_filter, Finset.mem_univ, true_and]
  have := o.isLt
  omega

theorem st0_reset (V : (c : Dev nD) → (b : Ref sig .tc) → Buf (Elt Ideal) ((c : Thread nD τ).loc b)) (c : Dev nD)
    (n : ℕ) (hn : n < cfg0.N) (h : n % 10 = 0) :
    st0 V c n hn
      = (mNew (iblk0 V c 0 ⟨n, hn⟩) (iblk0 V c 1 ⟨n, hn⟩) (iblk0 V c 2 ⟨n, hn⟩) (iblk0 V c 3 ⟨n, hn⟩) (k0_pay5 (F := Ideal)),
         lNew (iblk0 V c 0 ⟨n, hn⟩) (iblk0 V c 1 ⟨n, hn⟩) (iblk0 V c 2 ⟨n, hn⟩) (iblk0 V c 3 ⟨n, hn⟩) (k0_pay5 (F := Ideal)) (k0_pay6 (F := Ideal))) := by
  cases n with
  | zero => rw [st0]
  | succ n => rw [st0, if_pos h]

theorem st0_step (V : (c : Dev nD) → (b : Ref sig .tc) → Buf (Elt Ideal) ((c : Thread nD τ).loc b)) (c : Dev nD)
    (n : ℕ) (hn : n + 1 < cfg0.N) (h : (n + 1) % 10 ≠ 0) :
    st0 V c (n + 1) hn
      = (mNew (iblk0 V c 0 ⟨n + 1, hn⟩) (iblk0 V c 1 ⟨n + 1, hn⟩) (iblk0 V c 2 ⟨n + 1, hn⟩) (iblk0 V c 3 ⟨n + 1, hn⟩) (st0 V c n (Nat.lt_of_succ_lt hn)).1,
         lNew (iblk0 V c 0 ⟨n + 1, hn⟩) (iblk0 V c 1 ⟨n + 1, hn⟩) (iblk0 V c 2 ⟨n + 1, hn⟩) (iblk0 V c 3 ⟨n + 1, hn⟩) (st0 V c n (Nat.lt_of_succ_lt hn)).1 (st0 V c n (Nat.lt_of_succ_lt hn)).2) := by
  rw [st0, if_neg h]

theorem st0_congr (V : (c : Dev nD) → (b : Ref sig .tc) → Buf (Elt Ideal) ((c : Thread nD τ).loc b)) (c : Dev nD)
    (n n' : ℕ) (hn : n < cfg0.N) (hn' : n' < cfg0.N) (e : n = n') : st0 V c n hn = st0 V c n' hn' := by
  subst e; rfl

theorem lt20 {t : ℕ} (ht : t < cfg0.N) : t < 20 := by
  have h := ht
  rw [show cfg0.N = 20 from N_0] at h
  exact h

theorem run_mx (c : Dev nD) (p : Fin 128) (a : ℕ) (ha : a % 10 = 0) :
    ∀ (i : ℕ), i < 10 → ∀ (t : ℕ) (ht : t < cfg0.N), t = a + i →
      (st0 (V12 m ρ) c t ht).1 (ix2 p (0 : Fin 1)) = mx (lp m ρ c p) (runCols a (i + 1))
  | 0, _, t, ht, e => by
    have h0 : t % 10 = 0 := by omega
    rw [st0_reset (V12 m ρ) c t ht h0, runCols_succ, runCols_zero, show a + 0 = t from e.symm]
    refine (mNew_apply _ _ _ _ _ p).trans ?_
    exact step_mx (lp m ρ c p) ∅ t (lt20 ht) _ (fun j => tile_read m ρ c ⟨t, ht⟩ p j (col t (lt20 ht) j) rfl) _
      (by rw [pay5_apply, mx_empty])
  | i + 1, hi, t, ht, e => by
    obtain ⟨n, rfl⟩ : ∃ n, t = n + 1 := ⟨a + i, e⟩
    have hn : n = a + i := by omega
    have h0 : (n + 1) % 10 ≠ 0 := by omega
    have ih := run_mx c p a ha i (by omega) n (Nat.lt_of_succ_lt ht) hn
    rw [st0_step (V12 m ρ) c n ht h0, runCols_succ a (i + 1), show a + (i + 1) = n + 1 from e.symm]
    refine (mNew_apply _ _ _ _ _ p).trans ?_
    exact step_mx (lp m ρ c p) _ (n + 1) (lt20 ht) _ (fun j => tile_read m ρ c ⟨n + 1, ht⟩ p j (col (n + 1) (lt20 ht) j) rfl) _ ih

theorem run_sm (c : Dev nD) (p : Fin 128) (hfin : ∀ q, lp m ρ c p q ≠ ⊤) (a : ℕ) (ha : a % 10 = 0) :
    ∀ (i : ℕ), i < 10 → ∀ (t : ℕ) (ht : t < cfg0.N), t = a + i →
      (st0 (V12 m ρ) c t ht).2 (ix2 p (0 : Fin 1))
        = sm (lp m ρ c p) (runCols a (i + 1)) (mx (lp m ρ c p) (runCols a (i + 1)))
  | 0, _, t, ht, e => by
    have h0 : t % 10 = 0 := by omega
    rw [st0_reset (V12 m ρ) c t ht h0, runCols_succ, runCols_zero, show a + 0 = t from e.symm]
    refine (lNew_apply _ _ _ _ _ _ p).trans ?_
    exact step_sm (lp m ρ c p) hfin ∅ t (lt20 ht) (Finset.disjoint_empty_left _) _
      (fun j => tile_read m ρ c ⟨t, ht⟩ p j (col t (lt20 ht) j) rfl) _ _
      (by rw [pay5_apply, mx_empty]) (by rw [pay6_apply, sm_empty])
  | i + 1, hi, t, ht, e => by
    obtain ⟨n, rfl⟩ : ∃ n, t = n + 1 := ⟨a + i, e⟩
    have hn : n = a + i := by omega
    have h0 : (n + 1) % 10 ≠ 0 := by omega
    have ihm := run_mx m ρ c p a ha i (by omega) n (Nat.lt_of_succ_lt ht) hn
    have ihl := run_sm c p hfin a ha i (by omega) n (Nat.lt_of_succ_lt ht) hn
    have hd : Disjoint (runCols a (i + 1)) (tileCols (n + 1)) := by rw [e]; exact runCols_disjoint a (i + 1)
    rw [st0_step (V12 m ρ) c n ht h0, runCols_succ a (i + 1), show a + (i + 1) = n + 1 from e.symm]
    refine (lNew_apply _ _ _ _ _ _ p).trans ?_
    exact step_sm (lp m ρ c p) hfin _ (n + 1) (lt20 ht) hd _
      (fun j => tile_read m ρ c ⟨n + 1, ht⟩ p j (col (n + 1) (lt20 ht) j) rfl) _ _ ihm ihl

def lastPt (o : Fin 2) : Fin cfg0.N := ⟨10 * o.val + 9, by rw [show cfg0.N = 20 from N_0]; have := o.isLt; omega⟩

theorem core_mx (c : Dev nD) (o : Fin 2) (p : Fin 128) :
    (st0 (V12 m ρ) c (lastPt o).val (lastPt o).isLt).1 (ix2 p (0 : Fin 1)) = mx (lp m ρ c p) (coreCols o) := by
  rw [← runCols_core o]
  exact run_mx m ρ c p (10 * o.val) (by omega) 9 (by omega) _ _ rfl

theorem core_sm (c : Dev nD) (o : Fin 2) (p : Fin 128) (hfin : ∀ q, lp m ρ c p q ≠ ⊤) :
    (st0 (V12 m ρ) c (lastPt o).val (lastPt o).isLt).2 (ix2 p (0 : Fin 1))
      = sm (lp m ρ c p) (coreCols o) (mx (lp m ρ c p) (coreCols o)) := by
  rw [← runCols_core o]
  exact run_sm m ρ c p hfin (10 * o.val) (by omega) 9 (by omega) _ _ rfl

def partM (c : Dev nD) : Vec Ideal S2x128x1 .f32 := fun i =>
  (st0 (V12 m ρ) c (lastPt (i 0 : Fin 2)).val (lastPt (i 0 : Fin 2)).isLt).1 (ix2 (i 1 : Fin 128) (0 : Fin 1))

def partL (c : Dev nD) : Vec Ideal S2x128x1 .f32 := fun i =>
  (st0 (V12 m ρ) c (lastPt (i 0 : Fin 2)).val (lastPt (i 0 : Fin 2)).isLt).2 (ix2 (i 1 : Fin 128) (0 : Fin 1))

theorem partM_at (c : Dev nD) (t : Fin cfg0.N) (h9 : t.val % 10 = 9) (i : S2x128x1.Idx) (p : Fin 128)
    (h0 : (i 0 : Fin 2).val = t.val / 10) (h1 : (i 1 : Fin 128) = p) :
    partM m ρ c i = (st0 (V12 m ρ) c t.val t.isLt).1 (ix2 p (0 : Fin 1)) := by
  unfold partM
  rw [h1]
  exact congrArg (fun s => s.1 (ix2 p (0 : Fin 1)))
    (st0_congr (V12 m ρ) c _ _ _ _ (show 10 * (i 0 : Fin 2).val + 9 = t.val by omega))

theorem partL_at (c : Dev nD) (t : Fin cfg0.N) (h9 : t.val % 10 = 9) (i : S2x128x1.Idx) (p : Fin 128)
    (h0 : (i 0 : Fin 2).val = t.val / 10) (h1 : (i 1 : Fin 128) = p) :
    partL m ρ c i = (st0 (V12 m ρ) c t.val t.isLt).2 (ix2 p (0 : Fin 1)) := by
  unfold partL
  rw [h1]
  exact congrArg (fun s => s.2 (ix2 p (0 : Fin 1)))
    (st0_congr (V12 m ρ) c _ _ _ _ (show 10 * (i 0 : Fin 2).val + 9 = t.val by omega))

theorem pay3_at (v : Vec Ideal S128x1 .f32) (y : S1x128x1.Idx) :
    k0_pay3 (F := Ideal) v y = v (ix2 (y 1 : Fin 128) (0 : Fin 1)) := by
  have key : ∀ p : Fin 128, y = ix3 (0 : Fin 1) p (0 : Fin 1) → k0_pay3 (F := Ideal) v y = v (ix2 p (0 : Fin 1)) := by
    rintro p rfl; exact pay3_apply v p
  refine key _ ((eq_ix3 y).trans ?_)
  rw [Fin.eq_zero (y 0 : Fin 1), Fin.eq_zero (y 2 : Fin 1)]
  rfl

theorem pay4_at (v : Vec Ideal S128x1 .f32) (y : S1x128x1.Idx) :
    k0_pay4 (F := Ideal) v y = v (ix2 (y 1 : Fin 128) (0 : Fin 1)) := by
  have key : ∀ p : Fin 128, y = ix3 (0 : Fin 1) p (0 : Fin 1) → k0_pay4 (F := Ideal) v y = v (ix2 p (0 : Fin 1)) := by
    rintro p rfl; exact pay4_apply v p
  refine key _ ((eq_ix3 y).trans ?_)
  rw [Fin.eq_zero (y 0 : Fin 1), Fin.eq_zero (y 2 : Fin 1)]
  rfl

theorem flushed5_eq (c : Dev nD) (t : Fin cfg0.N) (hf : (cfg0.win 5).flush t = true) :
    (dat0 (V12 m ρ) c).flushed 5 t = ((cfg0.win 5).blk t).view.read (Elt Ideal) (partM m ρ c) := by
  have h9 : t.val % 10 = 9 := (flush0_5 t).mp hf
  obtain ⟨e50, e51, e52, -⟩ := idx_facts t
  show (cfg0.win 5).cut (grid0.coords t) ((dat0 (V12 m ρ) c).after 5 t) = _
  rw [after0_5]
  funext y
  rw [View.read_apply]
  show k0_pay3 (F := Ideal) (st0 (V12 m ρ) c t.val t.isLt).1 y = partM m ρ c (((cfg0.win 5).blk t).view.emb y)
  have hy0 : (y 0 : Fin 1).val = 0 := by have h : (y 0 : Fin 1).val < 1 := (y 0 : Fin 1).isLt; omega
  refine (pay3_at _ y).trans (partM_at m ρ c t h9 _ _ ?_ ?_).symm
  · show win0_5.index t (0 : Fin 3) * 1 + 1 * (y 0 : Fin 1).val = t.val / 10
    omega
  · exact Fin.ext (show win0_5.index t (1 : Fin 3) * 128 + 1 * (y 1 : Fin 128).val = (y 1 : Fin 128).val by omega)

theorem flushed6_eq (c : Dev nD) (t : Fin cfg0.N) (hf : (cfg0.win 6).flush t = true) :
    (dat0 (V12 m ρ) c).flushed 6 t = ((cfg0.win 6).blk t).view.read (Elt Ideal) (partL m ρ c) := by
  have h9 : t.val % 10 = 9 := (flush0_6 t).mp hf
  obtain ⟨-, -, -, e60, e61, e62⟩ := idx_facts t
  show (cfg0.win 6).cut (grid0.coords t) ((dat0 (V12 m ρ) c).after 6 t) = _
  rw [after0_6]
  funext y
  rw [View.read_apply]
  show k0_pay4 (F := Ideal) (st0 (V12 m ρ) c t.val t.isLt).2 y = partL m ρ c (((cfg0.win 6).blk t).view.emb y)
  have hy0 : (y 0 : Fin 1).val = 0 := by have h : (y 0 : Fin 1).val < 1 := (y 0 : Fin 1).isLt; omega
  refine (pay4_at _ y).trans (partL_at m ρ c t h9 _ _ ?_ ?_).symm
  · show win0_6.index t (0 : Fin 3) * 1 + 1 * (y 0 : Fin 1).val = t.val / 10
    omega
  · exact Fin.ext (show win0_6.index t (1 : Fin 3) * 128 + 1 * (y 1 : Fin 128).val = (y 1 : Fin 128).val by omega)

theorem mem_blk5 (o : Fin 2) (p : Fin 128) : (ix3 o p (0 : Fin 1) : S2x128x1.Idx) ∈ ((cfg0.win 5).blk (lastPt o)).view.set := by
  obtain ⟨e50, e51, e52, -⟩ := idx_facts (lastPt o)
  have hl : (lastPt o).val = 10 * o.val + 9 := rfl
  have hp := p.isLt
  show (ix3 o p (0 : Fin 1) : S2x128x1.Idx) ∈ ((View.whole main_v89_1).slice (win0_5.rect (lastPt o))).set
  rw [View.set_slice_whole, Rect.mem_set_unit]
  intro a
  match a with
  | ⟨0, _⟩ => show win0_5.index (lastPt o) (0 : Fin 3) * 1 ≤ o.val ∧ o.val < win0_5.index (lastPt o) (0 : Fin 3) * 1 + 1; omega
  | ⟨1, _⟩ => show win0_5.index (lastPt o) (1 : Fin 3) * 128 ≤ p.val ∧ p.val < win0_5.index (lastPt o) (1 : Fin 3) * 128 + 128; omega
  | ⟨2, _⟩ => show win0_5.index (lastPt o) (2 : Fin 3) * 1 ≤ 0 ∧ 0 < win0_5.index (lastPt o) (2 : Fin 3) * 1 + 1; omega

theorem mem_blk6 (o : Fin 2) (p : Fin 128) : (ix3 o p (0 : Fin 1) : S2x128x1.Idx) ∈ ((cfg0.win 6).blk (lastPt o)).view.set := by
  obtain ⟨-, -, -, e60, e61, e62⟩ := idx_facts (lastPt o)
  have hl : (lastPt o).val = 10 * o.val + 9 := rfl
  have hp := p.isLt
  show (ix3 o p (0 : Fin 1) : S2x128x1.Idx) ∈ ((View.whole main_v89_2).slice (win0_6.rect (lastPt o))).set
  rw [View.set_slice_whole, Rect.mem_set_unit]
  intro a
  match a with
  | ⟨0, _⟩ => show win0_6.index (lastPt o) (0 : Fin 3) * 1 ≤ o.val ∧ o.val < win0_6.index (lastPt o) (0 : Fin 3) * 1 + 1; omega
  | ⟨1, _⟩ => show win0_6.index (lastPt o) (1 : Fin 3) * 128 ≤ p.val ∧ p.val < win0_6.index (lastPt o) (1 : Fin 3) * 128 + 128; omega
  | ⟨2, _⟩ => show win0_6.index (lastPt o) (2 : Fin 3) * 1 ≤ 0 ∧ 0 < win0_6.index (lastPt o) (2 : Fin 3) * 1 + 1; omega

theorem lastPt_mod (o : Fin 2) : (lastPt o).val % 10 = 9 := by
  show (10 * o.val + 9) % 10 = 9
  omega

end Parts

open Parts

theorem mpart_eq (c : Dev nD) (o : Fin 2) (p : Fin 128) :
    (V13 m ρ c main_v89_1 : Vec Ideal S2x128x1 .f32) (ix3 o p (0 : Fin 1)) = mx (lp m ρ c p) (coreCols o) := by
  have hf : (cfg0.win 5).flush (lastPt o) = true := (flush0_5 (lastPt o)).mpr (lastPt_mod o)
  have e := (dat0 (V12 m ρ) c).arrAt_apply_of_mem 5 (partM m ρ c) (fun t ht => flushed5_eq m ρ c t ht) cfg0.N (lastPt o)
    (ix3 o p (0 : Fin 1)) (lastPt o).isLt hf (mem_blk5 o p)
  have e' : (V13 m ρ c main_v89_1 : Vec Ideal S2x128x1 .f32) = (dat0 (V12 m ρ) c).arrAt 5 cfg0.N := (hF0 m ρ c 5).symm
  rw [e', e]
  exact core_mx m ρ c o p

theorem lpart_eq (c : Dev nD) (o : Fin 2) (p : Fin 128) (hfin : ∀ q, lp m ρ c p q ≠ ⊤) :
    (V13 m ρ c main_v89_2 : Vec Ideal S2x128x1 .f32) (ix3 o p (0 : Fin 1))
      = sm (lp m ρ c p) (coreCols o) (mx (lp m ρ c p) (coreCols o)) := by
  have hf : (cfg0.win 6).flush (lastPt o) = true := (flush0_6 (lastPt o)).mpr (lastPt_mod o)
  have e := (dat0 (V12 m ρ) c).arrAt_apply_of_mem 6 (partL m ρ c) (fun t ht => flushed6_eq m ρ c t ht) cfg0.N (lastPt o)
    (ix3 o p (0 : Fin 1)) (lastPt o).isLt hf (mem_blk6 o p)
  have e' : (V13 m ρ c main_v89_2 : Vec Ideal S2x128x1 .f32) = (dat0 (V12 m ρ) c).arrAt 6 cfg0.N := (hF0 m ρ c 6).symm
  rw [e', e]
  exact core_sm m ρ c o p hfin

end Cert.KernelIdeal.HandVal

end
-- ==== Proof.Val.Reg1.lean ====
import proofs.«131213_j77824807403876_2_alg».proof.Proof.KI.Run
import proofs.«131213_j77824807403876_2_alg».proof.Proof.Val.Pay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Cert.Spec.Softmax

namespace Blend

section blocks
variable (V : (c : Dev nD) → (b : Ref sig .tc) → Buf (Elt Ideal) ((c : Thread nD τ).loc b))

theorem idx_wide0 : ∀ t : Fin cfg1.N, win1_0.index t (0 : Fin 2) = 0 ∧ win1_0.index t (1 : Fin 2) = t.val :=
  (by decide +kernel : ∀ t : Fin grid1.N, _)
theorem idx_wide3 : ∀ t : Fin cfg1.N, win1_3.index t (0 : Fin 2) = 0 ∧ win1_3.index t (1 : Fin 2) = t.val :=
  (by decide +kernel : ∀ t : Fin grid1.N, _)
theorem idx_wide6 : ∀ t : Fin cfg1.N, win1_6.index t (0 : Fin 2) = 0 ∧ win1_6.index t (1 : Fin 2) = t.val :=
  (by decide +kernel : ∀ t : Fin grid1.N, _)
theorem idx_wide7 : ∀ t : Fin cfg1.N, win1_7.index t (0 : Fin 2) = 0 ∧ win1_7.index t (1 : Fin 2) = t.val :=
  (by decide +kernel : ∀ t : Fin grid1.N, _)
theorem idx_col1 : ∀ t : Fin cfg1.N, win1_1.index t (0 : Fin 2) = 0 ∧ win1_1.index t (1 : Fin 2) = 0 :=
  (by decide +kernel : ∀ t : Fin grid1.N, _)
theorem idx_col2 : ∀ t : Fin cfg1.N, win1_2.index t (0 : Fin 2) = 0 ∧ win1_2.index t (1 : Fin 2) = 0 :=
  (by decide +kernel : ∀ t : Fin grid1.N, _)
theorem idx_col4 : ∀ t : Fin cfg1.N, win1_4.index t (0 : Fin 2) = 0 ∧ win1_4.index t (1 : Fin 2) = 0 :=
  (by decide +kernel : ∀ t : Fin grid1.N, _)
theorem idx_col5 : ∀ t : Fin cfg1.N, win1_5.index t (0 : Fin 2) = 0 ∧ win1_5.index t (1 : Fin 2) = 0 :=
  (by decide +kernel : ∀ t : Fin grid1.N, _)

theorem iblk1_0_apply (c : Dev nD) (t : Fin cfg1.N) (p : Fin 128) (j : Fin 5120) (k : S128x51200.Idx)
    (hk0 : (k 0).val = p.val) (hk1 : (k 1).val = t.val * 5120 + j.val) :
    (iblk1 V c 0 t : Vec Ideal S128x5120 .f32) (ix2 p j) = (V c main_v89_0 : Vec Ideal S128x51200 .f32) k := by
  obtain ⟨e0, e1⟩ := idx_wide0 t
  unfold iblk1
  rw [View.read_apply]
  show V c main_v89_0 _ = V c main_v89_0 _
  congr 1
  funext a
  apply Fin.ext
  match a with
  | ⟨0, _⟩ => show win1_0.index t (0 : Fin 2) * 128 + 1 * p.val = (k 0).val; rw [e0, hk0]; omega
  | ⟨1, _⟩ => show win1_0.index t (1 : Fin 2) * 5120 + 1 * j.val = (k 1).val; rw [e1, hk1]; omega

theorem iblk1_3_apply (c : Dev nD) (t : Fin cfg1.N) (p : Fin 128) (j : Fin 5120) (k : S128x51200.Idx)
    (hk0 : (k 0).val = p.val) (hk1 : (k 1).val = t.val * 5120 + j.val) :
    (iblk1 V c 3 t : Vec Ideal S128x5120 .f32) (ix2 p j) = (V c main_v84 : Vec Ideal S128x51200 .f32) k := by
  obtain ⟨e0, e1⟩ := idx_wide3 t
  unfold iblk1
  rw [View.read_apply]
  show V c main_v84 _ = V c main_v84 _
  congr 1
  funext a
  apply Fin.ext
  match a with
  | ⟨0, _⟩ => show win1_3.index t (0 : Fin 2) * 128 + 1 * p.val = (k 0).val; rw [e0, hk0]; omega
  | ⟨1, _⟩ => show win1_3.index t (1 : Fin 2) * 5120 + 1 * j.val = (k 1).val; rw [e1, hk1]; omega

theorem iblk1_1_apply (c : Dev nD) (t : Fin cfg1.N) (p : Fin 128) :
    (iblk1 V c 1 t : Vec Ideal S128x1 .f32) (ix2 p (0 : Fin 1)) = (V c main_v94 : Vec Ideal S128x1 .f32) (ix2 p (0 : Fin 1)) := by
  obtain ⟨e0, e1⟩ := idx_col1 t
  unfold iblk1
  rw [View.read_apply]
  show V c main_v94 _ = V c main_v94 _
  congr 1
  funext a
  apply Fin.ext
  match a with
  | ⟨0, _⟩ => show win1_1.index t (0 : Fin 2) * 128 + 1 * p.val = p.val; rw [e0]; omega
  | ⟨1, _⟩ => show win1_1.index t (1 : Fin 2) * 1 + 1 * (0 : Fin 1).val = (0 : Fin 1).val; rw [e1]; rfl

theorem iblk1_2_apply (c : Dev nD) (t : Fin cfg1.N) (p : Fin 128) :
    (iblk1 V c 2 t : Vec Ideal S128x1 .f32) (ix2 p (0 : Fin 1)) = (V c main_v109 : Vec Ideal S128x1 .f32) (ix2 p (0 : Fin 1)) := by
  obtain ⟨e0, e1⟩ := idx_col2 t
  unfold iblk1
  rw [View.read_apply]
  show V c main_v109 _ = V c main_v109 _
  congr 1
  funext a
  apply Fin.ext
  match a with
  | ⟨0, _⟩ => show win1_2.index t (0 : Fin 2) * 128 + 1 * p.val = p.val; rw [e0]; omega
  | ⟨1, _⟩ => show win1_2.index t (1 : Fin 2) * 1 + 1 * (0 : Fin 1).val = (0 : Fin 1).val; rw [e1]; rfl

theorem iblk1_4_apply (c : Dev nD) (t : Fin cfg1.N) (p : Fin 128) :
    (iblk1 V c 4 t : Vec Ideal S128x1 .f32) (ix2 p (0 : Fin 1)) = (V c main_v110 : Vec Ideal S128x1 .f32) (ix2 p (0 : Fin 1)) := by
  obtain ⟨e0, e1⟩ := idx_col4 t
  unfold iblk1
  rw [View.read_apply]
  show V c main_v110 _ = V c main_v110 _
  congr 1
  funext a
  apply Fin.ext
  match a with
  | ⟨0, _⟩ => show win1_4.index t (0 : Fin 2) * 128 + 1 * p.val = p.val; rw [e0]; omega
  | ⟨1, _⟩ => show win1_4.index t (1 : Fin 2) * 1 + 1 * (0 : Fin 1).val = (0 : Fin 1).val; rw [e1]; rfl

theorem iblk1_5_apply (c : Dev nD) (t : Fin cfg1.N) (p : Fin 128) :
    (iblk1 V c 5 t : Vec Ideal S128x1 .f32) (ix2 p (0 : Fin 1)) = (V c main_v111 : Vec Ideal S128x1 .f32) (ix2 p (0 : Fin 1)) := by
  obtain ⟨e0, e1⟩ := idx_col5 t
  unfold iblk1
  rw [View.read_apply]
  show V c main_v111 _ = V c main_v111 _
  congr 1
  funext a
  apply Fin.ext
  match a with
  | ⟨0, _⟩ => show win1_5.index t (0 : Fin 2) * 128 + 1 * p.val = p.val; rw [e0]; omega
  | ⟨1, _⟩ => show win1_5.index t (1 : Fin 2) * 1 + 1 * (0 : Fin 1).val = (0 : Fin 1).val; rw [e1]; rfl

abbrev lgOf (c : Dev nD) : Vec Ideal S128x51200 .f32 := V c main_v89_0
abbrev mOf (c : Dev nD) : Vec Ideal S128x1 .f32 := V c main_v94
abbrev lOf (c : Dev nD) : Vec Ideal S128x1 .f32 := V c main_v109
abbrev ptOf (c : Dev nD) : Vec Ideal S128x51200 .f32 := V c main_v84
abbrev p0Of (c : Dev nD) : Vec Ideal S128x1 .f32 := V c main_v110
abbrev p1Of (c : Dev nD) : Vec Ideal S128x1 .f32 := V c main_v111

abbrev rowOf (i : S128x51200.Idx) : Fin 128 := ⟨(i 0).val, (i 0).isLt⟩

def genArr (c : Dev nD) : Vec Ideal S128x51200 .f32 := fun i =>
  Ideal.div (Ideal.exp (lgOf V c i - mOf V c (ix2 (rowOf i) (0 : Fin 1)))) (lOf V c (ix2 (rowOf i) (0 : Fin 1)))

def outArr (c : Dev nD) : Vec Ideal S128x51200 .f32 := fun i =>
  Ideal.log (p0Of V c (ix2 (rowOf i) (0 : Fin 1))
      * Ideal.div (Ideal.exp (lgOf V c i - mOf V c (ix2 (rowOf i) (0 : Fin 1)))) (lOf V c (ix2 (rowOf i) (0 : Fin 1)))
    + p1Of V c (ix2 (rowOf i) (0 : Fin 1)) * ptOf V c i)

theorem genArr_apply (c : Dev nD) (k : S128x51200.Idx) (p : Fin 128) (hk0 : (k 0).val = p.val) :
    genArr V c k = Ideal.div (Ideal.exp (lgOf V c k - mOf V c (ix2 p (0 : Fin 1)))) (lOf V c (ix2 p (0 : Fin 1))) := by
  have e : rowOf k = p := Fin.ext hk0
  unfold genArr
  rw [e]

theorem outArr_apply (c : Dev nD) (k : S128x51200.Idx) (p : Fin 128) (hk0 : (k 0).val = p.val) :
    outArr V c k = Ideal.log (p0Of V c (ix2 p (0 : Fin 1))
        * Ideal.div (Ideal.exp (lgOf V c k - mOf V c (ix2 p (0 : Fin 1)))) (lOf V c (ix2 p (0 : Fin 1)))
      + p1Of V c (ix2 p (0 : Fin 1)) * ptOf V c k) := by
  have e : rowOf k = p := Fin.ext hk0
  unfold outArr
  rw [e]

theorem pay1_at (lg : Vec Ideal S128x51200 .f32) (M L : Vec Ideal S128x1 .f32)
    (y0 : Vec Ideal S128x5120 .f32) (y1 y2 : Vec Ideal S128x1 .f32) (p : Fin 128) (j : Fin 5120) (k : S128x51200.Idx)
    (h0 : y0 (ix2 p j) = lg k) (h1 : y1 (ix2 p (0 : Fin 1)) = M (ix2 p (0 : Fin 1)))
    (h2 : y2 (ix2 p (0 : Fin 1)) = L (ix2 p (0 : Fin 1))) :
    k1_pay1 (F := Ideal) y0 y1 y2 (ix2 p j) = Ideal.div (Ideal.exp (lg k - M (ix2 p (0 : Fin 1)))) (L (ix2 p (0 : Fin 1))) := by
  rw [k1_pay1_apply, h0, h1, h2]

theorem pay2_at (lg pt : Vec Ideal S128x51200 .f32) (M L P0 P1 : Vec Ideal S128x1 .f32)
    (y0 : Vec Ideal S128x5120 .f32) (y1 y2 y4 y5 : Vec Ideal S128x1 .f32) (y3 : Vec Ideal S128x5120 .f32)
    (p : Fin 128) (j : Fin 5120) (k : S128x51200.Idx)
    (h0 : y0 (ix2 p j) = lg k) (h1 : y1 (ix2 p (0 : Fin 1)) = M (ix2 p (0 : Fin 1)))
    (h2 : y2 (ix2 p (0 : Fin 1)) = L (ix2 p (0 : Fin 1))) (h4 : y4 (ix2 p (0 : Fin 1)) = P0 (ix2 p (0 : Fin 1)))
    (h5 : y5 (ix2 p (0 : Fin 1)) = P1 (ix2 p (0 : Fin 1))) (h3 : y3 (ix2 p j) = pt k) :
    k1_pay2 (F := Ideal) y0 y1 y2 y4 y5 y3 (ix2 p j)
      = Ideal.log (P0 (ix2 p (0 : Fin 1)) * Ideal.div (Ideal.exp (lg k - M (ix2 p (0 : Fin 1)))) (L (ix2 p (0 : Fin 1)))
          + P1 (ix2 p (0 : Fin 1)) * pt k) := by
  rw [k1_pay2_apply, h0, h1, h2, h4, h5, h3]

theorem flushed7_eq (c : Dev nD) (t : Fin cfg1.N) :
    (dat1 V c).flushed 7 t = ((cfg1.win 7).blk t).view.read (Elt Ideal) (genArr V c) := by
  show (cfg1.win 7).cut (grid1.coords t) ((dat1 V c).after 7 t) = _
  rw [after1_7]
  funext y
  obtain ⟨p, j, rfl⟩ : ∃ (p : Fin 128) (j : Fin 5120), y = ix2 p j := ⟨y 0, y 1, eq_ix2 y⟩
  rw [View.read_apply]
  obtain ⟨e0, e1⟩ := idx_wide7 t
  have hk0 : ((((cfg1.win 7).blk t).view.emb (ix2 p j) : S128x51200.Idx) 0).val = p.val := by
    show win1_7.index t (0 : Fin 2) * 128 + 1 * p.val = p.val; rw [e0]; omega
  have hk1 : ((((cfg1.win 7).blk t).view.emb (ix2 p j) : S128x51200.Idx) 1).val = t.val * 5120 + j.val := by
    show win1_7.index t (1 : Fin 2) * 5120 + 1 * j.val = t.val * 5120 + j.val; rw [e1]; omega
  show k1_pay1 (F := Ideal) (iblk1 V c 0 t) (iblk1 V c 1 t) (iblk1 V c 2 t) (ix2 p j) = genArr V c (((cfg1.win 7).blk t).view.emb (ix2 p j))
  rw [genArr_apply V c _ p hk0]
  exact pay1_at (lgOf V c) (mOf V c) (lOf V c) (iblk1 V c 0 t) (iblk1 V c 1 t) (iblk1 V c 2 t) p j _
    (iblk1_0_apply V c t p j _ hk0 hk1) (iblk1_1_apply V c t p) (iblk1_2_apply V c t p)

theorem mem_blk7 (t : Fin cfg1.N) (i : S128x51200.Idx) :
    i ∈ ((cfg1.win 7).blk t).view.set ↔ ∀ a : Fin 2, win1_7.index t a * S128x5120.size a ≤ (i a).val ∧ (i a).val < win1_7.index t a * S128x5120.size a + S128x5120.size a := by
  show i ∈ ((View.whole main_v112_1).slice (win1_7.rect t)).set ↔ _
  rw [View.set_slice_whole, Rect.mem_set_unit]
  exact Iff.rfl

theorem cover7 (i : S128x51200.Idx) : ∃ t : Fin cfg1.N, (cfg1.win 7).flush t = true ∧ i ∈ ((cfg1.win 7).blk t).view.set := by
  have hi0 : (i 0).val < 128 := (i 0).isLt
  have hi1 : (i 1).val < 51200 := (i 1).isLt
  have hN : grid1.N = 10 := N_1
  have ht : (i 1).val / 5120 < grid1.N := by rw [hN]; omega
  obtain ⟨e0, e1⟩ := idx_wide7 ⟨(i 1).val / 5120, ht⟩
  refine ⟨⟨(i 1).val / 5120, ht⟩, flush1_7 _, ?_⟩
  rw [mem_blk7]
  intro a
  match a with
  | ⟨0, _⟩ =>
    show win1_7.index ⟨(i 1).val / 5120, ht⟩ (0 : Fin 2) * 128 ≤ (i 0).val
      ∧ (i 0).val < win1_7.index ⟨(i 1).val / 5120, ht⟩ (0 : Fin 2) * 128 + 128
    rw [e0]; omega
  | ⟨1, _⟩ =>
    show win1_7.index ⟨(i 1).val / 5120, ht⟩ (1 : Fin 2) * 5120 ≤ (i 1).val
      ∧ (i 1).val < win1_7.index ⟨(i 1).val / 5120, ht⟩ (1 : Fin 2) * 5120 + 5120
    rw [e1]
    show (i 1).val / 5120 * 5120 ≤ (i 1).val ∧ (i 1).val < (i 1).val / 5120 * 5120 + 5120
    omega

theorem final7 (c : Dev nD) : (dat1 V c).arrAt 7 cfg1.N = genArr V c :=
  (dat1 V c).arrAt_eq_of_cover 7 (genArr V c) (fun t _ => flushed7_eq V c t) cover7

theorem flushed6_eq (c : Dev nD) (t : Fin cfg1.N) :
    (dat1 V c).flushed 6 t = ((cfg1.win 6).blk t).view.read (Elt Ideal) (outArr V c) := by
  show (cfg1.win 6).cut (grid1.coords t) ((dat1 V c).after 6 t) = _
  rw [after1_6]
  funext y
  obtain ⟨p, j, rfl⟩ : ∃ (p : Fin 128) (j : Fin 5120), y = ix2 p j := ⟨y 0, y 1, eq_ix2 y⟩
  rw [View.read_apply]
  obtain ⟨e0, e1⟩ := idx_wide6 t
  have hk0 : ((((cfg1.win 6).blk t).view.emb (ix2 p j) : S128x51200.Idx) 0).val = p.val := by
    show win1_6.index t (0 : Fin 2) * 128 + 1 * p.val = p.val; rw [e0]; omega
  have hk1 : ((((cfg1.win 6).blk t).view.emb (ix2 p j) : S128x51200.Idx) 1).val = t.val * 5120 + j.val := by
    show win1_6.index t (1 : Fin 2) * 5120 + 1 * j.val = t.val * 5120 + j.val; rw [e1]; omega
  show k1_pay2 (F := Ideal) (iblk1 V c 0 t) (iblk1 V c 1 t) (iblk1 V c 2 t) (iblk1 V c 4 t) (iblk1 V c 5 t) (iblk1 V c 3 t) (ix2 p j) = outArr V c (((cfg1.win 6).blk t).view.emb (ix2 p j))
  rw [outArr_apply V c _ p hk0]
  exact pay2_at (lgOf V c) (ptOf V c) (mOf V c) (lOf V c) (p0Of V c) (p1Of V c)
    (iblk1 V c 0 t) (iblk1 V c 1 t) (iblk1 V c 2 t) (iblk1 V c 4 t) (iblk1 V c 5 t) (iblk1 V c 3 t) p j _
    (iblk1_0_apply V c t p j _ hk0 hk1) (iblk1_1_apply V c t p) (iblk1_2_apply V c t p) (iblk1_4_apply V c t p)
    (iblk1_5_apply V c t p) (iblk1_3_apply V c t p j _ hk0 hk1)

theorem mem_blk6 (t : Fin cfg1.N) (i : S128x51200.Idx) :
    i ∈ ((cfg1.win 6).blk t).view.set ↔ ∀ a : Fin 2, win1_6.index t a * S128x5120.size a ≤ (i a).val ∧ (i a).val < win1_6.index t a * S128x5120.size a + S128x5120.size a := by
  show i ∈ ((View.whole main_v112_0).slice (win1_6.rect t)).set ↔ _
  rw [View.set_slice_whole, Rect.mem_set_unit]
  exact Iff.rfl

theorem cover6 (i : S128x51200.Idx) : ∃ t : Fin cfg1.N, (cfg1.win 6).flush t = true ∧ i ∈ ((cfg1.win 6).blk t).view.set := by
  have hi0 : (i 0).val < 128 := (i 0).isLt
  have hi1 : (i 1).val < 51200 := (i 1).isLt
  have hN : grid1.N = 10 := N_1
  have ht : (i 1).val / 5120 < grid1.N := by rw [hN]; omega
  obtain ⟨e0, e1⟩ := idx_wide6 ⟨(i 1).val / 5120, ht⟩
  refine ⟨⟨(i 1).val / 5120, ht⟩, flush1_6 _, ?_⟩
  rw [mem_blk6]
  intro a
  match a with
  | ⟨0, _⟩ =>
    show win1_6.index ⟨(i 1).val / 5120, ht⟩ (0 : Fin 2) * 128 ≤ (i 0).val
      ∧ (i 0).val < win1_6.index ⟨(i 1).val / 5120, ht⟩ (0 : Fin 2) * 128 + 128
    rw [e0]; omega
  | ⟨1, _⟩ =>
    show win1_6.index ⟨(i 1).val / 5120, ht⟩ (1 : Fin 2) * 5120 ≤ (i 1).val
      ∧ (i 1).val < win1_6.index ⟨(i 1).val / 5120, ht⟩ (1 : Fin 2) * 5120 + 5120
    rw [e1]
    show (i 1).val / 5120 * 5120 ≤ (i 1).val ∧ (i 1).val < (i 1).val / 5120 * 5120 + 5120
    omega

theorem final6 (c : Dev nD) : (dat1 V c).arrAt 6 cfg1.N = outArr V c :=
  (dat1 V c).arrAt_eq_of_cover 6 (outArr V c) (fun t _ => flushed6_eq V c t) cover6

end blocks

end Blend

variable (m : (ℓ : Loc nD τ sig) → Buf (Elt Ideal) ℓ) (ρ : Dev nD → PrngReg)

abbrev lgArr (c : Dev nD) : Vec Ideal S128x51200 .f32 := V14 m ρ c main_v89_0
abbrev mArr (c : Dev nD) : Vec Ideal S128x1 .f32 := V14 m ρ c main_v94
abbrev lArr (c : Dev nD) : Vec Ideal S128x1 .f32 := V14 m ρ c main_v109
abbrev ptArr (c : Dev nD) : Vec Ideal S128x51200 .f32 := V14 m ρ c main_v84
abbrev p0Arr (c : Dev nD) : Vec Ideal S128x1 .f32 := V14 m ρ c main_v110
abbrev p1Arr (c : Dev nD) : Vec Ideal S128x1 .f32 := V14 m ρ c main_v111

def genp (c : Dev nD) (p : Fin 128) (q : Fin 51200) : EReal :=
  Ideal.div (Ideal.exp (lgArr m ρ c (ix2 p q) - mArr m ρ c (ix2 p (0 : Fin 1)))) (lArr m ρ c (ix2 p (0 : Fin 1)))

theorem genp_eq (c : Dev nD) (p : Fin 128) (q : Fin 51200) :
    (V15 m ρ c main_v112_1 : Vec Ideal S128x51200 .f32) (ix2 p q) = genp m ρ c p q := by
  have hw : (V15 m ρ c main_v112_1 : Vec Ideal S128x51200 .f32) = (dat1 (V14 m ρ) c).arrAt 7 cfg1.N := W15_arr m ρ c 7
  rw [hw, Blend.final7 (V14 m ρ) c]
  unfold genp
  exact Blend.genArr_apply (V14 m ρ) c (ix2 p q) p rfl

theorem outp_eq (c : Dev nD) (p : Fin 128) (q : Fin 51200) :
    (V15 m ρ c main_v112_0 : Vec Ideal S128x51200 .f32) (ix2 p q)
      = Ideal.log (p0Arr m ρ c (ix2 p (0 : Fin 1)) * genp m ρ c p q + p1Arr m ρ c (ix2 p (0 : Fin 1)) * ptArr m ρ c (ix2 p q)) := by
  have hw : (V15 m ρ c main_v112_0 : Vec Ideal S128x51200 .f32) = (dat1 (V14 m ρ) c).arrAt 6 cfg1.N := W15_arr m ρ c 6
  rw [hw, Blend.final6 (V14 m ρ) c]
  unfold genp
  exact Blend.outArr_apply (V14 m ρ) c (ix2 p q) p rfl

end Cert.KernelIdeal.HandVal

end
-- ==== Proof.Spec.Scatter.lean ====
import proofs.«131213_j77824807403876_2_alg».proof.KernelIdeal
import proofs.«131213_j77824807403876_2_alg».proof.ReferenceIdeal
import Idealize.ShloMosaic.Lib.ValueIdx
import Idealize.ShloMosaic.Lib.Pipeline.Value
import Idealize.ShloMosaic.Lib.StableHlo.Predicate
import Idealize.ShloMosaic.Lib.IdealHost
import Idealize.ShloMosaic.PureOps.Ideal.Laws
import Idealize.ShloMosaic.PureOps.Reduce

noncomputable section

namespace Cert.Spec.Scatter

open Idealize.ShloMosaic

section Fold
variable {α ι κ : Type}

theorem foldl_overwrite_apply (step : (κ → α) → ι → κ → α) (val : ι → α) (i : κ) (p : ι → Bool)
    (hhit : ∀ r n, p n = true → step r n i = val n) (hmiss : ∀ r n, p n = false → step r n i = r i) :
    ∀ (l : List ι) (x : κ → α), (l.foldl step x) i = (((l.filter p).getLast?).map val).getD (x i)
  | [], x => rfl
  | a :: l, x => by
    rw [List.foldl_cons, foldl_overwrite_apply step val i p hhit hmiss l (step x a), List.filter_cons]
    cases ha : p a with
    | true =>
      rw [if_pos rfl, List.getLast?_cons]
      cases (l.filter p).getLast? with
      | none => simp [hhit x a ha]
      | some m => simp
    | false =>
      rw [if_neg (by simp)]
      cases (l.filter p).getLast? with
      | none => simp [hmiss x a ha]
      | some m => simp

theorem getLast?_filter_eq_some {r : ι → ι → Prop} (p : ι → Bool) (n : ι) (hn : p n = true) :
    ∀ (l : List ι), l.Pairwise r → n ∈ l → (∀ m ∈ l, r n m → p m = false) → (l.filter p).getLast? = some n
  | [], _, hmem, _ => absurd hmem List.not_mem_nil
  | a :: l, hl, hmem, hlast => by
    rw [List.pairwise_cons] at hl
    rw [List.filter_cons]
    rcases List.mem_cons.1 hmem with rfl | hmem'
    · have hnil : l.filter p = [] := by
        rw [List.filter_eq_nil_iff]
        intro m hm
        rw [hlast m (List.mem_cons_of_mem _ hm) (hl.1 m hm)]
        simp
      rw [if_pos hn, hnil]; rfl
    · have ih := getLast?_filter_eq_some p n hn l hl.2 hmem' (fun m hm => hlast m (List.mem_cons_of_mem _ hm))
      split
      · rw [List.getLast?_cons, ih]; rfl
      · exact ih

theorem pairwise_lt_finRange (N : Nat) : (List.finRange N).Pairwise (· < ·) := by
  rw [List.pairwise_iff_getElem]
  intro a b ha hb hab
  simp only [List.getElem_finRange, Fin.cast_mk]
  exact hab

theorem getLast?_filter_finRange_eq_some {N : Nat} (p : Fin N → Bool) (n : Fin N) (hn : p n = true)
    (hlast : ∀ m, n < m → p m = false) : ((List.finRange N).filter p).getLast? = some n :=
  getLast?_filter_eq_some p n hn _ (pairwise_lt_finRange N) (List.mem_finRange n) (fun m _ h => hlast m h)

theorem getLast?_filter_eq_none (p : ι → Bool) (l : List ι) (h : ∀ m ∈ l, p m = false) : (l.filter p).getLast? = none := by
  have : l.filter p = [] := by
    rw [List.filter_eq_nil_iff]; intro m hm; rw [h m hm]; simp
  rw [this]; rfl

end Fold

theorem scatter_set_apply {α : Type} {s si u : Shape} {w : Nat} (d : ScatterDims s si u) (x : s.Idx → α) (idx : IVec si w)
    (upd : u.Idx → α) (i : s.Idx) :
    Host.scatter d (fun _ b => b) x idx upd i
      = match ((List.finRange u.numel).filter
            (fun n => decide (d.resultIdx? (u.rowMajor.symm n) idx = some i))).getLast? with
        | some n => upd (u.rowMajor.symm n)
        | none => x i := by
  unfold Host.scatter
  rw [foldl_overwrite_apply _ (fun n => upd (u.rowMajor.symm n)) i
    (fun n => decide (d.resultIdx? (u.rowMajor.symm n) idx = some i))]
  · cases ((List.finRange u.numel).filter
      (fun n => decide (d.resultIdx? (u.rowMajor.symm n) idx = some i))).getLast? <;> rfl
  · intro r n hn
    have h := of_decide_eq_true hn
    simp only [h, ↓reduceIte]
  · intro r n hn
    have h := of_decide_eq_false hn
    cases ht : d.resultIdx? (u.rowMajor.symm n) idx with
    | none => rfl
    | some i₀ =>
      have hne : i ≠ i₀ := fun e => h (by rw [ht, e])
      simp only [if_neg hne]

variable {F : FTy → Type} [FloatOps F]

section Reference
open Cert.ReferenceIdeal Cert.ReferenceIdeal.Facts₀
variable [Cert.ReferenceIdeal.Facts₀]

def refNorm (a8 : (⟨S32000, .i32⟩ : BufTy).Contents (Elt F)) : (⟨S32000, .i32⟩ : BufTy).Contents (Elt F) :=
  select (cmpi .slt a8 (broadcastInDim S32000 ![] bcast_S_S32000 (constantI S_ 32 0#32)))
    (addi a8 (broadcastInDim S32000 ![] bcast_S_S32000 (constantI S_ 32 50000#32))) a8

def refAct0 (a8 : (⟨S32000, .i32⟩ : BufTy).Contents (Elt F)) : (⟨S50000, .f32⟩ : BufTy).Contents (Elt F) :=
  Host.scatter scatter_S50000_S32000x1_S32000_n_0_0_1 (fun _ b => b)
    (broadcastInDim S50000 ![] bcast_S_S50000 (constant S_ .f32 0x00000000#32))
    (broadcastInDim S32000x1 ![0] bcast_S32000_S32000x1_0 (refNorm (F := F) a8))
    (broadcastInDim S32000 ![] bcast_S_S32000 (constant S_ .f32 0x3F800000#32))

def refAct (a8 : (⟨S32000, .i32⟩ : BufTy).Contents (Elt F)) : (⟨S50000, .f32⟩ : BufTy).Contents (Elt F) :=
  Host.scatter scatter_S50000_S1_S__n_0_0_0 (fun _ b => b) (refAct0 (F := F) a8)
    (broadcastInDim S1 ![] bcast_S_S1 (constantI S_ 32 0#32)) (constant S_ .f32 0x00000000#32)

def refPtr (a8 : (⟨S32000, .i32⟩ : BufTy).Contents (Elt F)) (D : (⟨S128x32000, .f32⟩ : BufTy).Contents (Elt F)) :
    (⟨S128x50000, .f32⟩ : BufTy).Contents (Elt F) :=
  Host.scatter scatter_S128x50000_S32000x1_S128x32000_0_1_1_1 (fun _ b => b)
    (broadcastInDim S128x50000 ![] bcast_S_S128x50000 (constant S_ .f32 0x00000000#32))
    (broadcastInDim S32000x1 ![0] bcast_S32000_S32000x1_0 (refNorm (F := F) a8)) D

end Reference

section Kernel
open Cert.KernelIdeal Cert.KernelIdeal.Facts₀
variable [Cert.KernelIdeal.Facts₀]

def kerNorm (a8 : (⟨S32000, .i32⟩ : BufTy).Contents (Elt F)) : (⟨S32000, .i32⟩ : BufTy).Contents (Elt F) :=
  select (cmpi .slt a8 (broadcastInDim S32000 ![] bcast_S_S32000 (constantI S_ 32 0#32)))
    (addi a8 (broadcastInDim S32000 ![] bcast_S_S32000 (constantI S_ 32 51200#32))) a8

def kerInv (a8 : (⟨S32000, .i32⟩ : BufTy).Contents (Elt F)) : (⟨S51200, .i32⟩ : BufTy).Contents (Elt F) :=
  Host.scatter scatter_S51200_S32000x1_S32000_n_0_0_1 (fun _ b => b)
    (broadcastInDim S51200 ![] bcast_S_S51200 (constantI S_ 32 0#32))
    (broadcastInDim S32000x1 ![0] bcast_S32000_S32000x1_0 (kerNorm (F := F) a8))
    (iotaInDim S32000 32 0)

def kerValid (a8 : (⟨S32000, .i32⟩ : BufTy).Contents (Elt F)) : (⟨S51200, .i1⟩ : BufTy).Contents (Elt F) :=
  Host.scatter scatter_S51200_S32000x1_S32000_n_0_0_1 (fun _ b => b)
    (broadcastInDim S51200 ![] bcast_S_S51200 (constantI S_ 1 0#1))
    (broadcastInDim S32000x1 ![0] bcast_S32000_S32000x1_0 (kerNorm (F := F) a8))
    (broadcastInDim S32000 ![] bcast_S_S32000 (constantI S_ 1 1#1))

def kerAct (a8 : (⟨S32000, .i32⟩ : BufTy).Contents (Elt F)) : (⟨S50000, .f32⟩ : BufTy).Contents (Elt F) :=
  select
    (cmpi .eq (iotaInDim S50000 32 0) (broadcastInDim S50000 ![] bcast_S_S50000 (constantI S_ 32 0#32)))
    (broadcastInDim S50000 ![] bcast_S_S50000 (id (constant S_ .f32 0x00000000#32)))
    (uitofp .f32 (extractStridedSlice S50000 ![0] (kerValid (F := F) a8) slices_S51200_S50000_0))

def kerTakeIdx (a8 : (⟨S32000, .i32⟩ : BufTy).Contents (Elt F)) : (⟨S51200x1, .i32⟩ : BufTy).Contents (Elt F) :=
  broadcastInDim S51200x1 ![0] bcast_S51200_S51200x1_0
    (select (cmpi .slt (kerInv (F := F) a8) (broadcastInDim S51200 ![] bcast_S_S51200 (constantI S_ 32 0#32)))
      (addi (kerInv (F := F) a8) (broadcastInDim S51200 ![] bcast_S_S51200 (constantI S_ 32 32000#32)))
      (kerInv (F := F) a8))

def kerTakeOk (a8 : (⟨S32000, .i32⟩ : BufTy).Contents (Elt F)) : (⟨S51200, .i1⟩ : BufTy).Contents (Elt F) :=
  Host.reduce IntOp.andi
    (andi
      (cmpi .sge (kerTakeIdx (F := F) a8) (broadcastInDim S51200x1 ![] bcast_S_S51200x1 (constantI S_ 32 0#32)))
      (cmpi .sle (kerTakeIdx (F := F) a8)
        (broadcastInDim S51200x1 ![0, 1] bcast_S1x1_S51200x1_0_1
          (broadcastInDim S1x1 ![1] bcast_S1_S1x1_1 (constantI S1 32 31999#32)))))
    (constantI S_ 1 1#1) reducesTo_S51200x1_S51200_d1 h_S_

def kerTake (a8 : (⟨S32000, .i32⟩ : BufTy).Contents (Elt F)) (D : (⟨S128x32000, .f32⟩ : BufTy).Contents (Elt F)) :
    (⟨S128x51200, .f32⟩ : BufTy).Contents (Elt F) :=
  select (broadcastInDim S128x51200 ![1] bcast_S51200_S128x51200_1 (kerTakeOk (F := F) a8))
    (Host.gather gather_S128x32000_S51200x1_S128x51200_0_1_n_n_1_1_1281 D (kerTakeIdx (F := F) a8))
    (broadcastInDim S128x51200 ![] bcast_S_S128x51200 (constant S_ .f32 0x7FC00000#32))

def kerPtr (a8 : (⟨S32000, .i32⟩ : BufTy).Contents (Elt F)) (D : (⟨S128x32000, .f32⟩ : BufTy).Contents (Elt F)) :
    (⟨S128x51200, .f32⟩ : BufTy).Contents (Elt F) :=
  select
    (broadcastInDim S128x51200 ![0, 1] bcast_S1x51200_S128x51200_0_1
      (broadcastInDim S1x51200 ![1] bcast_S51200_S1x51200_1 (kerValid (F := F) a8)))
    (kerTake (F := F) a8 D)
    (broadcastInDim S128x51200 ![] bcast_S_S128x51200 (id (constant S_ .f32 0x00000000#32)))

end Kernel

open Idealize.ShloMosaic.ValueIdx

abbrev setDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem setDims_resultIdx? {N M w : Nat} (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (setDims N M wf).resultIdx? j idx = some i ↔ (idx (ix2 (j 0) (0 : Fin 1))).toInt = ((i 0).val : Int) := by
  have hstart : ∀ a, (setDims N M wf).start j idx a = (idx (ix2 (j 0) (0 : Fin 1))).toInt := by
    intro a
    obtain rfl : a = 0 := Subsingleton.elim _ _
    unfold ScatterDims.start
    rw [dif_pos (show (0 : Fin 1) ∈ (setDims N M wf).scatterDimsToOperandDims from List.mem_singleton.mpr rfl)]
    have hsi : (setDims N M wf).siIdx j ⟨List.idxOf (0 : Fin 1) (setDims N M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin : ∀ a, (setDims N M wf).window j a = 0 := by
    intro a
    obtain rfl : a = 0 := Subsingleton.elim _ _
    unfold ScatterDims.window
    rw [dif_neg (by simp [Shape.kept])]
  unfold ScatterDims.resultIdx?
  simp only [hstart, hwin, Nat.cast_zero, add_zero]
  constructor
  · intro h
    split at h
    · next hb =>
      have := congrFun (Option.some.inj h) 0
      have hv := congrArg Fin.val this
      simp only at hv
      have := (hb 0).1
      omega
    · exact absurd h (by simp)
  · intro h
    have hb : ∀ a : Fin 1, 0 ≤ (idx (ix2 (j 0) (0 : Fin 1))).toInt ∧ (idx (ix2 (j 0) (0 : Fin 1))).toInt < ((⟨1, ![N]⟩ : Shape).size a : Int) := by
      intro a
      obtain rfl : a = 0 := Subsingleton.elim _ _
      have := (i 0).isLt
      constructor
      · omega
      · show _ < ((N : Nat) : Int)
        change (i 0).val < N at this
        omega
    rw [dif_pos hb]
    congr 1
    funext a
    obtain rfl : a = 0 := Subsingleton.elim _ _
    refine Fin.ext ?_
    show (idx (ix2 (j 0) (0 : Fin 1))).toInt.toNat = (i 0).val
    omega

abbrev colDims (R N M : Nat) (wf : ScatterDims.WF ⟨2, ![R, N]⟩ ⟨2, ![M, 1]⟩ ⟨2, ![R, M]⟩ [0] [1] [1] 1) :
    ScatterDims ⟨2, ![R, N]⟩ ⟨2, ![M, 1]⟩ ⟨2, ![R, M]⟩ where
  updateWindowDims := [0]
  insertedWindowDims := [1]
  scatterDimsToOperandDims := [1]
  indexVectorDim := 1
  wf := wf

theorem colDims_resultIdx? {R N M w : Nat} (wf : ScatterDims.WF ⟨2, ![R, N]⟩ ⟨2, ![M, 1]⟩ ⟨2, ![R, M]⟩ [0] [1] [1] 1)
    (j : (⟨2, ![R, M]⟩ : Shape).Idx) (idx : IVec ⟨2, ![M, 1]⟩ w) (i : (⟨2, ![R, N]⟩ : Shape).Idx) :
    (colDims R N M wf).resultIdx? j idx = some i
      ↔ (j 0).val = (i 0).val ∧ (idx (ix2 (j 1) (0 : Fin 1))).toInt = ((i 1).val : Int) := by
  have hstart0 : (colDims R N M wf).start j idx 0 = 0 := by
    unfold ScatterDims.start
    rw [dif_neg (by simp)]
  have hstart1 : (colDims R N M wf).start j idx 1 = (idx (ix2 (j 1) (0 : Fin 1))).toInt := by
    unfold ScatterDims.start
    rw [dif_pos (show (1 : Fin 2) ∈ (colDims R N M wf).scatterDimsToOperandDims from List.mem_singleton.mpr rfl)]
    have hsi : (colDims R N M wf).siIdx j ⟨List.idxOf (1 : Fin 2) (colDims R N M wf).scatterDimsToOperandDims,
        List.idxOf_lt_length_iff.2 (List.mem_singleton.mpr rfl)⟩ = ix2 (j 1) (0 : Fin 1) := by
      funext b; refine Fin.ext ?_
      match b with
      | ⟨0, _⟩ => rfl
      | ⟨1, _⟩ => rfl
    rw [hsi]
    rfl
  have hwin0 : (colDims R N M wf).window j 0 = (j 0).val := by
    unfold ScatterDims.window
    rw [dif_pos (show (0 : Fin 2) ∈ (colDims R N M wf).sKept by simp [Shape.kept])]
    rfl
  have hwin1 : (colDims R N M wf).window j 1 = 0 := by
    unfold ScatterDims.window
    rw [dif_neg (by simp [Shape.kept])]
  have hall : ∀ P : Fin 2 → Prop, (∀ a, P a) ↔ P 0 ∧ P 1 := fun P =>
    ⟨fun h => ⟨h 0, h 1⟩, fun h a => match a with | ⟨0, _⟩ => h.1 | ⟨1, _⟩ => h.2⟩
  unfold ScatterDims.resultIdx?
  constructor
  · intro h
    split at h
    · next hb =>
      have e := Option.some.inj h
      have e0 := congrArg Fin.val (congrFun e 0)
      have e1 := congrArg Fin.val (congrFun e 1)
      simp only [hstart0, hstart1, hwin0, hwin1] at e0 e1
      have b1 := (hb 1).1
      rw [hstart1, hwin1] at b1
      constructor
      · omega
      · omega
    · exact absurd h (by simp)
  · rintro ⟨h0, h1⟩
    have hi0 : (i 0).val < R := (i 0).isLt
    have hi1 : (i 1).val < N := (i 1).isLt
    have hb : ∀ a : Fin 2, 0 ≤ (colDims R N M wf).start j idx a + ((colDims R N M wf).window j a : Int)
        ∧ (colDims R N M wf).start j idx a + ((colDims R N M wf).window j a : Int) < ((⟨2, ![R, N]⟩ : Shape).size a : Int) := by
      rw [hall]
      rw [hstart0, hstart1, hwin0, hwin1]
      refine ⟨⟨by omega, ?_⟩, ⟨by omega, ?_⟩⟩
      · show (0 : Int) + ((j 0).val : Int) < ((R : Nat) : Int)
        omega
      · show _ + ((0 : Nat) : Int) < ((N : Nat) : Int)
        omega
    rw [dif_pos hb]
    congr 1
    funext a
    refine Fin.ext ?_
    match a with
    | ⟨0, _⟩ =>
      show ((colDims R N M wf).start j idx 0 + ((colDims R N M wf).window j 0 : Int)).toNat = (i 0).val
      rw [hstart0, hwin0]; omega
    | ⟨1, _⟩ =>
      show ((colDims R N M wf).start j idx 1 + ((colDims R N M wf).window j 1 : Int)).toNat = (i 1).val
      rw [hstart1, hwin1]; omega

abbrev pointDims (N : Nat) (wf : ScatterDims.WF ⟨1, ![N]⟩ ⟨1, ![1]⟩ ⟨0, ![]⟩ [] [0] [0] 0) :
    ScatterDims ⟨1, ![N]⟩ ⟨1, ![1]⟩ ⟨0, ![]⟩ where
  updateWindowDims := []
  insertedWindowDims := [0]
  scatterDimsToOperandDims := [0]
  indexVectorDim := 0
  wf := wf

theorem pointDims_resultIdx? {N w : Nat} (wf : ScatterDims.WF ⟨1, ![N]⟩ ⟨1, ![1]⟩ ⟨0, ![]⟩ [] [0] [0] 0)
    (j : (⟨0, ![]⟩ : Shape).Idx) (idx : IVec ⟨1, ![1]⟩ w) (i : (⟨1, ![N]⟩ : Shape).Idx) :
    (pointDims N wf).resultIdx? j idx = some i ↔ (idx (ix1 (0 : Fin 1))).toInt = ((i 0).val : Int) := by
  have hstart : ∀ a, (pointDims N wf).start j idx a = (idx (ix1 (0 : Fin 1))).toInt := by
    intro a
    obtain rfl : a = 0 := Subsingleton.elim _ _
    unfold ScatterDims.start
    rw [dif_pos (show (0 : Fin 1) ∈ (pointDims N wf).scatterDimsToOperandDims from List.mem_singleton.mpr rfl)]
    have hsi : (pointDims N wf).siIdx j ⟨List.idxOf (0 : Fin 1) (pointDims N wf).scatterDimsToOperandDims,
        List.idxOf_lt_length_iff.2 (List.mem_singleton.mpr rfl)⟩ = ix1 (0 : Fin 1) := by
      funext b; refine Fin.ext ?_
      match b with
      | ⟨0, _⟩ => rfl
    rw [hsi]
  have hwin : ∀ a, (pointDims N wf).window j a = 0 := by
    intro a
    obtain rfl : a = 0 := Subsingleton.elim _ _
    unfold ScatterDims.window
    rw [dif_neg (by simp [Shape.kept])]
  unfold ScatterDims.resultIdx?
  simp only [hstart, hwin, Nat.cast_zero, add_zero]
  constructor
  · intro h
    split at h
    · next hb =>
      have := congrFun (Option.some.inj h) 0
      have hv := congrArg Fin.val this
      simp only at hv
      have := (hb 0).1
      omega
    · exact absurd h (by simp)
  · intro h
    have hb : ∀ a : Fin 1, 0 ≤ (idx (ix1 (0 : Fin 1))).toInt ∧ (idx (ix1 (0 : Fin 1))).toInt < ((⟨1, ![N]⟩ : Shape).size a : Int) := by
      intro a
      obtain rfl : a = 0 := Subsingleton.elim _ _
      have := (i 0).isLt
      constructor
      · omega
      · show _ < ((N : Nat) : Int)
        change (i 0).val < N at this
        omega
    rw [dif_pos hb]
    congr 1
    funext a
    obtain rfl : a = 0 := Subsingleton.elim _ _
    refine Fin.ext ?_
    show (idx (ix1 (0 : Fin 1))).toInt.toNat = (i 0).val
    omega

section Cases
variable {α : Type} {s si u : Shape} {w : Nat} (d : ScatterDims s si u) (x : s.Idx → α) (idx : IVec si w)
  (upd : u.Idx → α) (i : s.Idx)

theorem scatter_set_no_hit (h : ∀ j : u.Idx, d.resultIdx? j idx ≠ some i) :
    Host.scatter d (fun _ b => b) x idx upd i = x i := by
  rw [scatter_set_apply, getLast?_filter_eq_none]
  intro m _
  exact decide_eq_false (h _)

theorem scatter_set_last (j : u.Idx) (hj : d.resultIdx? j idx = some i)
    (hlast : ∀ j' : u.Idx, u.rowMajor j < u.rowMajor j' → d.resultIdx? j' idx ≠ some i) :
    Host.scatter d (fun _ b => b) x idx upd i = upd j := by
  rw [scatter_set_apply, getLast?_filter_finRange_eq_some _ (u.rowMajor j)]
  · show upd (u.rowMajor.symm (u.rowMajor j)) = upd j
    rw [Equiv.symm_apply_apply]
  · rw [Equiv.symm_apply_apply]
    exact decide_eq_true hj
  · intro m hm
    refine decide_eq_false (hlast (u.rowMajor.symm m) ?_)
    rw [Equiv.apply_symm_apply]
    exact hm

theorem scatter_set_hit_const (c : α) (hc : ∀ j, upd j = c) (j : u.Idx) (hj : d.resultIdx? j idx = some i) :
    Host.scatter d (fun _ b => b) x idx upd i = c := by
  rw [scatter_set_apply]
  cases h : ((List.finRange u.numel).filter
      (fun n => decide (d.resultIdx? (u.rowMajor.symm n) idx = some i))).getLast? with
  | some n => exact hc _
  | none =>
    exfalso
    rw [List.getLast?_eq_none_iff, List.filter_eq_nil_iff] at h
    have := h (u.rowMajor j) (List.mem_finRange _)
    rw [Equiv.symm_apply_apply] at this
    exact this (decide_eq_true hj)

end Cases

theorem slt_zero_of_nonneg {a : BitVec 32} (h : 0 ≤ a.toInt) : IntOp.cmpi .slt a 0#32 = 0#1 := by
  have h0 : (0#32 : BitVec 32).toInt = 0 := by decide
  have : a.slt 0#32 = false := by
    simp only [BitVec.slt, h0, decide_eq_false_iff_not]; omega
  simp only [IntOp.cmpi, this]; rfl

theorem norm_id {s : Shape} (h : (⟨0, ![]⟩ : Shape).BroadcastsInDim s ![]) (N : BitVec 32) (a8 : IVec s 32)
    (hpos : ∀ j, 0 ≤ (a8 j).toInt) :
    select (cmpi .slt a8 (broadcastInDim s ![] h (constantI ⟨0, ![]⟩ 32 0#32)))
      (addi a8 (broadcastInDim s ![] h (constantI ⟨0, ![]⟩ 32 N))) a8 = a8 := by
  funext j
  show Scalar.select (IntOp.cmpi .slt (a8 j) 0#32) _ _ = _
  rw [slt_zero_of_nonneg (hpos j)]
  exact select_zero _ _

theorem bcast_col_apply {α : Type} {M : Nat} (h : (⟨1, ![M]⟩ : Shape).BroadcastsInDim ⟨2, ![M, 1]⟩ ![0])
    (v : (⟨1, ![M]⟩ : Shape).Idx → α) (p : Fin M) :
    broadcastInDim ⟨2, ![M, 1]⟩ ![0] h v (ix2 p (0 : Fin 1)) = v (ix1 p) := by
  refine broadcastInDim_apply _ h v _ _ (fun a => ?_)
  obtain rfl : a = 0 := Subsingleton.elim _ _
  show p.val = if M = 1 then 0 else p.val
  split
  · have := p.isLt; omega
  · rfl

section SetAt
variable {α : Type} {N M : Nat} (wf : ScatterDims.WF ⟨1, ![N]⟩ ⟨2, ![M, 1]⟩ ⟨1, ![M]⟩ [] [0] [0] 1)
  (hb : (⟨1, ![M]⟩ : Shape).BroadcastsInDim ⟨2, ![M, 1]⟩ ![0])
  (x : (⟨1, ![N]⟩ : Shape).Idx → α) (t : IVec ⟨1, ![M]⟩ 32) (upd : (⟨1, ![M]⟩ : Shape).Idx → α) (v : Fin N)

theorem setAt_hit_iff (jj : (⟨1, ![M]⟩ : Shape).Idx) :
    (setDims N M wf).resultIdx? jj (broadcastInDim ⟨2, ![M, 1]⟩ ![0] hb t) = some (ix1 v)
      ↔ (t (ix1 (jj 0))).toInt = (v.val : Int) :=
  (setDims_resultIdx? wf jj _ (ix1 v)).trans
    (iff_of_eq (congrArg (fun z : BitVec 32 => z.toInt = (v.val : Int)) (bcast_col_apply hb t (jj 0))))

theorem setAt_no_hit (h : ∀ j : Fin M, (t (ix1 j)).toInt ≠ (v.val : Int)) :
    Host.scatter (setDims N M wf) (fun _ b => b) x (broadcastInDim ⟨2, ![M, 1]⟩ ![0] hb t) upd (ix1 v) = x (ix1 v) :=
  scatter_set_no_hit _ _ _ _ _ fun jj hjj => h (jj 0) ((setAt_hit_iff wf hb t v jj).1 hjj)

theorem setAt_hit_const (c : α) (hc : ∀ j, upd j = c) (j : Fin M) (hj : (t (ix1 j)).toInt = (v.val : Int)) :
    Host.scatter (setDims N M wf) (fun _ b => b) x (broadcastInDim ⟨2, ![M, 1]⟩ ![0] hb t) upd (ix1 v) = c :=
  scatter_set_hit_const _ _ _ _ _ c hc (ix1 j) ((setAt_hit_iff wf hb t v (ix1 j)).2 hj)

theorem setAt_last (j : Fin M) (hj : (t (ix1 j)).toInt = (v.val : Int))
    (hlast : ∀ j' : Fin M, j < j' → (t (ix1 j')).toInt ≠ (v.val : Int)) :
    Host.scatter (setDims N M wf) (fun _ b => b) x (broadcastInDim ⟨2, ![M, 1]⟩ ![0] hb t) upd (ix1 v) = upd (ix1 j) := by
  refine scatter_set_last _ _ _ _ _ (ix1 j) ((setAt_hit_iff wf hb t v (ix1 j)).2 hj) fun jj hlt hjj => ?_
  refine hlast (jj 0) ?_ ((setAt_hit_iff wf hb t v jj).1 hjj)
  rw [Fin.lt_def, Shape.rowMajor_val_one, Shape.rowMajor_val_one] at hlt
  exact hlt

end SetAt

section SetCols
variable {α : Type} {R N M : Nat} (wf : ScatterDims.WF ⟨2, ![R, N]⟩ ⟨2, ![M, 1]⟩ ⟨2, ![R, M]⟩ [0] [1] [1] 1)
  (hb : (⟨1, ![M]⟩ : Shape).BroadcastsInDim ⟨2, ![M, 1]⟩ ![0])
  (x : (⟨2, ![R, N]⟩ : Shape).Idx → α) (t : IVec ⟨1, ![M]⟩ 32) (upd : (⟨2, ![R, M]⟩ : Shape).Idx → α) (p : Fin R) (v : Fin N)

theorem setCols_hit_iff (jj : (⟨2, ![R, M]⟩ : Shape).Idx) :
    (colDims R N M wf).resultIdx? jj (broadcastInDim ⟨2, ![M, 1]⟩ ![0] hb t) = some (ix2 p v)
      ↔ (jj 0).val = p.val ∧ (t (ix1 (jj 1))).toInt = (v.val : Int) :=
  (colDims_resultIdx? wf jj _ (ix2 p v)).trans
    (iff_of_eq (congrArg (fun z : BitVec 32 => (jj 0).val = p.val ∧ z.toInt = (v.val : Int)) (bcast_col_apply hb t (jj 1))))

theorem setCols_no_hit (h : ∀ j : Fin M, (t (ix1 j)).toInt ≠ (v.val : Int)) :
    Host.scatter (colDims R N M wf) (fun _ b => b) x (broadcastInDim ⟨2, ![M, 1]⟩ ![0] hb t) upd (ix2 p v) = x (ix2 p v) :=
  scatter_set_no_hit _ _ _ _ _ fun jj hjj => h (jj 1) ((setCols_hit_iff wf hb t p v jj).1 hjj).2

theorem setCols_last (j : Fin M) (hj : (t (ix1 j)).toInt = (v.val : Int))
    (hlast : ∀ j' : Fin M, j < j' → (t (ix1 j')).toInt ≠ (v.val : Int)) :
    Host.scatter (colDims R N M wf) (fun _ b => b) x (broadcastInDim ⟨2, ![M, 1]⟩ ![0] hb t) upd (ix2 p v) = upd (ix2 p j) := by
  refine scatter_set_last _ _ _ _ _ (ix2 p j) ((setCols_hit_iff wf hb t p v (ix2 p j)).2 ⟨rfl, hj⟩) fun jj hlt hjj => ?_
  obtain ⟨h0, h1⟩ := (setCols_hit_iff wf hb t p v jj).1 hjj
  refine hlast (jj 1) ?_ h1
  rw [Fin.lt_def, Shape.rowMajor_val_two, Shape.rowMajor_val_two] at hlt
  have e0 : ((ix2 p j : (⟨2, ![R, M]⟩ : Shape).Idx) 0).val = p.val := rfl
  have e1 : ((ix2 p j : (⟨2, ![R, M]⟩ : Shape).Idx) 1).val = j.val := rfl
  rw [e0, e1, h0] at hlt
  show j.val < (jj 1).val
  omega

end SetCols

theorem setPoint_apply {α : Type} {N : Nat} (wf : ScatterDims.WF ⟨1, ![N]⟩ ⟨1, ![1]⟩ ⟨0, ![]⟩ [] [0] [0] 0)
    (x : (⟨1, ![N]⟩ : Shape).Idx → α) (k : IVec ⟨1, ![1]⟩ 32) (c : (⟨0, ![]⟩ : Shape).Idx → α) (v : Fin N) :
    Host.scatter (pointDims N wf) (fun _ b => b) x k c (ix1 v)
      = if (k (ix1 (0 : Fin 1))).toInt = (v.val : Int) then c ix0 else x (ix1 v) := by
  split
  · next h =>
    exact scatter_set_hit_const _ _ _ _ _ (c ix0) (fun j => by rw [eq_ix0 j]) ix0 ((pointDims_resultIdx? wf ix0 k (ix1 v)).2 h)
  · next h =>
    exact scatter_set_no_hit _ _ _ _ _ fun jj hjj => h ((pointDims_resultIdx? wf jj k (ix1 v)).1 hjj)

abbrev takeColsDims (R N M : Nat) (wf : GatherDims.WF ⟨2, ![R, N]⟩ ⟨2, ![M, 1]⟩ ⟨2, ![R, M]⟩ [0] [1] [] [1] [] 1 ![R, 1]) :
    GatherDims ⟨2, ![R, N]⟩ ⟨2, ![M, 1]⟩ ⟨2, ![R, M]⟩ where
  offsetDims := [0]
  collapsedSliceDims := [1]
  operandBatchingDims := []
  startIndicesBatchingDims := []
  startIndexMap := [1]
  indexVectorDim := 1
  sliceSizes := ![R, 1]
  wf := wf

theorem takeCols_apply {α : Type} {R N M w : Nat} (hN : 0 < N)
    (wf : GatherDims.WF ⟨2, ![R, N]⟩ ⟨2, ![M, 1]⟩ ⟨2, ![R, M]⟩ [0] [1] [] [1] [] 1 ![R, 1])
    (x : (⟨2, ![R, N]⟩ : Shape).Idx → α) (idx : IVec ⟨2, ![M, 1]⟩ w) (p : Fin R) (q : Fin M) :
    Host.gather (takeColsDims R N M wf) x idx (ix2 p q)
      = x (ix2 p ⟨min (idx (ix2 q (0 : Fin 1))).toInt.toNat (N - 1), by omega⟩) := by
  unfold Host.gather
  congr 1
  funext a
  refine Fin.ext ?_
  match a with
  | ⟨0, _⟩ =>
    show (takeColsDims R N M wf).start (ix2 p q) idx 0 + (takeColsDims R N M wf).batchCoord (ix2 p q) 0
      + (takeColsDims R N M wf).offCoord (ix2 p q) 0 = p.val
    rw [GatherDims.batchCoord_eq_zero _ _ _ List.not_mem_nil]
    unfold GatherDims.start GatherDims.offCoord
    rw [dif_neg (by simp), dif_pos (by simp [Shape.kept])]
    simp only [Nat.zero_add, Nat.add_zero]
    rfl
  | ⟨1, _⟩ =>
    show (takeColsDims R N M wf).start (ix2 p q) idx 1 + (takeColsDims R N M wf).batchCoord (ix2 p q) 1
      + (takeColsDims R N M wf).offCoord (ix2 p q) 1 = min (idx (ix2 q (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeColsDims R N M wf).startIndexMap from List.mem_singleton.mpr rfl)]
    have hsi : (takeColsDims R N M wf).siIdx (ix2 p q) ⟨List.idxOf (1 : Fin 2) (takeColsDims R N M wf).startIndexMap,
        List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl

theorem bcast_cols_apply {α : Type} {R M : Nat} (h₁ : (⟨1, ![M]⟩ : Shape).BroadcastsInDim ⟨2, ![1, M]⟩ ![1])
    (h₂ : (⟨2, ![1, M]⟩ : Shape).BroadcastsInDim ⟨2, ![R, M]⟩ ![0, 1]) (v : (⟨1, ![M]⟩ : Shape).Idx → α)
    (p : Fin R) (q : Fin M) :
    broadcastInDim ⟨2, ![R, M]⟩ ![0, 1] h₂ (broadcastInDim ⟨2, ![1, M]⟩ ![1] h₁ v) (ix2 p q) = v (ix1 q) := by
  refine (broadcastInDim_apply _ h₂ _ (ix2 p q) (ix2 (0 : Fin 1) q) (fun a => ?_)).trans
    (broadcastInDim_apply _ h₁ v _ (ix1 q) (fun a => ?_))
  · match a with
    | ⟨0, _⟩ => rfl
    | ⟨1, _⟩ =>
      show q.val = if M = 1 then 0 else q.val
      split
      · have := q.isLt; omega
      · rfl
  · obtain rfl : a = 0 := Subsingleton.elim _ _
    show q.val = if M = 1 then 0 else q.val
    split
    · have := q.isLt; omega
    · rfl

theorem bcast_row_apply {α : Type} {R M : Nat} (h : (⟨1, ![M]⟩ : Shape).BroadcastsInDim ⟨2, ![R, M]⟩ ![1])
    (v : (⟨1, ![M]⟩ : Shape).Idx → α) (p : Fin R) (q : Fin M) :
    broadcastInDim ⟨2, ![R, M]⟩ ![1] h v (ix2 p q) = v (ix1 q) := by
  refine broadcastInDim_apply _ h v _ (ix1 q) (fun a => ?_)
  obtain rfl : a = 0 := Subsingleton.elim _ _
  show q.val = if M = 1 then 0 else q.val
  split
  · have := q.isLt; omega
  · rfl

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

theorem reduce_andi_col_eq_one {M : Nat} {u : Shape} (h : (⟨2, ![M, 1]⟩ : Shape).ReducesTo [1] ⟨1, ![M]⟩) (hu : 0 < u.numel)
    (x : IVec ⟨2, ![M, 1]⟩ 1) (init : u.Idx → BitVec 1) (hinit : init (Shape.Idx.first hu) = 1#1) (q : Fin M)
    (hx : x (ix2 q (0 : Fin 1)) = 1#1) :
    Host.reduce IntOp.andi x init h hu (ix1 q) = 1#1 := by
  rw [Host.reduce_eq_foldl, hinit]
  refine foldl_andi_one x _ fun i hi => ?_
  rw [List.mem_filter] at hi
  have hd : h.drop i = ix1 q := of_decide_eq_true hi.2
  have h0 : (i 0).val = q.val := by
    have e : ((h.drop i) 0 : Nat) = (i 0).val := rfl
    rw [← e, hd]
    rfl
  have h1 : (i 1).val = 0 := by have := (i 1).isLt; change (i 1).val < 1 at this; omega
  have hi' : i = ix2 q (0 : Fin 1) := Shape.idx_ext₂ h0 h1
  rw [hi', hx]

section Readings
variable {F : FTy → Type} [FloatOps F]

section Ref
variable [Cert.ReferenceIdeal.Facts₀] (a8 : IVec ⟨1, ![32000]⟩ 32) (hpos : ∀ j, 0 ≤ (a8 j).toInt)
include hpos

theorem refNorm_id : refNorm (F := F) a8 = a8 := norm_id _ _ a8 hpos

theorem refAct0_hit (v : Fin 50000) (j : Fin 32000) (hj : (a8 (ix1 j)).toInt = (v.val : Int)) :
    refAct0 (F := F) a8 (ix1 v) = FloatOps.ofBits .f32 0x3F800000#32 := by
  unfold refAct0
  rw [refNorm_id a8 hpos]
  exact setAt_hit_const _ _ _ a8 _ v _ (fun _ => rfl) j hj

theorem refAct0_no_hit (v : Fin 50000) (h : ∀ j : Fin 32000, (a8 (ix1 j)).toInt ≠ (v.val : Int)) :
    refAct0 (F := F) a8 (ix1 v) = FloatOps.ofBits .f32 0x00000000#32 := by
  unfold refAct0
  rw [refNorm_id a8 hpos]
  exact setAt_no_hit _ _ _ a8 _ v h

theorem refPtr_last (D : (⟨2, ![128, 32000]⟩ : Shape).Idx → F .f32) (p : Fin 128) (v : Fin 50000) (j : Fin 32000)
    (hj : (a8 (ix1 j)).toInt = (v.val : Int)) (hlast : ∀ j' : Fin 32000, j < j' → (a8 (ix1 j')).toInt ≠ (v.val : Int)) :
    refPtr (F := F) a8 D (ix2 p v) = D (ix2 p j) := by
  unfold refPtr
  rw [refNorm_id a8 hpos]
  exact setCols_last _ _ _ a8 D p v j hj hlast

theorem refPtr_no_hit (D : (⟨2, ![128, 32000]⟩ : Shape).Idx → F .f32) (p : Fin 128) (v : Fin 50000)
    (h : ∀ j : Fin 32000, (a8 (ix1 j)).toInt ≠ (v.val : Int)) :
    refPtr (F := F) a8 D (ix2 p v) = FloatOps.ofBits .f32 0x00000000#32 := by
  unfold refPtr
  rw [refNorm_id a8 hpos]
  exact setCols_no_hit _ _ _ a8 D p v h

omit hpos in

theorem refAct_apply (v : Fin 50000) :
    refAct (F := F) a8 (ix1 v)
      = if v.val = 0 then FloatOps.ofBits .f32 0x00000000#32 else refAct0 (F := F) a8 (ix1 v) := by
  unfold refAct
  refine (setPoint_apply _ _ _ _ v).trans ?_
  have hk : (0#32 : BitVec 32).toInt = 0 := by decide
  by_cases hv : v.val = 0
  · rw [if_pos hv, if_pos (by show (0#32 : BitVec 32).toInt = (v.val : Int); rw [hk, hv]; rfl)]
    rfl
  · rw [if_neg hv, if_neg (by show ¬ (0#32 : BitVec 32).toInt = (v.val : Int); rw [hk]; omega)]

end Ref

section Ker
variable [Cert.KernelIdeal.Facts₀] (a8 : IVec ⟨1, ![32000]⟩ 32) (hpos : ∀ j, 0 ≤ (a8 j).toInt)
include hpos

theorem kerNorm_id : kerNorm (F := F) a8 = a8 := norm_id _ _ a8 hpos

theorem kerValid_hit (v : Fin 51200) (j : Fin 32000) (hj : (a8 (ix1 j)).toInt = (v.val : Int)) :
    kerValid (F := F) a8 (ix1 v) = 1#1 := by
  unfold kerValid
  rw [kerNorm_id a8 hpos]
  exact setAt_hit_const _ _ _ a8 _ v _ (fun _ => rfl) j hj

theorem kerValid_no_hit (v : Fin 51200) (h : ∀ j : Fin 32000, (a8 (ix1 j)).toInt ≠ (v.val : Int)) :
    kerValid (F := F) a8 (ix1 v) = 0#1 := by
  unfold kerValid
  rw [kerNorm_id a8 hpos]
  exact setAt_no_hit _ _ _ a8 _ v h

theorem kerInv_last (v : Fin 51200) (j : Fin 32000) (hj : (a8 (ix1 j)).toInt = (v.val : Int))
    (hlast : ∀ j' : Fin 32000, j < j' → (a8 (ix1 j')).toInt ≠ (v.val : Int)) :
    kerInv (F := F) a8 (ix1 v) = BitVec.ofNat 32 j.val := by
  unfold kerInv
  rw [kerNorm_id a8 hpos]
  exact setAt_last _ _ _ a8 _ v j hj hlast

end Ker

end Readings

section Agree
variable [Cert.ReferenceIdeal.Facts₀] [Cert.KernelIdeal.Facts₀]

theorem exists_last {M : Nat} (P : Fin M → Prop) (h : ∃ j, P j) : ∃ j, P j ∧ ∀ j', j < j' → ¬ P j' := by
  classical
  obtain ⟨j, hj, hmax⟩ := Finset.exists_max_image (Finset.univ.filter P) id
    (by obtain ⟨j, hj⟩ := h; exact ⟨j, Finset.mem_filter.2 ⟨Finset.mem_univ _, hj⟩⟩)
  refine ⟨j, (Finset.mem_filter.1 hj).2, fun j' hlt hP => ?_⟩
  have := hmax j' (Finset.mem_filter.2 ⟨Finset.mem_univ _, hP⟩)
  exact absurd hlt (not_lt.2 this)

theorem kerAct_apply {F : FTy → Type} [FloatOps F] (a8 : IVec ⟨1, ![32000]⟩ 32) (v : Fin 50000) :
    kerAct (F := F) a8 (ix1 v)
      = Scalar.select (IntOp.cmpi .eq (BitVec.ofNat 32 v.val) 0#32) (FloatOps.ofBits .f32 0x00000000#32)
          (FloatOps.uitofp .f32 (kerValid (F := F) a8 (ix1 ⟨v.val, by omega⟩))) := by
  have hs : extractStridedSlice Cert.KernelIdeal.S50000 ![0] (kerValid (F := F) a8)
      Cert.KernelIdeal.Facts₀.slices_S51200_S50000_0 (ix1 v) = kerValid (F := F) a8 (ix1 ⟨v.val, by omega⟩) :=
    extractStridedSlice_apply _ _ _ _ _ (fun a => by
      obtain rfl : a = 0 := Subsingleton.elim _ _
      show v.val = 0 + v.val
      omega)
  unfold kerAct
  rw [select_apply]
  show Scalar.select _ _ (FloatOps.uitofp .f32 (extractStridedSlice Cert.KernelIdeal.S50000 ![0] (kerValid (F := F) a8)
      Cert.KernelIdeal.Facts₀.slices_S51200_S50000_0 (ix1 v))) = _
  rw [hs]
  rfl

theorem act_eq_apply (a8 : IVec ⟨1, ![32000]⟩ 32) (hpos : ∀ j, 0 ≤ (a8 j).toInt) (v : Fin 50000) :
    kerAct (F := Ideal) a8 (ix1 v) = refAct (F := Ideal) a8 (ix1 v) := by
  rw [kerAct_apply, refAct_apply]
  by_cases hv : v.val = 0
  · have hone : IntOp.cmpi .eq (BitVec.ofNat 32 v.val) 0#32 = 1#1 := by rw [hv]; rfl
    rw [if_pos hv, hone]
    exact select_one _ _
  · rw [if_neg hv]
    have hne : IntOp.cmpi .eq (BitVec.ofNat 32 v.val) 0#32 = 0#1 := by
      refine eq_zero_of_ne_one fun h => hv ?_
      have := congrArg BitVec.toNat (StableHlo.Predicate.cmpi_eq_iff.1 h)
      simp only [BitVec.toNat_ofNat, BitVec.toNat_zero] at this
      have hlt := v.isLt
      omega
    rw [hne, select_zero]
    by_cases hex : ∃ j : Fin 32000, (a8 (ix1 j)).toInt = (v.val : Int)
    · obtain ⟨j, hj⟩ := hex
      rw [kerValid_hit a8 hpos ⟨v.val, by omega⟩ j hj, refAct0_hit a8 hpos v j hj]
      show (((1#1 : BitVec 1).toNat : ℝ) : EReal) = Ideal.ofBits .f32 0x3F800000#32
      rw [Ideal.ofBits_one_f32]
      norm_num
    · have hno : ∀ j : Fin 32000, (a8 (ix1 j)).toInt ≠ (v.val : Int) := fun j hj => hex ⟨j, hj⟩
      rw [kerValid_no_hit a8 hpos ⟨v.val, by omega⟩ hno, refAct0_no_hit a8 hpos v hno]
      show (((0#1 : BitVec 1).toNat : ℝ) : EReal) = Ideal.ofBits .f32 0x00000000#32
      rw [Ideal.ofBits_zero_f32]
      norm_num

theorem act_eq (a8 : IVec ⟨1, ![32000]⟩ 32) (hpos : ∀ j, 0 ≤ (a8 j).toInt) :
    kerAct (F := Ideal) a8 = refAct (F := Ideal) a8 :=
  funext fun i =>
    Eq.mp (congrArg (fun z => kerAct (F := Ideal) a8 z = refAct (F := Ideal) a8 z) (eq_ix1 (n := 50000) i).symm)
      (act_eq_apply a8 hpos (i 0))

end Agree

section AgreePtr
variable {F : FTy → Type} [FloatOps F] [Cert.ReferenceIdeal.Facts₀] [Cert.KernelIdeal.Facts₀]

theorem kerPtr_apply (a8 : IVec ⟨1, ![32000]⟩ 32) (D : (⟨2, ![128, 32000]⟩ : Shape).Idx → F .f32) (p : Fin 128)
    (q : Fin 51200) :
    kerPtr (F := F) a8 D (ix2 p q)
      = Scalar.select (kerValid (F := F) a8 (ix1 q)) (kerTake (F := F) a8 D (ix2 p q))
          (FloatOps.ofBits .f32 0x00000000#32) := by
  have hm := bcast_cols_apply Cert.KernelIdeal.Facts₀.bcast_S51200_S1x51200_1
    Cert.KernelIdeal.Facts₀.bcast_S1x51200_S128x51200_0_1 (kerValid (F := F) a8) p q
  unfold kerPtr
  rw [select_apply, hm]
  rfl

theorem toInt_pos (j : Fin 32000) : (BitVec.ofNat 32 j.val).toInt = (j.val : Int) :=
  StableHlo.Predicate.toInt_ofNat_small j.val (by have := j.isLt; omega)

theorem kerTake_last (a8 : IVec ⟨1, ![32000]⟩ 32) (hpos : ∀ j, 0 ≤ (a8 j).toInt)
    (D : (⟨2, ![128, 32000]⟩ : Shape).Idx → F .f32) (p : Fin 128) (q : Fin 51200) (j : Fin 32000)
    (hj : (a8 (ix1 j)).toInt = (q.val : Int)) (hlast : ∀ j' : Fin 32000, j < j' → (a8 (ix1 j')).toInt ≠ (q.val : Int)) :
    kerTake (F := F) a8 D (ix2 p q) = D (ix2 p j) := by
  have hjlt := j.isLt
  have hinv := kerInv_last (F := F) a8 hpos q j hj hlast
  have hnat : (BitVec.ofNat 32 j.val).toNat = j.val := by
    rw [BitVec.toNat_ofNat]; exact Nat.mod_eq_of_lt (by omega)
  have hidx : kerTakeIdx (F := F) a8 (ix2 q (0 : Fin 1)) = BitVec.ofNat 32 j.val := by
    unfold kerTakeIdx
    refine (bcast_col_apply Cert.KernelIdeal.Facts₀.bcast_S51200_S51200x1_0 _ q).trans ?_
    show Scalar.select (IntOp.cmpi .slt (kerInv (F := F) a8 (ix1 q)) 0#32) _ (kerInv (F := F) a8 (ix1 q)) = _
    rw [hinv, slt_zero_of_nonneg (by rw [toInt_pos]; omega)]
    exact select_zero _ _
  have hok : kerTakeOk (F := F) a8 (ix1 q) = 1#1 := by
    unfold kerTakeOk
    refine reduce_andi_col_eq_one _ _ _ _ rfl q ?_
    show IntOp.andi (IntOp.cmpi .sge (kerTakeIdx (F := F) a8 (ix2 q (0 : Fin 1))) 0#32)
      (IntOp.cmpi .sle (kerTakeIdx (F := F) a8 (ix2 q (0 : Fin 1))) 31999#32) = 1#1
    rw [hidx]
    have h1 : IntOp.cmpi .sge (BitVec.ofNat 32 j.val) 0#32 = 1#1 :=
      (StableHlo.Predicate.sge_iff_toNat (by rw [hnat]; omega) (by decide)).2 (by simp)
    have h2 : IntOp.cmpi .sle (BitVec.ofNat 32 j.val) 31999#32 = 1#1 :=
      (StableHlo.Predicate.sle_iff_toNat (by rw [hnat]; omega) (by decide)).2
        (by rw [hnat]; show j.val ≤ 31999; omega)
    rw [h1, h2]; rfl
  have hrow := bcast_row_apply Cert.KernelIdeal.Facts₀.bcast_S51200_S128x51200_1 (kerTakeOk (F := F) a8) p q
  unfold kerTake
  rw [select_apply, hrow, hok, select_one]
  refine (takeCols_apply (by decide) _ D _ p q).trans ?_
  refine congrArg D (Shape.idx_ext₂ (n := ![128, 32000]) rfl ?_)
  show min (kerTakeIdx (F := F) a8 (ix2 q (0 : Fin 1))).toInt.toNat (32000 - 1) = j.val
  rw [hidx, toInt_pos]
  omega

theorem ptr_eq_any (a8 : IVec ⟨1, ![32000]⟩ 32) (hpos : ∀ j, 0 ≤ (a8 j).toInt)
    (D : (⟨2, ![128, 32000]⟩ : Shape).Idx → F .f32) (p : Fin 128) (q : Fin 50000) :
    kerPtr (F := F) a8 D (ix2 p ⟨q.val, by omega⟩) = refPtr (F := F) a8 D (ix2 p q) := by
  rw [kerPtr_apply]
  by_cases hex : ∃ j : Fin 32000, (a8 (ix1 j)).toInt = (q.val : Int)
  · obtain ⟨j, hj, hlast⟩ := exists_last _ hex
    rw [kerValid_hit a8 hpos ⟨q.val, by omega⟩ j hj, select_one,
      kerTake_last a8 hpos D p ⟨q.val, by omega⟩ j hj hlast, refPtr_last a8 hpos D p q j hj hlast]
  · have hno : ∀ j : Fin 32000, (a8 (ix1 j)).toInt ≠ (q.val : Int) := fun j hj => hex ⟨j, hj⟩
    rw [kerValid_no_hit a8 hpos ⟨q.val, by omega⟩ hno, select_zero, refPtr_no_hit a8 hpos D p q hno]

end AgreePtr

theorem ptr_eq [Cert.ReferenceIdeal.Facts₀] [Cert.KernelIdeal.Facts₀] (a8 : IVec ⟨1, ![32000]⟩ 32)
    (hpos : ∀ j, 0 ≤ (a8 j).toInt) (D : (⟨2, ![128, 32000]⟩ : Shape).Idx → Ideal .f32) (p : Fin 128) (q : Fin 50000) :
    kerPtr (F := Ideal) a8 D (ix2 p ⟨q.val, by omega⟩) = refPtr (F := Ideal) a8 D (ix2 p q) :=
  ptr_eq_any a8 hpos D p q

end Cert.Spec.Scatter

end
-- ==== Proof.Val.KHostA.lean ====
import proofs.«131213_j77824807403876_2_alg».proof.Proof.KI.Kept
import proofs.«131213_j77824807403876_2_alg».proof.Proof.RefReadP
import proofs.«131213_j77824807403876_2_alg».proof.Proof.Spec.Scatter
import Idealize.ShloMosaic.Lib.StableHlo.Run
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

theorem x_kept (c : Dev nD) :
    (V12 m ρ c main_arg0 : Vec Ideal S128x1024 .f32) = m ((c : Thread nD τ).loc main_arg0) :=
  Wn_keep m ρ c main_arg0 0 12 (by omega) (by decide) (by omega)

theorem pad_zero (i : S_.Idx) : (sitofp (F := Ideal) .f32 (constantI S_ 32 0#32) : FVec Ideal S_ .f32) i = (0 : EReal) := by
  show ((((0#32 : BitVec 32).toInt : ℤ) : ℝ) : EReal) = 0
  simp

theorem pad_w_stretch (W : Valuation τ sig (Elt Ideal)) :
    StableHlo.after hostOps0_7 W (Proc.devRef .tc main_v85)
      = pad S51200x1024 ![0, 0] ![1200, 0] ![0, 0] (W (Proc.devRef .tc main_arg4)) (sitofp (F := Ideal) .f32 (W (Proc.devRef .tc main_c_22) : IVec S_ 32))
          pads_S50000x1024_S51200x1024_012000_000 h_S_ := by
  after_results
  rfl
theorem c22_stretch (W : Valuation τ sig (Elt Ideal)) :
    StableHlo.after hostOps0_6 W (Proc.devRef .tc main_c_22) = (constantI S_ 32 0#32 : IVec S_ 32) := by
  after_results

theorem pad_w (c : Dev nD) (q : Fin 51200) (k : Fin 1024) :
    ((V12 m ρ c main_v85 : Vec Ideal S51200x1024 .f32) (ix2 q k) : EReal)
      = (if h : q.val < 50000 then (m ((c : Thread nD τ).loc main_arg4) : Vec Ideal S50000x1024 .f32) (ix2 ⟨q.val, h⟩ k) else 0 : EReal) := by
  have e : (V12 m ρ c main_v85 : Vec Ideal S51200x1024 .f32)
      = pad S51200x1024 ![0, 0] ![1200, 0] ![0, 0] (m ((c : Thread nD τ).loc main_arg4) : Vec Ideal S50000x1024 .f32)
          (sitofp (F := Ideal) .f32 (constantI S_ 32 0#32 : IVec S_ 32)) pads_S50000x1024_S51200x1024_012000_000 h_S_ := by
    refine (Wn_keep m ρ c main_v85 8 12 (by omega) (by decide) (by omega)).trans <| (pad_w_stretch (Wh7 m ρ c)).trans ?_
    rw [show Wh7 m ρ c (Proc.devRef .tc main_arg4) = m ((c : Thread nD τ).loc main_arg4) from Wn_keep m ρ c main_arg4 0 7 (by omega) (by decide) (by omega),
      show Wh7 m ρ c (Proc.devRef .tc main_c_22) = (constantI S_ 32 0#32 : IVec S_ 32) from c22_stretch (Wh6 m ρ c)]
  rw [e]
  by_cases h : q.val < 50000
  · rw [dif_pos h]
    exact pad_apply_of_inside _ _ _ _ _ _ _ (ix2 q k) (ix2 ⟨q.val, h⟩ k) (fun a => match a with
      | ⟨0, _⟩ => by show q.val = 0 + q.val * (0 + 1); omega
      | ⟨1, _⟩ => by show k.val = 0 + k.val * (0 + 1); omega)
  · rw [dif_neg h, pad_apply_of_not_inside _ _ _ _ _ _ _ (ix2 q k) (0 : Fin 2) (by
      intro hh
      have h3 : (q.val - 0) / (0 + 1) < 50000 := hh.2.2
      omega)]
    exact pad_zero _

theorem pad_b_stretch (W : Valuation τ sig (Elt Ideal)) :
    StableHlo.after hostOps0_9 W (Proc.devRef .tc main_v87)
      = pad S1x51200 ![0, 0] ![0, 1200] ![0, 0] (W (Proc.devRef .tc main_v86)) (sitofp (F := Ideal) .f32 (W (Proc.devRef .tc main_c_23) : IVec S_ 32))
          pads_S1x50000_S1x51200_000_012000 h_S_ := by
  after_results
  rfl
theorem v86_stretch (W : Valuation τ sig (Elt Ideal)) :
    StableHlo.after hostOps0_8 W (Proc.devRef .tc main_v86)
      = shapeCast S1x50000 (W (Proc.devRef .tc main_arg5) : Vec Ideal S50000 .f32) shapeCasts_S50000_S1x50000 := by
  after_results
  rfl
theorem c23_stretch (W : Valuation τ sig (Elt Ideal)) :
    StableHlo.after hostOps0_8 W (Proc.devRef .tc main_c_23) = (constantI S_ 32 0#32 : IVec S_ 32) := by
  after_results

theorem pad_b (c : Dev nD) (q : Fin 51200) :
    ((V12 m ρ c main_v87 : Vec Ideal S1x51200 .f32) (ix2 (0 : Fin 1) q) : EReal)
      = (if h : q.val < 50000 then (m ((c : Thread nD τ).loc main_arg5) : Vec Ideal S50000 .f32) (ix1 ⟨q.val, h⟩) else 0 : EReal) := by
  have e : (V12 m ρ c main_v87 : Vec Ideal S1x51200 .f32)
      = pad S1x51200 ![0, 0] ![0, 1200] ![0, 0]
          (shapeCast S1x50000 (m ((c : Thread nD τ).loc main_arg5) : Vec Ideal S50000 .f32) shapeCasts_S50000_S1x50000)
          (sitofp (F := Ideal) .f32 (constantI S_ 32 0#32 : IVec S_ 32)) pads_S1x50000_S1x51200_000_012000 h_S_ := by
    refine (Wn_keep m ρ c main_v87 10 12 (by omega) (by decide) (by omega)).trans <| (pad_b_stretch (Wh9 m ρ c)).trans ?_
    rw [show Wh9 m ρ c (Proc.devRef .tc main_v86) = _ from v86_stretch (Wh8 m ρ c),
      show Wh9 m ρ c (Proc.devRef .tc main_c_23) = (constantI S_ 32 0#32 : IVec S_ 32) from c23_stretch (Wh8 m ρ c),
      show Wh8 m ρ c (Proc.devRef .tc main_arg5) = m ((c : Thread nD τ).loc main_arg5) from Wn_keep m ρ c main_arg5 0 8 (by omega) (by decide) (by omega)]
  rw [e]
  by_cases h : q.val < 50000
  · rw [dif_pos h, pad_apply_of_inside _ _ _ _ _ _ _ (ix2 (0 : Fin 1) q) (ix2 (0 : Fin 1) ⟨q.val, h⟩) (fun a => match a with
      | ⟨0, _⟩ => by show 0 = 0 + 0 * (0 + 1); omega
      | ⟨1, _⟩ => by show q.val = 0 + q.val * (0 + 1); omega)]
    exact shapeCast_a_1a_apply _ _ _ _
  · rw [dif_neg h, pad_apply_of_not_inside _ _ _ _ _ _ _ (ix2 (0 : Fin 1) q) (1 : Fin 2) (by
      intro hh
      have h3 : (q.val - 0) / (0 + 1) < 50000 := hh.2.2
      omega)]
    exact pad_zero _

theorem pad_k_stretch (W : Valuation τ sig (Elt Ideal)) :
    StableHlo.after hostOps0_11 W (Proc.devRef .tc main_v88)
      = pad S128x51200 ![0, 0] ![0, 1200] ![0, 0] (W (Proc.devRef .tc main_arg3)) (sitofp (F := Ideal) .f32 (W (Proc.devRef .tc main_c_24) : IVec S_ 32))
          pads_S128x50000_S128x51200_000_012000 h_S_ := by
  after_results
  rfl
theorem c24_stretch (W : Valuation τ sig (Elt Ideal)) :
    StableHlo.after hostOps0_10 W (Proc.devRef .tc main_c_24) = (constantI S_ 32 0#32 : IVec S_ 32) := by
  after_results

theorem pad_k (c : Dev nD) (p : Fin 128) (q : Fin 51200) :
    ((V12 m ρ c main_v88 : Vec Ideal S128x51200 .f32) (ix2 p q) : EReal)
      = (if h : q.val < 50000 then (m ((c : Thread nD τ).loc main_arg3) : Vec Ideal S128x50000 .f32) (ix2 p ⟨q.val, h⟩) else 0 : EReal) := by
  have e : (V12 m ρ c main_v88 : Vec Ideal S128x51200 .f32)
      = pad S128x51200 ![0, 0] ![0, 1200] ![0, 0] (m ((c : Thread nD τ).loc main_arg3) : Vec Ideal S128x50000 .f32)
          (sitofp (F := Ideal) .f32 (constantI S_ 32 0#32 : IVec S_ 32)) pads_S128x50000_S128x51200_000_012000 h_S_ := by
    refine (pad_k_stretch (Wh11 m ρ c)).trans ?_
    rw [show Wh11 m ρ c (Proc.devRef .tc main_c_24) = (constantI S_ 32 0#32 : IVec S_ 32) from c24_stretch (Wh10 m ρ c),
      show Wh11 m ρ c (Proc.devRef .tc main_arg3) = m ((c : Thread nD τ).loc main_arg3) from Wn_keep m ρ c main_arg3 0 11 (by omega) (by decide) (by omega)]
  rw [e]
  by_cases h : q.val < 50000
  · rw [dif_pos h]
    exact pad_apply_of_inside _ _ _ _ _ _ _ (ix2 p q) (ix2 p ⟨q.val, h⟩) (fun a => match a with
      | ⟨0, _⟩ => by show p.val = 0 + p.val * (0 + 1); omega
      | ⟨1, _⟩ => by show q.val = 0 + q.val * (0 + 1); omega)
  · rw [dif_neg h, pad_apply_of_not_inside _ _ _ _ _ _ _ (ix2 p q) (1 : Fin 2) (by
      intro hh
      have h3 : (q.val - 0) / (0 + 1) < 50000 := hh.2.2
      omega)]
    exact pad_zero _

theorem gate_pre_stretch (W : Valuation τ sig (Elt Ideal)) :
    StableHlo.after hostOps0 W (Proc.devRef .tc main_v4)
      = Cert.ReferenceIdeal.ReadP.val_main_v11 (W (Proc.devRef .tc main_arg0)) (W (Proc.devRef .tc main_arg6)) (W (Proc.devRef .tc main_arg7)) := by
  after_results
  rfl

theorem gate_pre_eq (c : Dev nD) :
    Wh1 m ρ c (Proc.devRef .tc main_v4)
      = Cert.ReferenceIdeal.ReadP.val_main_v11 (m ((c : Thread nD τ).loc main_arg0)) (m ((c : Thread nD τ).loc main_arg6)) (m ((c : Thread nD τ).loc main_arg7)) :=
  gate_pre_stretch (Wh0 m ρ c)

set_option maxHeartbeats 4000000 in

theorem attn_stretch (W : Valuation τ sig (Elt Ideal)) :
    StableHlo.after hostOps0_2 W (Proc.devRef .tc main_v63)
      = Cert.ReferenceIdeal.ReadP.val_main_v57 (W (Proc.devRef .tc main_arg2)) := by
  after_results_simp
  rfl

theorem attn_eq (c : Dev nD) :
    Wh3 m ρ c (Proc.devRef .tc main_v63) = Cert.ReferenceIdeal.ReadP.val_main_v57 (m ((c : Thread nD τ).loc main_arg2)) :=
  (attn_stretch (Wh2 m ρ c)).trans (by rw [show Wh2 m ρ c (Proc.devRef .tc main_arg2) = m ((c : Thread nD τ).loc main_arg2) from Wn_keep m ρ c main_arg2 0 2 (by omega) (by decide) (by omega)])

set_option maxHeartbeats 4000000 in

theorem inpdist_stretch (W : Valuation τ sig (Elt Ideal)) :
    StableHlo.after hostOps0_2 W (Proc.devRef .tc main_v81)
      = Cert.ReferenceIdeal.ReadP.val_main_v75 (W (Proc.devRef .tc main_arg1)) (W (Proc.devRef .tc main_arg2)) := by
  after_results_simp
  rfl

theorem inpdist_eq (c : Dev nD) :
    Wh3 m ρ c (Proc.devRef .tc main_v81)
      = Cert.ReferenceIdeal.ReadP.val_main_v75 (m ((c : Thread nD τ).loc main_arg1)) (m ((c : Thread nD τ).loc main_arg2)) :=
  (inpdist_stretch (Wh2 m ρ c)).trans (by rw [show Wh2 m ρ c (Proc.devRef .tc main_arg1) = m ((c : Thread nD τ).loc main_arg1) from Wn_keep m ρ c main_arg1 0 2 (by omega) (by decide) (by omega), show Wh2 m ρ c (Proc.devRef .tc main_arg2) = m ((c : Thread nD τ).loc main_arg2) from Wn_keep m ρ c main_arg2 0 2 (by omega) (by decide) (by omega)])

set_option maxHeartbeats 4000000 in

theorem gate_stretch (W : Valuation τ sig (Elt Ideal))
    (x0 : Vec Ideal S128x1024 .f32) (x3 : Vec Ideal S128x50000 .f32) (x6 : Vec Ideal S2x1024 .f32) (x7 : Vec Ideal S2 .f32) (x8 : Vec Ideal S32000 .i32)
    (h28 : W (Proc.devRef .tc main_v28) = Cert.ReferenceIdeal.ReadP.val_main_v22 x8)
    (h3 : W (Proc.devRef .tc main_arg3) = x3)
    (h4 : W (Proc.devRef .tc main_v4) = Cert.ReferenceIdeal.ReadP.val_main_v11 x0 x6 x7) :
    StableHlo.after hostOps0_2 W (Proc.devRef .tc main_v52) = Cert.ReferenceIdeal.ReadP.val_main_v46 x0 x3 x6 x7 x8 := by
  after_results_simp

  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  rw [h28, h3, h4]
  rfl

theorem gate_eq (c : Dev nD)
    (hact : Wh2 m ρ c (Proc.devRef .tc main_v28) = Cert.ReferenceIdeal.ReadP.val_main_v22 (m ((c : Thread nD τ).loc main_arg8))) :
    Wh3 m ρ c (Proc.devRef .tc main_v52)
      = Cert.ReferenceIdeal.ReadP.val_main_v46 (m ((c : Thread nD τ).loc main_arg0)) (m ((c : Thread nD τ).loc main_arg3)) (m ((c : Thread nD τ).loc main_arg6)) (m ((c : Thread nD τ).loc main_arg7)) (m ((c : Thread nD τ).loc main_arg8)) :=
  gate_stretch (Wh2 m ρ c) _ _ _ _ _ hact (Wn_keep m ρ c main_arg3 0 2 (by omega) (by decide) (by omega))
    ((Wh2_of m ρ c main_v4 (by decide)).trans (gate_pre_eq m ρ c))

theorem act_stretch1 (W : Valuation τ sig (Elt Ideal)) :
    StableHlo.after hostOps0_1 W (Proc.devRef .tc main_v28)
      = select (W (Proc.devRef .tc main_v26) : IVec S50000 1)
          (broadcastInDim S50000 ![] bcast_S_S50000 (id (W (Proc.devRef .tc main_cst) : Vec Ideal S_ .f32)))
          (W (Proc.devRef .tc main_v27) : Vec Ideal S50000 .f32) := by
  after_results
  rfl

set_option maxHeartbeats 4000000 in
theorem v26_stretch (W : Valuation τ sig (Elt Ideal)) :
    StableHlo.after hostOps0 W (Proc.devRef .tc main_v26)
      = (cmpi .eq (iotaInDim S50000 32 0) (broadcastInDim S50000 ![] bcast_S_S50000 (constantI S_ 32 0#32)) : IVec S50000 1) := by
  after_results_simp
set_option maxHeartbeats 4000000 in
theorem cst_stretch (W : Valuation τ sig (Elt Ideal)) :
    StableHlo.after hostOps0 W (Proc.devRef .tc main_cst) = (constant (F := Ideal) S_ .f32 0x00000000#32 : Vec Ideal S_ .f32) := by
  after_results_simp
set_option maxHeartbeats 4000000 in
theorem v27_stretch (W : Valuation τ sig (Elt Ideal)) :
    StableHlo.after hostOps0 W (Proc.devRef .tc main_v27)
      = (uitofp (F := Ideal) .f32 (extractStridedSlice S50000 ![0] (Cert.Spec.Scatter.kerValid (F := Ideal) (W (Proc.devRef .tc main_arg8))) slices_S51200_S50000_0) : Vec Ideal S50000 .f32) := by
  after_results_simp
  rfl

theorem act_raw (c : Dev nD) :
    Wh2 m ρ c (Proc.devRef .tc main_v28) = Cert.Spec.Scatter.kerAct (m ((c : Thread nD τ).loc main_arg8)) := by
  refine (act_stretch1 (Wh1 m ρ c)).trans ?_
  rw [show Wh1 m ρ c (Proc.devRef .tc main_v26) = _ from v26_stretch (Wh0 m ρ c),
    show Wh1 m ρ c (Proc.devRef .tc main_cst) = _ from cst_stretch (Wh0 m ρ c),
    show Wh1 m ρ c (Proc.devRef .tc main_v27) = _ from v27_stretch (Wh0 m ρ c)]
  rfl

theorem ptr_stretch5 (W : Valuation τ sig (Elt Ideal)) :
    StableHlo.after hostOps0_5 W (Proc.devRef .tc main_v84)
      = select (broadcastInDim S128x51200 ![0, 1] bcast_S1x51200_S128x51200_0_1 (W (Proc.devRef .tc main_v82) : IVec S1x51200 1))
          (W (Proc.devRef .tc main_v83) : Vec Ideal S128x51200 .f32)
          (broadcastInDim S128x51200 ![] bcast_S_S128x51200 (id (W (Proc.devRef .tc main_cst_21) : Vec Ideal S_ .f32))) := by
  after_results
  rfl
theorem cst21_stretch (W : Valuation τ sig (Elt Ideal)) :
    StableHlo.after hostOps0_4 W (Proc.devRef .tc main_cst_21) = (constant (F := Ideal) S_ .f32 0x00000000#32 : Vec Ideal S_ .f32) := by
  after_results
set_option maxHeartbeats 4000000 in
theorem v82_stretch (W : Valuation τ sig (Elt Ideal)) :
    StableHlo.after hostOps0_2 W (Proc.devRef .tc main_v82)
      = (broadcastInDim S1x51200 ![1] bcast_S51200_S1x51200_1 (W (Proc.devRef .tc main_v22) : IVec S51200 1) : IVec S1x51200 1) := by
  after_results_simp
set_option maxHeartbeats 4000000 in
theorem v22_stretch (W : Valuation τ sig (Elt Ideal)) :
    StableHlo.after hostOps0 W (Proc.devRef .tc main_v22) = Cert.Spec.Scatter.kerValid (F := Ideal) (W (Proc.devRef .tc main_arg8)) := by
  after_results_simp
  rfl
set_option maxHeartbeats 4000000 in
theorem v13_stretch (W : Valuation τ sig (Elt Ideal)) :
    StableHlo.after hostOps0 W (Proc.devRef .tc main_v13) = Cert.Spec.Scatter.kerInv (F := Ideal) (W (Proc.devRef .tc main_arg8)) := by
  after_results_simp
  rfl
set_option maxHeartbeats 4000000 in

theorem take_stretch {F : FTy → Type} [FloatOps F] (W : Valuation τ sig (Elt F)) (x8 : Vec F S32000 .i32) (D : Vec F S128x32000 .f32)
    (h13 : W (Proc.devRef .tc main_v13) = Cert.Spec.Scatter.kerInv (F := F) x8) (h81 : W (Proc.devRef .tc main_v81) = D) :
    StableHlo.after hostOps0_3 W (Proc.devRef .tc main_v83) = Cert.Spec.Scatter.kerTake (F := F) x8 D := by
  after_results_simp
  rw [h13, h81]
  simp only [StableHlo.TRef.ofBuf, StableHlo.TRef.toBuf, cast_eq]
  rfl

theorem ptr_raw (c : Dev nD) :
    Wh6 m ρ c (Proc.devRef .tc main_v84)
      = Cert.Spec.Scatter.kerPtr (m ((c : Thread nD τ).loc main_arg8)) (Wh3 m ρ c (Proc.devRef .tc main_v81)) := by
  have h22 : Wh3 m ρ c (Proc.devRef .tc main_v82)
      = (broadcastInDim S1x51200 ![1] bcast_S51200_S1x51200_1 (Cert.Spec.Scatter.kerValid (F := Ideal) (m ((c : Thread nD τ).loc main_arg8))) : IVec S1x51200 1) := by
    refine (v82_stretch (Wh2 m ρ c)).trans ?_
    rw [Wh2_of m ρ c main_v22 (by decide)]
    exact congrArg _ (v22_stretch (Wh0 m ρ c))
  have h13 : Wh3 m ρ c (Proc.devRef .tc main_v13) = Cert.Spec.Scatter.kerInv (F := Ideal) (m ((c : Thread nD τ).loc main_arg8)) :=
    (Wh3_of m ρ c main_v13 (by decide)).trans <| (Wh2_of m ρ c main_v13 (by decide)).trans (v13_stretch (Wh0 m ρ c))
  refine (ptr_stretch5 (Wh5 m ρ c)).trans ?_
  rw [show Wh5 m ρ c (Proc.devRef .tc main_cst_21) = _ from cst21_stretch (Wh4 m ρ c),
    Wh5_of m ρ c main_v82 (by decide), Wh4_of m ρ c main_v82 (by decide), h22,
    Wh5_of m ρ c main_v83 (by decide),
    show Wh4 m ρ c (Proc.devRef .tc main_v83) = _ from take_stretch (Wh3 m ρ c) _ _ h13 rfl]
  rfl

end Cert.KernelIdeal.HandVal

end
-- ==== Proof.Val.KHostB.lean ====
import proofs.«131213_j77824807403876_2_alg».proof.Proof.KI.Kept
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

section Layout
variable {α : Type}

abbrev half0 (x : S2x128x1.Idx → α) : S128x1.Idx → α :=
  shapeCast S128x1 (extractStridedSlice S1x128x1 ![0, 0, 0] x slices_S2x128x1_S1x128x1_0_0_0) shapeCasts_S1x128x1_S128x1

abbrev half1 (x : S2x128x1.Idx → α) : S128x1.Idx → α :=
  shapeCast S128x1 (extractStridedSlice S1x128x1 ![1, 0, 0] x slices_S2x128x1_S1x128x1_1_0_0) shapeCasts_S1x128x1_S128x1

theorem half0_apply (x : S2x128x1.Idx → α) (p : Fin 128) :
    half0 x (ix2 p (0 : Fin 1)) = x (ix3 (0 : Fin 2) p (0 : Fin 1)) :=
  (shapeCast_1ab_ab_apply _ shapeCasts_S1x128x1_S128x1 p (0 : Fin 1)).trans <|
    extractStridedSlice_apply _ x _ _ (ix3 (0 : Fin 2) p (0 : Fin 1)) fun a => match a with
      | ⟨0, _⟩ => rfl
      | ⟨1, _⟩ => by show p.val = 0 + p.val; omega
      | ⟨2, _⟩ => rfl

theorem half1_apply (x : S2x128x1.Idx → α) (p : Fin 128) :
    half1 x (ix2 p (0 : Fin 1)) = x (ix3 (1 : Fin 2) p (0 : Fin 1)) :=
  (shapeCast_1ab_ab_apply _ shapeCasts_S1x128x1_S128x1 p (0 : Fin 1)).trans <|
    extractStridedSlice_apply _ x _ _ (ix3 (1 : Fin 2) p (0 : Fin 1)) fun a => match a with
      | ⟨0, _⟩ => rfl
      | ⟨1, _⟩ => by show p.val = 0 + p.val; omega
      | ⟨2, _⟩ => rfl

theorem col0_apply (x : S128x2.Idx → α) (p : Fin 128) :
    extractStridedSlice S128x1 ![0, 0] x slices_S128x2_S128x1_0_0 (ix2 p (0 : Fin 1)) = x (ix2 p (0 : Fin 2)) :=
  extractStridedSlice_apply _ x _ _ (ix2 p (0 : Fin 2)) fun a => match a with
    | ⟨0, _⟩ => by show p.val = 0 + p.val; omega
    | ⟨1, _⟩ => rfl

theorem col1_apply (x : S128x2.Idx → α) (p : Fin 128) :
    extractStridedSlice S128x1 ![0, 1] x slices_S128x2_S128x1_0_1 (ix2 p (0 : Fin 1)) = x (ix2 p (1 : Fin 2)) :=
  extractStridedSlice_apply _ x _ _ (ix2 p (1 : Fin 2)) fun a => match a with
    | ⟨0, _⟩ => by show p.val = 0 + p.val; omega
    | ⟨1, _⟩ => rfl

theorem cut_apply (x : S128x51200.Idx → α) (p : Fin 128) (q : Fin 50000) :
    extractStridedSlice S128x50000 ![0, 0] x slices_S128x51200_S128x50000_0_0 (ix2 p q) = x (ix2 p ⟨q.val, by omega⟩) :=
  extractStridedSlice_apply _ x _ _ (ix2 p (⟨q.val, by omega⟩ : Fin 51200)) fun a => match a with
    | ⟨0, _⟩ => by show p.val = 0 + p.val; omega
    | ⟨1, _⟩ => by show q.val = 0 + q.val; omega

end Layout

theorem mergeMax_apply (xm : FVec Ideal S2x128x1 .f32) (p : Fin 128) :
    maximumf (F := Ideal) (s := S128x1) (φ := .f32) (half0 xm) (half1 xm) (ix2 p (0 : Fin 1))
      = max (xm (ix3 (0 : Fin 2) p (0 : Fin 1))) (xm (ix3 (1 : Fin 2) p (0 : Fin 1))) := by
  rw [maximumf_apply, half0_apply, half1_apply]

theorem mergeSum_apply (xm xl : FVec Ideal S2x128x1 .f32) (p : Fin 128) :
    addf (F := Ideal) (s := S128x1) (φ := .f32) (mulf (half0 xl) (Host.exp (subf (half0 xm) (maximumf (half0 xm) (half1 xm)))))
        (mulf (half1 xl) (Host.exp (subf (half1 xm) (maximumf (half0 xm) (half1 xm))))) (ix2 p (0 : Fin 1))
      = xl (ix3 (0 : Fin 2) p (0 : Fin 1))
          * Ideal.exp (xm (ix3 (0 : Fin 2) p (0 : Fin 1))
              - max (xm (ix3 (0 : Fin 2) p (0 : Fin 1))) (xm (ix3 (1 : Fin 2) p (0 : Fin 1))))
        + xl (ix3 (1 : Fin 2) p (0 : Fin 1))
          * Ideal.exp (xm (ix3 (1 : Fin 2) p (0 : Fin 1))
              - max (xm (ix3 (0 : Fin 2) p (0 : Fin 1))) (xm (ix3 (1 : Fin 2) p (0 : Fin 1)))) := by
  show half0 xl (ix2 p (0 : Fin 1))
          * Ideal.exp (half0 xm (ix2 p (0 : Fin 1)) - max (half0 xm (ix2 p (0 : Fin 1))) (half1 xm (ix2 p (0 : Fin 1))))
        + half1 xl (ix2 p (0 : Fin 1))
          * Ideal.exp (half1 xm (ix2 p (0 : Fin 1)) - max (half0 xm (ix2 p (0 : Fin 1))) (half1 xm (ix2 p (0 : Fin 1)))) = _
  rw [half0_apply xl, half1_apply xl, half0_apply xm, half1_apply xm]

abbrev mParts (c : Dev nD) : Vec Ideal S2x128x1 .f32 := V13 m ρ c main_v89_1

abbrev lParts (c : Dev nD) : Vec Ideal S2x128x1 .f32 := V13 m ρ c main_v89_2

theorem M_apply (c : Dev nD) (p : Fin 128) :
    (V14 m ρ c main_v94 : Vec Ideal S128x1 .f32) (ix2 p (0 : Fin 1))
      = max (mParts m ρ c (ix3 (0 : Fin 2) p (0 : Fin 1))) (mParts m ρ c (ix3 (1 : Fin 2) p (0 : Fin 1))) := by
  show (StableHlo.after hostOps1 (W13 m ρ c) (Proc.devRef .tc main_v94) : Vec Ideal S128x1 .f32) (ix2 p (0 : Fin 1)) = _
  after_results_simp
  exact mergeMax_apply (mParts m ρ c) p

theorem L_apply (c : Dev nD) (p : Fin 128) :
    (V14 m ρ c main_v109 : Vec Ideal S128x1 .f32) (ix2 p (0 : Fin 1))
      = lParts m ρ c (ix3 (0 : Fin 2) p (0 : Fin 1))
          * Ideal.exp (mParts m ρ c (ix3 (0 : Fin 2) p (0 : Fin 1))
              - max (mParts m ρ c (ix3 (0 : Fin 2) p (0 : Fin 1))) (mParts m ρ c (ix3 (1 : Fin 2) p (0 : Fin 1))))
        + lParts m ρ c (ix3 (1 : Fin 2) p (0 : Fin 1))
          * Ideal.exp (mParts m ρ c (ix3 (1 : Fin 2) p (0 : Fin 1))
              - max (mParts m ρ c (ix3 (0 : Fin 2) p (0 : Fin 1))) (mParts m ρ c (ix3 (1 : Fin 2) p (0 : Fin 1)))) := by
  show (StableHlo.after hostOps1 (W13 m ρ c) (Proc.devRef .tc main_v109) : Vec Ideal S128x1 .f32) (ix2 p (0 : Fin 1)) = _
  after_results_simp
  exact mergeSum_apply (mParts m ρ c) (lParts m ρ c) p

theorem p0_apply (c : Dev nD) (p : Fin 128) :
    (V14 m ρ c main_v110 : Vec Ideal S128x1 .f32) (ix2 p (0 : Fin 1))
      = (V13 m ρ c main_v52 : Vec Ideal S128x2 .f32) (ix2 p (0 : Fin 2)) := by
  show (StableHlo.after hostOps1 (W13 m ρ c) (Proc.devRef .tc main_v110) : Vec Ideal S128x1 .f32) (ix2 p (0 : Fin 1)) = _
  after_results
  exact col0_apply _ p

theorem p1_apply (c : Dev nD) (p : Fin 128) :
    (V14 m ρ c main_v111 : Vec Ideal S128x1 .f32) (ix2 p (0 : Fin 1))
      = (V13 m ρ c main_v52 : Vec Ideal S128x2 .f32) (ix2 p (1 : Fin 2)) := by
  show (StableHlo.after hostOps1 (W13 m ρ c) (Proc.devRef .tc main_v111) : Vec Ideal S128x1 .f32) (ix2 p (0 : Fin 1)) = _
  after_results
  exact col1_apply _ p

theorem lg_kept (c : Dev nD) : V14 m ρ c main_v89_0 = V13 m ρ c main_v89_0 :=
  W14_of m ρ c main_v89_0 (by decide)

theorem pt_kept (c : Dev nD) : V14 m ρ c main_v84 = V13 m ρ c main_v84 :=
  W14_of m ρ c main_v84 (by decide)

theorem out_apply (c : Dev nD) (p : Fin 128) (q : Fin 50000) :
    (W16 m ρ c (Proc.devRef .tc main_v113) : Vec Ideal S128x50000 .f32) (ix2 p q)
      = (V15 m ρ c main_v112_0 : Vec Ideal S128x51200 .f32) (ix2 p ⟨q.val, by omega⟩) := by
  show (StableHlo.after hostOps2 (W15 m ρ c) (Proc.devRef .tc main_v113) : Vec Ideal S128x50000 .f32) (ix2 p q) = _
  after_results
  exact cut_apply _ p q

theorem gen_apply (c : Dev nD) (p : Fin 128) (q : Fin 50000) :
    (W16 m ρ c (Proc.devRef .tc main_v114) : Vec Ideal S128x50000 .f32) (ix2 p q)
      = (V15 m ρ c main_v112_1 : Vec Ideal S128x51200 .f32) (ix2 p ⟨q.val, by omega⟩) := by
  show (StableHlo.after hostOps2 (W15 m ρ c) (Proc.devRef .tc main_v114) : Vec Ideal S128x50000 .f32) (ix2 p q) = _
  after_results
  exact cut_apply _ p q

end Cert.KernelIdeal.HandVal

end
-- ==== Proof.Val.RefVal.lean ====
import proofs.«131213_j77824807403876_2_alg».proof.Proof.RefReadP
import proofs.«131213_j77824807403876_2_alg».proof.Proof.Spec.Softmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefVal

open Cert.ReferenceIdeal Cert.ReferenceIdeal.Gen Cert.ReferenceIdeal.ReadP
open Idealize.ShloMosaic Idealize.ShloMosaic.TcCoe Idealize.ShloMosaic.ValueIdx
open Cert.Spec.Softmax

def rl (x0 : Vec Ideal S128x1024 .f32) (x3 : Vec Ideal S128x50000 .f32) (x4 : Vec Ideal S50000x1024 .f32) (x5 : Vec Ideal S50000 .f32)
    (p : Fin 128) (q : Fin 50000) : EReal :=
  (∑ k : Fin 1024, x0 (ix2 p k) * x4 (ix2 q k)) + x5 (ix1 q) + Ideal.log (x3 (ix2 p q))

theorem ref_logit (x0 : Vec Ideal S128x1024 .f32) (x3 : Vec Ideal S128x50000 .f32) (x4 : Vec Ideal S50000x1024 .f32) (x5 : Vec Ideal S50000 .f32)
    (p : Fin 128) (q : Fin 50000) : val_main_v6 (F := Ideal) x0 x3 x4 x5 (ix2 p q) = rl x0 x3 x4 x5 p q := by
  have el : ∀ k : Fin 1024, lidx_main_v1 (ix2 p q) k = ix2 p k := fun k =>
    funext fun a => Fin.ext (by match a with | ⟨0, _⟩ => rfl | ⟨1, _⟩ => rfl)
  have er : ∀ k : Fin 1024, idx_main_v0 (ridx_main_v1 (ix2 p q) k) = ix2 q k := fun k =>
    funext fun a => Fin.ext (by match a with | ⟨0, _⟩ => rfl | ⟨1, _⟩ => rfl)
  have eb : idx_main_v2 (idx_main_v3 (ix2 p q)) = ix1 q :=
    funext fun a => Fin.ext (by match a with | ⟨0, _⟩ => rfl)
  rw [val_main_v6_apply, val_main_v4_apply, val_main_v1_apply, val_main_v3_apply, val_main_v2_apply, val_main_v5_apply]
  simp only [val_main_v0_apply, el, er, eb, Ideal.addf_def, Ideal.hostUnary_log_def]
  rfl

private theorem ofBits_neg_inf : Ideal.ofBits .f32 0xFF800000#32 = (⊥ : EReal) := by
  simp [Ideal.ofBits, Ideal.ieee]

private theorem lift_row (h : S128x50000.Reduces [1] S128) (p : Fin 128) (k : Fin (S128x50000.size 1)) :
    h.lift (ix1 p) k = ix2 p (⟨k.val, k.isLt⟩ : Fin 50000) := by
  funext c; apply Fin.ext
  fin_cases c <;> rfl

theorem ref_rowmax (x0 : Vec Ideal S128x1024 .f32) (x3 : Vec Ideal S128x50000 .f32) (x4 : Vec Ideal S50000x1024 .f32) (x5 : Vec Ideal S50000 .f32)
    (p : Fin 128) :
    val_main_v86 (F := Ideal) x0 x3 x4 x5 (ix1 p) = mx (rl x0 x3 x4 x5 p) Finset.univ := by
  have h : S128x50000.Reduces [1] S128 := by decide
  rw [val_main_v86_apply, val_main_v85_apply, val_main_cst_22_apply]
  unfold val_main_v84
  rw [Host.reduce_eq_fold_single FloatOps.maximumf _ _ reducesTo_S128x50000_S128_d1 h h_S_, val_main_cst_21_apply]
  have hf : (val_main_v6 (F := Ideal) x0 x3 x4 x5 ∘ h.lift (ix1 p)) = fun k : Fin 50000 => rl x0 x3 x4 x5 p k :=
    funext fun k => by
      show val_main_v6 (F := Ideal) x0 x3 x4 x5 (h.lift (ix1 p) k) = _
      rw [lift_row h p k]; exact ref_logit x0 x3 x4 x5 p _
  rw [hf]
  show max (Ideal.ofBits .f32 0xFF800000#32)
      (Finset.fold max (Ideal.ofBits .f32 0xFF800000#32) (fun k : Fin 50000 => rl x0 x3 x4 x5 p k) Finset.univ)
    = Finset.univ.sup (rl x0 x3 x4 x5 p)
  rw [ofBits_neg_inf, max_bot_left]
  rfl

theorem ref_gen (x0 : Vec Ideal S128x1024 .f32) (x3 : Vec Ideal S128x50000 .f32) (x4 : Vec Ideal S50000x1024 .f32) (x5 : Vec Ideal S50000 .f32)
    (p : Fin 128) (q : Fin 50000) :
    val_main_v94 (F := Ideal) x0 x3 x4 x5 (ix2 p q)
      = Ideal.div (Ideal.exp (rl x0 x3 x4 x5 p q - mx (rl x0 x3 x4 x5 p) Finset.univ))
          (sm (rl x0 x3 x4 x5 p) Finset.univ (mx (rl x0 x3 x4 x5 p) Finset.univ)) := by
  have em : ∀ k : Fin 50000, idx_main_v87 (idx_main_v88 (ix2 p k)) = ix1 p := fun k =>
    funext fun a => Fin.ext (by match a with | ⟨0, _⟩ => rfl)
  have es : idx_main_v92 (idx_main_v93 (ix2 p q)) = ix1 p :=
    funext fun a => Fin.ext (by match a with | ⟨0, _⟩ => rfl)
  have ek : ∀ k : Fin 50000, idx_main_v91 (ix1 p) k = ix2 p k := fun k =>
    funext fun a => Fin.ext (by match a with | ⟨0, _⟩ => rfl | ⟨1, _⟩ => rfl)
  have e90 : ∀ k : Fin 50000, val_main_v90 (F := Ideal) x0 x3 x4 x5 (ix2 p k)
      = Ideal.exp (rl x0 x3 x4 x5 p k - mx (rl x0 x3 x4 x5 p) Finset.univ) := fun k => by
    rw [val_main_v90_apply, val_main_v89_apply, val_main_v88_apply, val_main_v87_apply, em k, ref_rowmax, ref_logit]
    rfl
  rw [val_main_v94_apply, val_main_v93_apply, val_main_v92_apply, es, val_main_v91_apply, val_main_cst_23_apply, e90 q]
  simp only [ek, e90, Ideal.hostDivf_def, Ideal.ofBits_def, Ideal.ofBits_zero_f32, zero_add]
  rfl

theorem ref_out (x0 : Vec Ideal S128x1024 .f32) (x1 : IVec S128x512 32) (x2 : Vec Ideal S128x512 .f32) (x3 : Vec Ideal S128x50000 .f32)
    (x4 : Vec Ideal S50000x1024 .f32) (x5 : Vec Ideal S50000 .f32) (x6 : Vec Ideal S2x1024 .f32) (x7 : Vec Ideal S2 .f32) (x8 : IVec S32000 32)
    (p : Fin 128) (q : Fin 50000) :
    val_main_v102 (F := Ideal) x0 x1 x2 x3 x4 x5 x6 x7 x8 (ix2 p q)
      = Ideal.log (val_main_v46 (F := Ideal) x0 x3 x6 x7 x8 (ix2 p (0 : Fin 2)) * val_main_v94 (F := Ideal) x0 x3 x4 x5 (ix2 p q)
          + val_main_v46 (F := Ideal) x0 x3 x6 x7 x8 (ix2 p (1 : Fin 2)) * val_main_v83 (F := Ideal) x1 x2 x8 (ix2 p q)) := by
  have e0 : idx_main_v95 (idx_main_v96 (ix2 p q)) = ix2 p (0 : Fin 2) :=
    funext fun a => Fin.ext (by match a with | ⟨0, _⟩ => rfl | ⟨1, _⟩ => rfl)
  have e1 : idx_main_v98 (idx_main_v99 (ix2 p q)) = ix2 p (1 : Fin 2) :=
    funext fun a => Fin.ext (by match a with | ⟨0, _⟩ => rfl | ⟨1, _⟩ => rfl)
  rw [val_main_v102_apply, val_main_v101_apply, val_main_v97_apply, val_main_v96_apply, val_main_v95_apply, e0,
    val_main_v100_apply, val_main_v99_apply, val_main_v98_apply, e1]
  rfl

end Cert.ReferenceIdeal.RefVal

end
-- ==== Proof.Val.GenProbs.lean ====
import proofs.«131213_j77824807403876_2_alg».proof.Proof.Val.Reg0Parts
import proofs.«131213_j77824807403876_2_alg».proof.Proof.Val.Reg1
import proofs.«131213_j77824807403876_2_alg».proof.Proof.Val.KHostA
import proofs.«131213_j77824807403876_2_alg».proof.Proof.Val.KHostB
import proofs.«131213_j77824807403876_2_alg».proof.Proof.Val.RefVal
import proofs.«131213_j77824807403876_2_alg».proof.Proof.Spec.Softmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Cert.Spec.Softmax

def padCol (q : Fin 50000) : Fin 51200 := ⟨q.val, by omega⟩

theorem padCol_injective : Function.Injective padCol := fun a b h => Fin.ext (by
  have := congrArg Fin.val h
  exact this)

def padTail : Finset (Fin 51200) := Finset.univ.filter fun q => 50000 ≤ q.val

theorem univ_eq_image_union_tail :
    (Finset.univ : Finset (Fin 51200)) = Finset.univ.image padCol ∪ padTail := by
  ext q
  simp only [Finset.mem_univ, Finset.mem_union, Finset.mem_image, padTail, Finset.mem_filter, true_and, true_iff]
  by_cases h : q.val < 50000
  · exact Or.inl ⟨⟨q.val, h⟩, Fin.ext rfl⟩
  · exact Or.inr (by omega)

theorem image_disjoint_tail : Disjoint (Finset.univ.image padCol) padTail := by
  rw [Finset.disjoint_left]
  intro q h1 h2
  obtain ⟨a, -, rfl⟩ := Finset.mem_image.mp h1
  have h3 : 50000 ≤ (padCol a).val := (Finset.mem_filter.mp h2).2
  have h4 : (padCol a).val = a.val := rfl
  have := a.isLt
  omega

theorem coreCols_union : coreCols 0 ∪ coreCols 1 = (Finset.univ : Finset (Fin 51200)) := by
  ext q
  simp only [Finset.mem_union, coreCols, Finset.mem_filter, Finset.mem_univ, true_and, iff_true]
  have h := q.isLt
  show q.val / 25600 = 0 ∨ q.val / 25600 = 1
  omega

theorem coreCols_disjoint : Disjoint (coreCols 0) (coreCols 1) := by
  rw [Finset.disjoint_left]
  intro q h0 h1
  have e0 : q.val / 25600 = 0 := (Finset.mem_filter.mp h0).2
  have e1 : q.val / 25600 = 1 := (Finset.mem_filter.mp h1).2
  omega

section padded
variable (y : Fin 51200 → EReal) (z : Fin 50000 → EReal)
  (hz : ∀ q : Fin 50000, y (padCol q) = z q) (hb : ∀ q : Fin 51200, 50000 ≤ q.val → y q = ⊥)

include hz hb

theorem mx_padded : mx y Finset.univ = mx z Finset.univ := by
  rw [univ_eq_image_union_tail, mx_union_bot y _ padTail fun v hv => hb v (Finset.mem_filter.mp hv).2]
  unfold mx
  rw [Finset.sup_image]
  exact congrArg (Finset.sup Finset.univ) (funext hz)

theorem sm_padded (M : EReal) : sm y Finset.univ M = sm z Finset.univ M := by
  rw [univ_eq_image_union_tail, sm_union_bot y _ padTail image_disjoint_tail (fun v hv => hb v (Finset.mem_filter.mp hv).2) M]
  unfold sm
  rw [Finset.sum_image fun a _ b _ h => padCol_injective h]
  exact Finset.sum_congr rfl fun q _ => by rw [hz q]

end padded

theorem mx_cores (y : Fin 51200 → EReal) :
    max (mx y (coreCols 0)) (mx y (coreCols 1)) = mx y Finset.univ := by
  rw [← mx_union, coreCols_union]

theorem sm_cores (y : Fin 51200 → EReal) (hy : ∀ v, y v ≠ ⊤) :
    sm y (coreCols 0) (mx y (coreCols 0)) * Ideal.exp (mx y (coreCols 0) - max (mx y (coreCols 0)) (mx y (coreCols 1)))
        + sm y (coreCols 1) (mx y (coreCols 1)) * Ideal.exp (mx y (coreCols 1) - max (mx y (coreCols 0)) (mx y (coreCols 1)))
      = sm y Finset.univ (mx y Finset.univ) := by
  have h := sm_merge y (coreCols 0) (coreCols 1) coreCols_disjoint fun v _ => hy v
  rw [coreCols_union] at h
  exact h

theorem sum_real {ι : Type} (S : Finset ι) (f : ι → EReal) (hf : ∀ i, ∃ r : ℝ, f i = (r : EReal)) :
    ∃ r : ℝ, ∑ i ∈ S, f i = (r : EReal) := by
  classical
  induction S using Finset.induction_on with
  | empty => exact ⟨0, by simp⟩
  | insert a s ha ih =>
    obtain ⟨r, hr⟩ := ih
    obtain ⟨t, ht⟩ := hf a
    exact ⟨t + r, by rw [Finset.sum_insert ha, hr, ht, EReal.coe_add]⟩

theorem rl_ne_top (X : Vec Ideal S128x1024 .f32) (K : Vec Ideal S128x50000 .f32) (Wt : Vec Ideal S50000x1024 .f32)
    (B : Vec Ideal S50000 .f32)
    (hX : ∀ i, ∃ r : ℝ, X i = (r : EReal)) (hK : ∀ i, ∃ r : ℝ, K i = (r : EReal))
    (hW : ∀ i, ∃ r : ℝ, Wt i = (r : EReal)) (hB : ∀ i, ∃ r : ℝ, B i = (r : EReal))
    (p : Fin 128) (q : Fin 50000) : Cert.ReferenceIdeal.RefVal.rl X K Wt B p q ≠ ⊤ := by
  obtain ⟨s, hs⟩ := sum_real Finset.univ (fun k : Fin 1024 => X (ix2 p k) * Wt (ix2 q k)) fun k => by
    obtain ⟨a, ha⟩ := hX (ix2 p k)
    obtain ⟨b, hb⟩ := hW (ix2 q k)
    exact ⟨a * b, by rw [ha, hb, EReal.coe_mul]⟩
  obtain ⟨b, hb⟩ := hB (ix1 q)
  obtain ⟨k, hk⟩ := hK (ix2 p q)
  show (∑ k : Fin 1024, X (ix2 p k) * Wt (ix2 q k)) + B (ix1 q) + Ideal.log (K (ix2 p q)) ≠ ⊤
  rw [hs, hb, hk, Ideal.log_coe]
  refine EReal.add_ne_top (EReal.add_ne_top (EReal.coe_ne_top _) (EReal.coe_ne_top _)) ?_
  split_ifs
  · exact bot_ne_top
  · exact EReal.coe_ne_top _

variable (m : (ℓ : Loc nD τ sig) → Buf (Elt Ideal) ℓ) (ρ : Dev nD → PrngReg)

abbrev rlRow (c : Dev nD) (p : Fin 128) : Fin 50000 → EReal :=
  Cert.ReferenceIdeal.RefVal.rl (m ((c : Thread nD τ).loc main_arg0) : Vec Ideal S128x1024 .f32)
    (m ((c : Thread nD τ).loc main_arg3) : Vec Ideal S128x50000 .f32)
    (m ((c : Thread nD τ).loc main_arg4) : Vec Ideal S50000x1024 .f32)
    (m ((c : Thread nD τ).loc main_arg5) : Vec Ideal S50000 .f32) p

theorem lp_padCol (c : Dev nD) (p : Fin 128) (q : Fin 50000) :
    lp m ρ c p (padCol q) = rlRow m c p q := by
  have hq : (padCol q).val < 50000 := q.isLt
  have eq : (⟨(padCol q).val, hq⟩ : Fin 50000) = q := Fin.ext rfl
  unfold lp xArr wArr bArr kArr rlRow Cert.ReferenceIdeal.RefVal.rl
  rw [pad_b m ρ c (padCol q), pad_k m ρ c p (padCol q), dif_pos hq, dif_pos hq, eq, x_kept m ρ c]
  congr 2
  exact Finset.sum_congr rfl fun k _ => by rw [pad_w m ρ c (padCol q) k, dif_pos hq, eq]

theorem lp_tail (c : Dev nD) (p : Fin 128) (q : Fin 51200) (hq : 50000 ≤ q.val) : lp m ρ c p q = ⊥ := by
  have hn : ¬ q.val < 50000 := by omega
  unfold lp xArr wArr bArr kArr
  rw [pad_b m ρ c q, pad_k m ρ c p q, dif_neg hn, dif_neg hn]
  have hl : Ideal.log (0 : EReal) = ⊥ := by
    rw [← EReal.coe_zero, Ideal.log_coe, if_pos le_rfl]
  rw [hl, EReal.add_bot]

section real
variable (c : Dev nD)
  (hX : ∀ i, ∃ r : ℝ, (m ((c : Thread nD τ).loc main_arg0) : Vec Ideal S128x1024 .f32) i = (r : EReal))
  (hK : ∀ i, ∃ r : ℝ, (m ((c : Thread nD τ).loc main_arg3) : Vec Ideal S128x50000 .f32) i = (r : EReal))
  (hW : ∀ i, ∃ r : ℝ, (m ((c : Thread nD τ).loc main_arg4) : Vec Ideal S50000x1024 .f32) i = (r : EReal))
  (hB : ∀ i, ∃ r : ℝ, (m ((c : Thread nD τ).loc main_arg5) : Vec Ideal S50000 .f32) i = (r : EReal))

include hX hK hW hB in

theorem lp_ne_top (p : Fin 128) (v : Fin 51200) : lp m ρ c p v ≠ ⊤ := by
  by_cases h : v.val < 50000
  · have e : v = padCol ⟨v.val, h⟩ := Fin.ext rfl
    rw [e, lp_padCol m ρ c p]
    exact rl_ne_top _ _ _ _ hX hK hW hB p _
  · rw [lp_tail m ρ c p v (by omega)]
    exact bot_ne_top

theorem lg_ref (p : Fin 128) (q : Fin 50000) : lgArr m ρ c (ix2 p (padCol q)) = rlRow m c p q := by
  show (V14 m ρ c main_v89_0 : Vec Ideal S128x51200 .f32) (ix2 p (padCol q)) = _
  rw [lg_kept m ρ c, logits_eq m ρ c p (padCol q), lp_padCol m ρ c p q]

theorem M_ref (p : Fin 128) : mArr m ρ c (ix2 p (0 : Fin 1)) = mx (rlRow m c p) Finset.univ := by
  show (V14 m ρ c main_v94 : Vec Ideal S128x1 .f32) (ix2 p (0 : Fin 1)) = _
  rw [M_apply m ρ c p]
  unfold mParts
  rw [mpart_eq m ρ c 0 p, mpart_eq m ρ c 1 p, mx_cores,
    mx_padded _ _ (lp_padCol m ρ c p) (lp_tail m ρ c p)]

include hX hK hW hB in

theorem L_ref (p : Fin 128) :
    lArr m ρ c (ix2 p (0 : Fin 1)) = sm (rlRow m c p) Finset.univ (mx (rlRow m c p) Finset.univ) := by
  have hfin := lp_ne_top m ρ c hX hK hW hB p
  show (V14 m ρ c main_v109 : Vec Ideal S128x1 .f32) (ix2 p (0 : Fin 1)) = _
  rw [L_apply m ρ c p]
  unfold mParts lParts
  rw [mpart_eq m ρ c 0 p, mpart_eq m ρ c 1 p, lpart_eq m ρ c 0 p hfin, lpart_eq m ρ c 1 p hfin,
    sm_cores _ hfin, mx_padded _ _ (lp_padCol m ρ c p) (lp_tail m ρ c p),
    sm_padded _ _ (lp_padCol m ρ c p) (lp_tail m ρ c p)]

end real

theorem genp_ref (c : Dev nD)
    (hX : ∀ i, ∃ r : ℝ, (m ((c : Thread nD τ).loc main_arg0) : Vec Ideal S128x1024 .f32) i = (r : EReal))
    (hK : ∀ i, ∃ r : ℝ, (m ((c : Thread nD τ).loc main_arg3) : Vec Ideal S128x50000 .f32) i = (r : EReal))
    (hW : ∀ i, ∃ r : ℝ, (m ((c : Thread nD τ).loc main_arg4) : Vec Ideal S50000x1024 .f32) i = (r : EReal))
    (hB : ∀ i, ∃ r : ℝ, (m ((c : Thread nD τ).loc main_arg5) : Vec Ideal S50000 .f32) i = (r : EReal))
    (p : Fin 128) (q : Fin 50000) :
    genp m ρ c p ⟨q.val, by omega⟩
      = Ideal.div
          (Ideal.exp (Cert.ReferenceIdeal.RefVal.rl (m ((c : Thread nD τ).loc main_arg0) : Vec Ideal S128x1024 .f32)
                (m ((c : Thread nD τ).loc main_arg3) : Vec Ideal S128x50000 .f32)
                (m ((c : Thread nD τ).loc main_arg4) : Vec Ideal S50000x1024 .f32)
                (m ((c : Thread nD τ).loc main_arg5) : Vec Ideal S50000 .f32) p q
              - mx (Cert.ReferenceIdeal.RefVal.rl (m ((c : Thread nD τ).loc main_arg0) : Vec Ideal S128x1024 .f32)
                (m ((c : Thread nD τ).loc main_arg3) : Vec Ideal S128x50000 .f32)
                (m ((c : Thread nD τ).loc main_arg4) : Vec Ideal S50000x1024 .f32)
                (m ((c : Thread nD τ).loc main_arg5) : Vec Ideal S50000 .f32) p) Finset.univ))
          (sm (Cert.ReferenceIdeal.RefVal.rl (m ((c : Thread nD τ).loc main_arg0) : Vec Ideal S128x1024 .f32)
                (m ((c : Thread nD τ).loc main_arg3) : Vec Ideal S128x50000 .f32)
                (m ((c : Thread nD τ).loc main_arg4) : Vec Ideal S50000x1024 .f32)
                (m ((c : Thread nD τ).loc main_arg5) : Vec Ideal S50000 .f32) p) Finset.univ
            (mx (Cert.ReferenceIdeal.RefVal.rl (m ((c : Thread nD τ).loc main_arg0) : Vec Ideal S128x1024 .f32)
                (m ((c : Thread nD τ).loc main_arg3) : Vec Ideal S128x50000 .f32)
                (m ((c : Thread nD τ).loc main_arg4) : Vec Ideal S50000x1024 .f32)
                (m ((c : Thread nD τ).loc main_arg5) : Vec Ideal S50000 .f32) p) Finset.univ)) := by
  show Ideal.div (Ideal.exp (lgArr m ρ c (ix2 p (padCol q)) - mArr m ρ c (ix2 p (0 : Fin 1)))) (lArr m ρ c (ix2 p (0 : Fin 1)))
    = Ideal.div (Ideal.exp (rlRow m c p q - mx (rlRow m c p) Finset.univ)) (sm (rlRow m c p) Finset.univ (mx (rlRow m c p) Finset.univ))
  rw [lg_ref m ρ c p q, M_ref m ρ c p, L_ref m ρ c hX hK hW hB p]

end Cert.KernelIdeal.HandVal

end
-- ==== Proof.Val.PreFacts.lean ====
import proofs.«131213_j77824807403876_2_alg».proof.Defs
import proofs.«131213_j77824807403876_2_alg».proof.Proof.Gen.Pre_finite_inputs
import Idealize.ShloMosaic.Lib.ValueIdx
import Idealize.ShloMosaic.Lib.ReduceAll
import Idealize.ShloMosaic.Lib.StableHlo.Predicate

noncomputable section

namespace Cert.KernelIdeal.HandVal

open Cert.KernelIdeal
open Idealize.ShloMosaic Idealize.ShloMosaic.TcCoe Idealize.ShloMosaic.ValueIdx Idealize.SL.Sem

instance subsingleton_scalar_idx : Subsingleton Cert.Pre_finite_inputs.S_.Idx :=
  ⟨fun a b => funext fun d => d.elim0⟩

theorem inf_pattern : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [inf_pattern] at h
  unfold Ideal.cmp at h
  rw [StableHlo.Predicate.ofBool_eq_one_iff] at h
  have hlt : max x (-x) < ⊤ := of_decide_eq_true h
  induction x using EReal.rec with
  | bot => simp at hlt
  | coe r => exact ⟨r, rfl⟩
  | top => simp at hlt

theorem nonneg_of_sge_zero (w : BitVec 32) (h : IntOp.cmpi .sge w 0#32 = 1#1) : 0 ≤ w.toInt := by
  unfold IntOp.cmpi at h
  rw [StableHlo.Predicate.ofBool_eq_one_iff] at h
  simpa [BitVec.sle] using h

theorem decode [hP : Cert.Pre_finite_inputs.Facts]
    (a0 : FVec Ideal Cert.Pre_finite_inputs.S128x1024 .f32) (a1 : IVec Cert.Pre_finite_inputs.S128x512 32)
    (a2 : FVec Ideal Cert.Pre_finite_inputs.S128x512 .f32) (a3 : FVec Ideal Cert.Pre_finite_inputs.S128x50000 .f32)
    (a4 : FVec Ideal Cert.Pre_finite_inputs.S50000x1024 .f32) (a5 : FVec Ideal Cert.Pre_finite_inputs.S50000 .f32)
    (a6 : FVec Ideal Cert.Pre_finite_inputs.S2x1024 .f32) (a7 : FVec Ideal Cert.Pre_finite_inputs.S2 .f32)
    (a8 : IVec Cert.Pre_finite_inputs.S32000 32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ ∀ j, 0 ≤ (a8 j).toInt := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨h0, -⟩, h3⟩, h4⟩, h5⟩, -⟩, -⟩, h8⟩ := e
  refine ⟨fun i => ?_, fun i => ?_, fun i => ?_, fun i => ?_, fun j => ?_⟩
  · exact real_of_abs_lt_inf _ (Host.reduce_andi_all _ _ _ _ _ h0 i)
  · exact real_of_abs_lt_inf _ (Host.reduce_andi_all _ _ _ _ _ h3 i)
  · exact real_of_abs_lt_inf _ (Host.reduce_andi_all _ _ _ _ _ h4 i)
  · exact real_of_abs_lt_inf _ (Host.reduce_andi_all _ _ _ _ _ h5 i)
  · exact nonneg_of_sge_zero _ (Host.reduce_andi_all _ _ _ _ _ h8 j)

variable [hP : Cert.Pre_finite_inputs.Facts]
variable (m : (ℓ : Loc nD τ sig) → Buf (Elt Ideal) ℓ)

theorem fin_arg0 (h : Cert.Pre_KernelIdeal m) (c : Dev nD) (i : S128x1024.Idx) :
    ∃ r : ℝ, (m ((c.tc : Thread nD τ).loc main_arg0) : Vec Ideal S128x1024 .f32) i = (r : EReal) :=
  (decode _ _ _ _ _ _ _ _ _ (h c)).1 i
theorem fin_arg3 (h : Cert.Pre_KernelIdeal m) (c : Dev nD) (i : S128x50000.Idx) :
    ∃ r : ℝ, (m ((c.tc : Thread nD τ).loc main_arg3) : Vec Ideal S128x50000 .f32) i = (r : EReal) :=
  (decode _ _ _ _ _ _ _ _ _ (h c)).2.1 i
theorem fin_arg4 (h : Cert.Pre_KernelIdeal m) (c : Dev nD) (i : S50000x1024.Idx) :
    ∃ r : ℝ, (m ((c.tc : Thread nD τ).loc main_arg4) : Vec Ideal S50000x1024 .f32) i = (r : EReal) :=
  (decode _ _ _ _ _ _ _ _ _ (h c)).2.2.1 i
theorem fin_arg5 (h : Cert.Pre_KernelIdeal m) (c : Dev nD) (i : S50000.Idx) :
    ∃ r : ℝ, (m ((c.tc : Thread nD τ).loc main_arg5) : Vec Ideal S50000 .f32) i = (r : EReal) :=
  (decode _ _ _ _ _ _ _ _ _ (h c)).2.2.2.1 i

theorem idx_nonneg (h : Cert.Pre_KernelIdeal m) (c : Dev nD) (j : S32000.Idx) :
    0 ≤ ((m ((c.tc : Thread nD τ).loc main_arg8) : IVec S32000 32) j).toInt :=
  (decode _ _ _ _ _ _ _ _ _ (h c)).2.2.2.2 j

end Cert.KernelIdeal.HandVal

end
-- ==== Proof.Val.Results.lean ====
import proofs.«131213_j77824807403876_2_alg».proof.Proof.KI.Kept
import proofs.«131213_j77824807403876_2_alg».proof.Proof.RefReadP
import proofs.«131213_j77824807403876_2_alg».proof.Proof.Val.GenProbs
import proofs.«131213_j77824807403876_2_alg».proof.Proof.Val.PreFacts
import proofs.«131213_j77824807403876_2_alg».proof.Proof.Spec.Scatter
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Cert.Spec.Softmax

variable (m : (ℓ : Loc nD τ sig) → Buf (Elt Ideal) ℓ) (ρ : Dev nD → PrngReg)

theorem keep_attn (c : Dev nD) : W16 m ρ c (Proc.devRef .tc main_v63) = Wh3 m ρ c (Proc.devRef .tc main_v63) :=
  Wn_keep m ρ c main_v63 3 16 (by omega) (by decide) (by omega)

theorem keep_gate (c : Dev nD) : W16 m ρ c (Proc.devRef .tc main_v52) = Wh3 m ρ c (Proc.devRef .tc main_v52) :=
  Wn_keep m ρ c main_v52 3 16 (by omega) (by decide) (by omega)

theorem keep_gate13 (c : Dev nD) : W13 m ρ c (Proc.devRef .tc main_v52) = Wh3 m ρ c (Proc.devRef .tc main_v52) :=
  Wn_keep m ρ c main_v52 3 13 (by omega) (by decide) (by omega)

theorem keep_ptr13 (c : Dev nD) : W13 m ρ c (Proc.devRef .tc main_v84) = Wh6 m ρ c (Proc.devRef .tc main_v84) :=
  Wn_keep m ρ c main_v84 6 13 (by omega) (by decide) (by omega)

section
variable [hP : Cert.Pre_finite_inputs.Facts]

theorem refAct_stage (a8 : (⟨Cert.ReferenceIdeal.S32000, .i32⟩ : BufTy).Contents (Elt Ideal)) :
    Cert.Spec.Scatter.refAct (F := Ideal) a8 = Cert.ReferenceIdeal.ReadP.val_main_v22 (F := Ideal) a8 := rfl

theorem refPtr_stage (x1 : (⟨Cert.ReferenceIdeal.S128x512, .i32⟩ : BufTy).Contents (Elt Ideal))
    (x2 : (⟨Cert.ReferenceIdeal.S128x512, .f32⟩ : BufTy).Contents (Elt Ideal))
    (a8 : (⟨Cert.ReferenceIdeal.S32000, .i32⟩ : BufTy).Contents (Elt Ideal)) :
    Cert.Spec.Scatter.refPtr (F := Ideal) a8 (Cert.ReferenceIdeal.ReadP.val_main_v75 (F := Ideal) x1 x2)
      = Cert.ReferenceIdeal.ReadP.val_main_v83 (F := Ideal) x1 x2 a8 := rfl

theorem act_ref (hpre : Cert.Pre_KernelIdeal m) (c : Dev nD) :
    Wh2 m ρ c (Proc.devRef .tc main_v28) = Cert.ReferenceIdeal.ReadP.val_main_v22 (m ((c : Thread nD τ).loc main_arg8)) := by
  exact (act_raw m ρ c).trans ((Cert.Spec.Scatter.act_eq _ (idx_nonneg m hpre c)).trans (refAct_stage _))

theorem ptr_ref (hpre : Cert.Pre_KernelIdeal m) (c : Dev nD) (p : Fin 128) (q : Fin 50000) :
    (Wh6 m ρ c (Proc.devRef .tc main_v84) : Vec Ideal S128x51200 .f32) (ix2 p ⟨q.val, by omega⟩)
      = Cert.ReferenceIdeal.ReadP.val_main_v83 (m ((c : Thread nD τ).loc main_arg1)) (m ((c : Thread nD τ).loc main_arg2))
          (m ((c : Thread nD τ).loc main_arg8)) (ix2 p q) := by
  rw [ptr_raw m ρ c, Cert.Spec.Scatter.ptr_eq _ (idx_nonneg m hpre c) _ p q, inpdist_eq m ρ c, refPtr_stage]

theorem gen_ref (hpre : Cert.Pre_KernelIdeal m) (c : Dev nD) (p : Fin 128) (q : Fin 50000) :
    genp m ρ c p ⟨q.val, by omega⟩
      = Cert.ReferenceIdeal.ReadP.val_main_v94 (m ((c : Thread nD τ).loc main_arg0)) (m ((c : Thread nD τ).loc main_arg3))
          (m ((c : Thread nD τ).loc main_arg4)) (m ((c : Thread nD τ).loc main_arg5)) (ix2 p q) := by
  rw [genp_ref m ρ c (fin_arg0 m hpre c) (fin_arg3 m hpre c) (fin_arg4 m hpre c) (fin_arg5 m hpre c) p q]
  exact (Cert.ReferenceIdeal.RefVal.ref_gen _ _ _ _ p q).symm

theorem res_attn (c : Dev nD) :
    W16 m ρ c (Proc.devRef .tc main_v63) = Cert.ReferenceIdeal.ReadP.val_main_v57 (m ((c : Thread nD τ).loc main_arg2)) :=
  (keep_attn m ρ c).trans (attn_eq m ρ c)

theorem res_gate (hpre : Cert.Pre_KernelIdeal m) (c : Dev nD) :
    W16 m ρ c (Proc.devRef .tc main_v52)
      = Cert.ReferenceIdeal.ReadP.val_main_v46 (m ((c : Thread nD τ).loc main_arg0)) (m ((c : Thread nD τ).loc main_arg3))
          (m ((c : Thread nD τ).loc main_arg6)) (m ((c : Thread nD τ).loc main_arg7)) (m ((c : Thread nD τ).loc main_arg8)) :=
  (keep_gate m ρ c).trans (gate_eq m ρ c (act_ref m ρ hpre c))

theorem res_gen (hpre : Cert.Pre_KernelIdeal m) (c : Dev nD) :
    W16 m ρ c (Proc.devRef .tc main_v114)
      = Cert.ReferenceIdeal.ReadP.val_main_v94 (m ((c : Thread nD τ).loc main_arg0)) (m ((c : Thread nD τ).loc main_arg3))
          (m ((c : Thread nD τ).loc main_arg4)) (m ((c : Thread nD τ).loc main_arg5)) := by
  funext i
  obtain ⟨p, q, rfl⟩ : ∃ (p : Fin 128) (q : Fin 50000), i = ix2 p q := ⟨i 0, i 1, eq_ix2 i⟩
  rw [gen_apply m ρ c p q, genp_eq m ρ c p _]
  exact gen_ref m ρ hpre c p q

theorem res_out (hpre : Cert.Pre_KernelIdeal m) (c : Dev nD) :
    W16 m ρ c (Proc.devRef .tc main_v113)
      = Cert.ReferenceIdeal.ReadP.val_main_v102 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  funext i
  obtain ⟨p, q, rfl⟩ : ∃ (p : Fin 128) (q : Fin 50000), i = ix2 p q := ⟨i 0, i 1, eq_ix2 i⟩

  have hg13 : (V13 m ρ c main_v52 : Vec Ideal S128x2 .f32)
      = Cert.ReferenceIdeal.ReadP.val_main_v46 (m ((c : Thread nD τ).loc main_arg0)) (m ((c : Thread nD τ).loc main_arg3))
          (m ((c : Thread nD τ).loc main_arg6)) (m ((c : Thread nD τ).loc main_arg7)) (m ((c : Thread nD τ).loc main_arg8)) :=
    (keep_gate13 m ρ c).trans (gate_eq m ρ c (act_ref m ρ hpre c))
  have h0 : p0Arr m ρ c (ix2 p (0 : Fin 1))
      = Cert.ReferenceIdeal.ReadP.val_main_v46 (m ((c : Thread nD τ).loc main_arg0)) (m ((c : Thread nD τ).loc main_arg3))
          (m ((c : Thread nD τ).loc main_arg6)) (m ((c : Thread nD τ).loc main_arg7)) (m ((c : Thread nD τ).loc main_arg8)) (ix2 p (0 : Fin 2)) := by
    rw [← hg13]; exact p0_apply m ρ c p
  have h1 : p1Arr m ρ c (ix2 p (0 : Fin 1))
      = Cert.ReferenceIdeal.ReadP.val_main_v46 (m ((c : Thread nD τ).loc main_arg0)) (m ((c : Thread nD τ).loc main_arg3))
          (m ((c : Thread nD τ).loc main_arg6)) (m ((c : Thread nD τ).loc main_arg7)) (m ((c : Thread nD τ).loc main_arg8)) (ix2 p (1 : Fin 2)) := by
    rw [← hg13]; exact p1_apply m ρ c p

  have hpt : ptArr m ρ c (ix2 p ⟨q.val, by omega⟩)
      = Cert.ReferenceIdeal.ReadP.val_main_v83 (m ((c : Thread nD τ).loc main_arg1)) (m ((c : Thread nD τ).loc main_arg2))
          (m ((c : Thread nD τ).loc main_arg8)) (ix2 p q) := by
    rw [← ptr_ref m ρ hpre c p q]
    exact congrFun ((pt_kept m ρ c).trans (keep_ptr13 m ρ c)) _
  rw [out_apply m ρ c p q, outp_eq m ρ c p _, h0, h1, hpt, gen_ref m ρ hpre c p q]
  exact (Cert.ReferenceIdeal.RefVal.ref_out _ _ _ _ _ _ _ _ _ p q).symm

end

end Cert.KernelIdeal.HandVal

end
-- ==== Proof.lean ====
/-
  Two kernels — logits with a streamed softmax, then a blend — with gathers and scatters between them, against the plain
  reference, every float input finite and every id non-negative. Tile by tile the running maximum and sum of exponentials
  are the row's; gathering through a last-wins inverse map is the reference's last-wins column scatter.
-/
import proofs.«131213_j77824807403876_2_alg».proof.Defs
import proofs.«131213_j77824807403876_2_alg».proof.Proof.Gen.Kernel
import proofs.«131213_j77824807403876_2_alg».proof.Proof.Gen.KernelIdeal
import proofs.«131213_j77824807403876_2_alg».proof.Proof.Gen.ReferenceIdeal
import proofs.«131213_j77824807403876_2_alg».proof.Proof.Gen.Pre_finite_inputs
import proofs.«131213_j77824807403876_2_alg».proof.Proof.Frames
import proofs.«131213_j77824807403876_2_alg».proof.Proof.RefFrame
import proofs.«131213_j77824807403876_2_alg».proof.Proof.Val.Results
import Idealize.ShloMosaic.Adequacy
import Idealize.ShloMosaic.Init

noncomputable section

namespace Cert.Proof

open Idealize.ShloMosaic Idealize.ShloMosaic.TcCoe Idealize.SL.Sem
open Cert.KernelIdeal.Hand Cert.KernelIdeal.HandVal Cert.ReferenceIdeal.ReadP

theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => W16 m ρ c (Proc.devRef .tc Cert.KernelIdeal.main_v113), fun c => W16 m ρ c (Proc.devRef .tc Cert.KernelIdeal.main_v52),
    fun c => W16 m ρ c (Proc.devRef .tc Cert.KernelIdeal.main_v114), fun c => W16 m ρ c (Proc.devRef .tc Cert.KernelIdeal.main_v63), ?_, ?_⟩
  · exact (θ_run Cert.KernelIdeal.defs _ _).mono (fun r h c => ⟨(h c).1 _ (mem_uc Cert.KernelIdeal.main_v113 (by decide)), (h c).1 _ (mem_uc Cert.KernelIdeal.main_v52 (by decide)), (h c).1 _ (mem_uc Cert.KernelIdeal.main_v114 (by decide)), (h c).1 _ (mem_uc Cert.KernelIdeal.main_v63 (by decide)), (h c).2⟩)
      (run_args (F := Ideal) m ρ)
  · refine (θ_run Cert.ReferenceIdeal.defs _ _).mono (fun r h c => ?_) (Cert.Proof.RefSide.ref_results (F := Ideal) m' ρ')
    obtain ⟨h0, h1, h2, h3, hargs⟩ := h c
    obtain ⟨a0, a1, a2, a3, a4, a5, a6, a7, a8⟩ := hagree c
    rw [a0, a1, a2, a3, a4, a5, a6, a7, a8] at h0
    rw [a0, a3, a6, a7, a8] at h1
    rw [a0, a3, a4, a5] at h2
    rw [a2] at h3
    exact ⟨h0.trans (res_out m ρ hpre c).symm, h1.trans (res_gate m ρ hpre c).symm, h2.trans (res_gen m ρ hpre c).symm,
      h3.trans (res_attn m ρ c).symm, hargs⟩

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.RefSide.frame_ri, trivial, algebraic⟩

end Cert.Proof

end
